-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  IdealRules.truncf_extf.Statement Cert.KernelIdeal.S10000x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S16x32 : Shape := ⟨2, ![16, 32]⟩
abbrev S16 : Shape := ⟨1, ![16]⟩
abbrev S16x16 : Shape := ⟨2, ![16, 16]⟩
abbrev S32 : Shape := ⟨1, ![32]⟩
abbrev S1x16 : Shape := ⟨2, ![1, 16]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S32 : S_.BroadcastsInDim S32 (![] : Fin 0 → Fin S32.rank)
  reducesTo_S32_S_d0 : S32.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S1x16 .f32) (main_arg24 : FVec F S1 .f32) (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  let main_v104 : FVec F S1x16 .f32 := Host.absf main_arg23
  let main_cst_40 : FVec F S_ .f32 := constant S_ .f32 0x7F800000#32
  let main_v105 : FVec F S1x16 .f32 := broadcastInDim S1x16 ![] bcast_S_S1x16 main_cst_40
  let main_v106 : IVec S1x16 1 := cmpf .olt main_v104 main_v105
  let main_c_41 : IVec S_ 1 := constantI S_ 1 1#1
  let main_v107 : IVec S_ 1 := (fun x v => Host.reduce IntOp.andi x v reducesTo_S1x16_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg20 : FVec F S32 .f32) (main_arg21 : FVec F S16x32 .f32) (main_arg22 : FVec F S16 .f32) (main_arg23 : FVec F S1x16 .f32) (main_arg24 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S16x32 .f32 := Host.absf main_arg21
  let main_cst_36 : FVec F S_ .f32 := constant S_ .f32 0x7F800000#32
  let main_v95 : FVec F S16x32 .f32 := broadcastInDim S16x32 ![] bcast_S_S16x32 main_cst_36
  let main_v96 : IVec S16x32 1 := cmpf .olt main_v94 main_v95
  let main_c_37 : IVec S_ 1 := constantI S_ 1 1#1
  let main_v97 : IVec S_ 1 := (fun x v => Host.reduce IntOp.andi x v reducesTo_S16x32_S_d0_1 h_S_) main_v96 main_c_37
  let main_v98 : IVec S_ 1 := andi main_v93 main_v97
  let main_v99 : FVec F S16 .f32 := Host.absf main_arg22
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S32 .f32) (main_arg17 : FVec F S16x32 .f32) (main_arg18 : FVec F S16 .f32) (main_arg19 : FVec F S32 .f32) (main_arg20 : FVec F S32 .f32) (main_arg21 : FVec F S16x32 .f32) (main_arg22 : FVec F S16 .f32) (main_arg23 : FVec F S1x16 .f32) (main_arg24 : FVec F S1 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S16x32 .f32 := Host.absf main_arg17
  let main_cst_28 : FVec F S_ .f32 := constant S_ .f32 0x7F800000#32
  let main_v75 : FVec F S16x32 .f32 := broadcastInDim S16x32 ![] bcast_S_S16x32 main_cst_28
  let main_v76 : IVec S16x32 1 := cmpf .olt main_v74 main_v75
  let main_c_29 : IVec S_ 1 := constantI S_ 1 1#1
  let main_v77 : IVec S_ 1 := (fun x v => Host.reduce IntOp.andi x v reducesTo_S16x32_S_d0_1 h_S_) main_v76 main_c_29
  let main_v78 : IVec S_ 1 := andi main_v73 main_v77
  let main_v79 : FVec F S16 .f32 := Host.absf main_arg18
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S16x16 .f32) (main_arg14 : FVec F S16 .f32) (main_arg15 : FVec F S32 .f32) (main_arg16 : FVec F S32 .f32) (main_arg17 : FVec F S16x32 .f32) (main_arg18 : FVec F S16 .f32) (main_arg19 : FVec F S32 .f32) (main_arg20 : FVec F S32 .f32) (main_arg21 : FVec F S16x32 .f32) (main_arg22 : FVec F S16 .f32) (main_arg23 : FVec F S1x16 .f32) (main_arg24 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg13
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S16x16 .f32) (main_arg10 : FVec F S16 .f32) (main_arg11 : FVec F S16 .f32) (main_arg12 : FVec F S16 .f32) (main_arg13 : FVec F S16x16 .f32) (main_arg14 : FVec F S16 .f32) (main_arg15 : FVec F S32 .f32) (main_arg16 : FVec F S32 .f32) (main_arg17 : FVec F S16x32 .f32) (main_arg18 : FVec F S16 .f32) (main_arg19 : FVec F S32 .f32) (main_arg20 : FVec F S32 .f32) (main_arg21 : FVec F S16x32 .f32) (main_arg22 : FVec F S16 .f32) (main_arg23 : FVec F S1x16 .f32) (main_arg24 : FVec F S1 .f32) (main_v33 : IVec S_ 1) : IVec S_ 1 :=
  let main_v34 : FVec F S16x16 .f32 := Host.absf main_arg9
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S16 .f32) (main_arg7 : FVec F S16 .f32) (main_arg8 : FVec F S16x16 .f32) (main_arg9 : FVec F S16x16 .f32) (main_arg10 : FVec F S16 .f32) (main_arg11 : FVec F S16 .f32) (main_arg12 : FVec F S16 .f32) (main_arg13 : FVec F S16x16 .f32) (main_arg14 : FVec F S16 .f32) (main_arg15 : FVec F S32 .f32) (main_arg16 : FVec F S32 .f32) (main_arg17 : FVec F S16x32 .f32) (main_arg18 : FVec F S16 .f32) (main_arg19 : FVec F S32 .f32) (main_arg20 : FVec F S32 .f32) (main_arg21 : FVec F S16x32 .f32) (main_arg22 : FVec F S16 .f32) (main_arg23 : FVec F S1x16 .f32) (main_arg24 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg8
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x32 .f32) (main_arg1 : IVec S2x1600000 32) (main_arg2 : IVec S100000 32) (main_arg3 : FVec F S16x32 .f32) (main_arg4 : FVec F S16x32 .f32) (main_arg5 : FVec F S16 .f32) (main_arg6 : FVec F S16 .f32) (main_arg7 : FVec F S16 .f32) (main_arg8 : FVec F S16x16 .f32) (main_arg9 : FVec F S16x16 .f32) (main_arg10 : FVec F S16 .f32) (main_arg11 : FVec F S16 .f32) (main_arg12 : FVec F S16 .f32) (main_arg13 : FVec F S16x16 .f32) (main_arg14 : FVec F S16 .f32) (main_arg15 : FVec F S32 .f32) (main_arg16 : FVec F S32 .f32) (main_arg17 : FVec F S16x32 .f32) (main_arg18 : FVec F S16 .f32) (main_arg19 : FVec F S32 .f32) (main_arg20 : FVec F S32 .f32) (main_arg21 : FVec F S16x32 .f32) (main_arg22 : FVec F S16 .f32) (main_arg23 : FVec F S1x16 .f32) (main_arg24 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S16x32 .f32 := Host.absf main_arg3
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16x32 .f32 := Host.absf main_arg4
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S16x32 : Shape := ⟨2, ![16, 32]⟩
abbrev S16 : Shape := ⟨1, ![16]⟩
abbrev S16x16 : Shape := ⟨2, ![16, 16]⟩
abbrev S32 : Shape := ⟨1, ![32]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x32 : Shape := ⟨2, ![1600000, 32]⟩
abbrev S32x16 : Shape := ⟨2, ![32, 16]⟩
abbrev S100000x16 : Shape := ⟨2, ![100000, 16]⟩
abbrev S10000x32 : Shape := ⟨2, ![10000, 32]⟩
abbrev S10000x1 : Shape := ⟨2, ![10000, 1]⟩
abbrev S10000x16 : Shape := ⟨2, ![10000, 16]⟩
abbrev S1600000x16 : Shape := ⟨2, ![1600000, 16]⟩
abbrev S256x16 : Shape := ⟨2, ![256, 16]⟩
abbrev S1x256 : Shape := ⟨2, ![1, 256]⟩
abbrev S10000x256 : Shape := ⟨2, ![10000, 256]⟩
abbrev S256 : Shape := ⟨1, ![256]⟩
abbrev S256x1 : Shape := ⟨2, ![256, 1]⟩
abbrev S256x32 : Shape := ⟨2, ![256, 32]⟩
abbrev S1x32 : Shape := ⟨2, ![1, 32]⟩
abbrev S16x1 : Shape := ⟨2, ![16, 1]⟩
abbrev S1x1 : Shape := ⟨2, ![1, 1]⟩

abbrev nBuf : Space → Nat
  | .hbm => 266
  | .vmem => 36
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S16x32, .f32⟩
  | 4 => ⟨S16x32, .f32⟩
  | 5 => ⟨S16, .f32⟩
  | 6 => ⟨S16, .f32⟩
  | 7 => ⟨S16, .f32⟩
  | 8 => ⟨S16x16, .f32⟩
  | 9 => ⟨S16x16, .f32⟩
  | 10 => ⟨S16, .f32⟩
  | 11 => ⟨S16, .f32⟩
  | 12 => ⟨S16, .f32⟩
  | 13 => ⟨S16x16, .f32⟩
  | 14 => ⟨S16, .f32⟩
  | 15 => ⟨S32, .f32⟩
  | 16 => ⟨S32, .f32⟩
  | 17 => ⟨S16x32, .f32⟩
  | 18 => ⟨S16, .f32⟩
  | 19 => ⟨S32, .f32⟩
  | 20 => ⟨S32, .f32⟩
  | 21 => ⟨S16x32, .f32⟩
  | 22 => ⟨S16, .f32⟩
  | 23 => ⟨S1x16, .f32⟩
  | 24 => ⟨S1, .f32⟩
  | 25 => ⟨S1x1600000, .i32⟩
  | 26 => ⟨S1600000, .i32⟩
  | 27 => ⟨S1x1600000, .i32⟩
  | 28 => ⟨S1600000, .i32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S_, .f32⟩
  | 49 => ⟨S100000x32, .f32⟩
  | 50 => ⟨S1600000x1, .i32⟩
  | 51 => ⟨S100000x32, .f32⟩
  | 52 => ⟨S32x16, .f32⟩
  | 53 => ⟨S32x16, .f32⟩
  | 54 => ⟨S1x16, .f32⟩
  | 55 => ⟨S100000x16, .f32⟩
  | 56 => ⟨S1x16, .f32⟩
  | 57 => ⟨S1x16, .f32⟩
  | 58 => ⟨S_, .f32⟩
  | 59 => ⟨S1x16, .f32⟩
  | 60 => ⟨S1x16, .f32⟩
  | 61 => ⟨S_, .f32⟩
  | 62 => ⟨S1x16, .f32⟩
  | 63 => ⟨S1x16, .f32⟩
  | 64 => ⟨S1x16, .f32⟩
  | 65 => ⟨S1x16, .f32⟩
  | 66 => ⟨S1x16, .f32⟩
  | 67 => ⟨S_, .f32⟩
  | 68 => ⟨S1x16, .f32⟩
  | 69 => ⟨S1x16, .f32⟩
  | 70 => ⟨S1x16, .f32⟩
  | 71 => ⟨S1x16, .f32⟩
  | 72 => ⟨S1x16, .f32⟩
  | 73 => ⟨S1x16, .f32⟩
  | 74 => ⟨S1x16, .f32⟩
  | 75 => ⟨S100000x16, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x16, .f32⟩
  | 85 => ⟨S_, .f32⟩
  | 86 => ⟨S100000x16, .f32⟩
  | 87 => ⟨S1600000x1, .i32⟩
  | 88 => ⟨S100000x16, .f32⟩
  | 89 => ⟨S16x16, .f32⟩
  | 90 => ⟨S16x16, .f32⟩
  | 91 => ⟨S1x16, .f32⟩
  | 92 => ⟨S100000x16, .f32⟩
  | 93 => ⟨S100000x1, .i32⟩
  | 94 => ⟨S256x16, .f32⟩
  | 95 => ⟨S1x256, .f32⟩
  | 96 => ⟨S256, .f32⟩
  | 97 => ⟨S_, .f32⟩
  | 98 => ⟨S256, .f32⟩
  | 99 => ⟨S256, .f32⟩
  | 100 => ⟨S256x1, .f32⟩
  | 101 => ⟨S256x16, .f32⟩
  | 102 => ⟨S256x16, .f32⟩
  | 103 => ⟨S_, .f32⟩
  | 104 => ⟨S16, .f32⟩
  | 105 => ⟨S_, .f32⟩
  | 106 => ⟨S16, .f32⟩
  | 107 => ⟨S16, .f32⟩
  | 108 => ⟨S_, .i32⟩
  | 109 => ⟨S_, .f32⟩
  | 110 => ⟨S16, .f32⟩
  | 111 => ⟨S1x16, .f32⟩
  | 112 => ⟨S_, .f32⟩
  | 113 => ⟨S1x16, .f32⟩
  | 114 => ⟨S1x16, .f32⟩
  | 115 => ⟨S256x16, .f32⟩
  | 116 => ⟨S256x16, .f32⟩
  | 117 => ⟨S256x16, .f32⟩
  | 118 => ⟨S_, .f32⟩
  | 119 => ⟨S_, .f32⟩
  | 120 => ⟨S_, .f32⟩
  | 121 => ⟨S_, .f32⟩
  | 122 => ⟨S16, .f32⟩
  | 123 => ⟨S16, .f32⟩
  | 124 => ⟨S16, .f32⟩
  | 125 => ⟨S_, .f32⟩
  | 126 => ⟨S_, .i1⟩
  | 127 => ⟨S_, .f32⟩
  | _ => ⟨S100000x32, .f32⟩

abbrev hbmTy0_1 (i : Nat) : BufTy := match i % 128 with
  | 0 => ⟨S_, .f32⟩
  | 1 => ⟨S16, .f32⟩
  | 2 => ⟨S16, .f32⟩
  | 3 => ⟨S1x16, .f32⟩
  | 4 => ⟨S256x16, .f32⟩
  | 5 => ⟨S256x16, .f32⟩
  | 6 => ⟨S_, .f32⟩
  | 7 => ⟨S16, .f32⟩
  | 8 => ⟨S16, .f32⟩
  | 9 => ⟨S16, .f32⟩
  | 10 => ⟨S1x16, .f32⟩
  | 11 => ⟨S256x16, .f32⟩
  | 12 => ⟨S256x16, .f32⟩
  | 13 => ⟨S1x16, .f32⟩
  | 14 => ⟨S256x16, .f32⟩
  | 15 => ⟨S256x16, .f32⟩
  | 16 => ⟨S1x16, .f32⟩
  | 17 => ⟨S256x16, .f32⟩
  | 18 => ⟨S256x16, .f32⟩
  | 19 => ⟨S16x16, .f32⟩
  | 20 => ⟨S256x16, .f32⟩
  | 21 => ⟨S1x16, .f32⟩
  | 22 => ⟨S256x16, .f32⟩
  | 23 => ⟨S256x16, .f32⟩
  | 24 => ⟨S_, .f32⟩
  | 25 => ⟨S256x16, .f32⟩
  | 26 => ⟨S256x16, .f32⟩
  | 27 => ⟨S256x32, .f32⟩
  | 28 => ⟨S_, .f32⟩
  | 29 => ⟨S32, .f32⟩
  | 30 => ⟨S_, .f32⟩
  | 31 => ⟨S32, .f32⟩
  | 32 => ⟨S32, .f32⟩
  | 33 => ⟨S_, .i32⟩
  | 34 => ⟨S_, .f32⟩
  | 35 => ⟨S32, .f32⟩
  | 36 => ⟨S1x32, .f32⟩
  | 37 => ⟨S_, .f32⟩
  | 38 => ⟨S1x32, .f32⟩
  | 39 => ⟨S1x32, .f32⟩
  | 40 => ⟨S256x32, .f32⟩
  | 41 => ⟨S256x32, .f32⟩
  | 42 => ⟨S256x32, .f32⟩
  | 43 => ⟨S_, .f32⟩
  | 44 => ⟨S_, .f32⟩
  | 45 => ⟨S_, .f32⟩
  | 46 => ⟨S_, .f32⟩
  | 47 => ⟨S32, .f32⟩
  | 48 => ⟨S32, .f32⟩
  | 49 => ⟨S32, .f32⟩
  | 50 => ⟨S_, .f32⟩
  | 51 => ⟨S_, .i1⟩
  | 52 => ⟨S_, .f32⟩
  | 53 => ⟨S_, .f32⟩
  | 54 => ⟨S32, .f32⟩
  | 55 => ⟨S32, .f32⟩
  | 56 => ⟨S1x32, .f32⟩
  | 57 => ⟨S256x32, .f32⟩
  | 58 => ⟨S256x32, .f32⟩
  | 59 => ⟨S_, .f32⟩
  | 60 => ⟨S32, .f32⟩
  | 61 => ⟨S32, .f32⟩
  | 62 => ⟨S32, .f32⟩
  | 63 => ⟨S1x32, .f32⟩
  | 64 => ⟨S256x32, .f32⟩
  | 65 => ⟨S256x32, .f32⟩
  | 66 => ⟨S1x32, .f32⟩
  | 67 => ⟨S256x32, .f32⟩
  | 68 => ⟨S256x32, .f32⟩
  | 69 => ⟨S1x32, .f32⟩
  | 70 => ⟨S256x32, .f32⟩
  | 71 => ⟨S256x32, .f32⟩
  | 72 => ⟨S32x16, .f32⟩
  | 73 => ⟨S256x16, .f32⟩
  | 74 => ⟨S1x16, .f32⟩
  | 75 => ⟨S256x16, .f32⟩
  | 76 => ⟨S256x16, .f32⟩
  | 77 => ⟨S_, .f32⟩
  | 78 => ⟨S256x16, .f32⟩
  | 79 => ⟨S256x16, .f32⟩
  | 80 => ⟨S256x32, .f32⟩
  | 81 => ⟨S_, .f32⟩
  | 82 => ⟨S32, .f32⟩
  | 83 => ⟨S_, .f32⟩
  | 84 => ⟨S32, .f32⟩
  | 85 => ⟨S32, .f32⟩
  | 86 => ⟨S_, .i32⟩
  | 87 => ⟨S_, .f32⟩
  | 88 => ⟨S32, .f32⟩
  | 89 => ⟨S1x32, .f32⟩
  | 90 => ⟨S_, .f32⟩
  | 91 => ⟨S1x32, .f32⟩
  | 92 => ⟨S1x32, .f32⟩
  | 93 => ⟨S256x32, .f32⟩
  | 94 => ⟨S256x32, .f32⟩
  | 95 => ⟨S256x32, .f32⟩
  | 96 => ⟨S_, .f32⟩
  | 97 => ⟨S_, .f32⟩
  | 98 => ⟨S_, .f32⟩
  | 99 => ⟨S_, .f32⟩
  | 100 => ⟨S32, .f32⟩
  | 101 => ⟨S32, .f32⟩
  | 102 => ⟨S32, .f32⟩
  | 103 => ⟨S_, .f32⟩
  | 104 => ⟨S_, .i1⟩
  | 105 => ⟨S_, .f32⟩
  | 106 => ⟨S_, .f32⟩
  | 107 => ⟨S32, .f32⟩
  | 108 => ⟨S32, .f32⟩
  | 109 => ⟨S1x32, .f32⟩
  | 110 => ⟨S256x32, .f32⟩
  | 111 => ⟨S256x32, .f32⟩
  | 112 => ⟨S_, .f32⟩
  | 113 => ⟨S32, .f32⟩
  | 114 => ⟨S32, .f32⟩
  | 115 => ⟨S32, .f32⟩
  | 116 => ⟨S1x32, .f32⟩
  | 117 => ⟨S256x32, .f32⟩
  | 118 => ⟨S256x32, .f32⟩
  | 119 => ⟨S1x32, .f32⟩
  | 120 => ⟨S256x32, .f32⟩
  | 121 => ⟨S256x32, .f32⟩
  | 122 => ⟨S1x32, .f32⟩
  | 123 => ⟨S256x32, .f32⟩
  | 124 => ⟨S256x32, .f32⟩
  | 125 => ⟨S32x16, .f32⟩
  | 126 => ⟨S256x16, .f32⟩
  | 127 => ⟨S1x16, .f32⟩
  | _ => ⟨S100000x32, .f32⟩

abbrev hbmTy0_2 (i : Nat) : BufTy := match i % 128 with
  | 0 => ⟨S256x16, .f32⟩
  | 1 => ⟨S256x16, .f32⟩
  | 2 => ⟨S_, .f32⟩
  | 3 => ⟨S256x16, .f32⟩
  | 4 => ⟨S256x16, .f32⟩
  | 5 => ⟨S16x1, .f32⟩
  | 6 => ⟨S256x1, .f32⟩
  | 7 => ⟨S1x1, .f32⟩
  | 8 => ⟨S256x1, .f32⟩
  | 9 => ⟨S256x1, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S10000x1, .f32⟩
  | .local _ .vmem, ⟨3, _⟩ => ⟨S10000x1, .f32⟩
  | .local _ .vmem, ⟨4, _⟩ => ⟨S10000x32, .f32⟩
  | .local _ .vmem, ⟨5, _⟩ => ⟨S10000x32, .f32⟩
  | .local _ .vmem, ⟨6, _⟩ => ⟨S32x16, .f32⟩
  | .local _ .vmem, ⟨7, _⟩ => ⟨S32x16, .f32⟩
  | .local _ .vmem, ⟨8, _⟩ => ⟨S1x16, .f32⟩
  | .local _ .vmem, ⟨9, _⟩ => ⟨S10000x16, .f32⟩
  | .local _ .vmem, ⟨10, _⟩ => ⟨S10000x16, .f32⟩
  | .local _ .vmem, ⟨11, _⟩ => ⟨S1x16, .f32⟩
  | .local _ .vmem, ⟨12, _⟩ => ⟨S1x16, .f32⟩
  | .local _ .vmem, ⟨13, _⟩ => ⟨S10000x16, .f32⟩
  | .local _ .vmem, ⟨14, _⟩ => ⟨S10000x16, .f32⟩
  | .local _ .vmem, ⟨15, _⟩ => ⟨S1x16, .f32⟩
  | .local _ .vmem, ⟨16, _⟩ => ⟨S1x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x1, .f32⟩
  | .local _ .vmem, ⟨22, _⟩ => ⟨S10000x1, .f32⟩
  | .local _ .vmem, ⟨23, _⟩ => ⟨S10000x16, .f32⟩
  | .local _ .vmem, ⟨24, _⟩ => ⟨S10000x16, .f32⟩
  | .local _ .vmem, ⟨25, _⟩ => ⟨S16x16, .f32⟩
  | .local _ .vmem, ⟨26, _⟩ => ⟨S16x16, .f32⟩
  | .local _ .vmem, ⟨27, _⟩ => ⟨S1x16, .f32⟩
  | .local _ .vmem, ⟨28, _⟩ => ⟨S10000x16, .f32⟩
  | .local _ .vmem, ⟨29, _⟩ => ⟨S10000x16, .f32⟩
  | .local _ .vmem, ⟨30, _⟩ => ⟨S10000x16, .f32⟩
  | .local _ .vmem, ⟨31, _⟩ => ⟨S10000x16, .f32⟩
  | .local _ .vmem, ⟨32, _⟩ => ⟨S10000x1, .i32⟩
  | .local _ .vmem, ⟨33, _⟩ => ⟨S10000x1, .i32⟩
  | .local _ .vmem, ⟨34, _⟩ => ⟨S256x16, .f32⟩
  | .local _ .vmem, ⟨35, _⟩ => ⟨S1x256, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24_0 : Ref sig .tc := ⟨.hbm, 55, rfl⟩
abbrev main_v24_1 : Ref sig .tc := ⟨.hbm, 56, rfl⟩
abbrev main_v24_2 : Ref sig .tc := ⟨.hbm, 57, rfl⟩
abbrev main_cst_4 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_7 : Ref sig .tc := ⟨.hbm, 76, rfl⟩
abbrev main_v40 : Ref sig .tc := ⟨.hbm, 77, rfl⟩
abbrev main_v41 : Ref sig .tc := ⟨.hbm, 78, rfl⟩
abbrev main_c_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_9 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55_0 : Ref sig .tc := ⟨.hbm, 94, rfl⟩
abbrev main_v55_1 : Ref sig .tc := ⟨.hbm, 95, rfl⟩
abbrev main_v56 : Ref sig .tc := ⟨.hbm, 96, rfl⟩
abbrev main_cst_10 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_11 : Ref sig .tc := ⟨.hbm, 103, rfl⟩
abbrev main_v62 : Ref sig .tc := ⟨.hbm, 104, rfl⟩
abbrev main_cst_12 : Ref sig .tc := ⟨.hbm, 105, rfl⟩
abbrev main_v63 : Ref sig .tc := ⟨.hbm, 106, rfl⟩
abbrev main_v64 : Ref sig .tc := ⟨.hbm, 107, rfl⟩
abbrev main_c_13 : Ref sig .tc := ⟨.hbm, 108, rfl⟩
abbrev main_call0_cst : Ref sig .tc := ⟨.hbm, 109, rfl⟩
abbrev main_call0_v0 : Ref sig .tc := ⟨.hbm, 110, rfl⟩
abbrev main_call0_v1 : Ref sig .tc := ⟨.hbm, 111, rfl⟩
abbrev main_call0_cst_0 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_v5 : Ref sig .tc := ⟨.hbm, 116, rfl⟩
abbrev main_call0_v6 : Ref sig .tc := ⟨.hbm, 117, rfl⟩
abbrev main_call0_v7 : Ref sig .tc := ⟨.hbm, 118, rfl⟩
abbrev main_call0_cst_1 : Ref sig .tc := ⟨.hbm, 119, rfl⟩
abbrev main_call0_v8 : Ref sig .tc := ⟨.hbm, 120, rfl⟩
abbrev main_call0_cst_2 : Ref sig .tc := ⟨.hbm, 121, rfl⟩
abbrev main_call0_v9 : Ref sig .tc := ⟨.hbm, 122, rfl⟩
abbrev main_call0_v10 : Ref sig .tc := ⟨.hbm, 123, rfl⟩
abbrev main_call0_v11 : Ref sig .tc := ⟨.hbm, 124, rfl⟩
abbrev main_call0_cst_3 : Ref sig .tc := ⟨.hbm, 125, rfl⟩
abbrev main_call0_v12 : Ref sig .tc := ⟨.hbm, 126, rfl⟩
abbrev main_call0_cst_4 : Ref sig .tc := ⟨.hbm, 127, rfl⟩
abbrev main_call0_call0_v0 : Ref sig .tc := ⟨.hbm, 128, rfl⟩
abbrev main_call0_call0_v1 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_14 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_call1_cst : Ref sig .tc := ⟨.hbm, 152, rfl⟩
abbrev main_call1_v0 : Ref sig .tc := ⟨.hbm, 153, rfl⟩
abbrev main_v86 : Ref sig .tc := ⟨.hbm, 154, rfl⟩
abbrev main_v87 : Ref sig .tc := ⟨.hbm, 155, rfl⟩
abbrev main_cst_15 : Ref sig .tc := ⟨.hbm, 156, rfl⟩
abbrev main_v88 : Ref sig .tc := ⟨.hbm, 157, rfl⟩
abbrev main_cst_16 : Ref sig .tc := ⟨.hbm, 158, rfl⟩
abbrev main_v89 : Ref sig .tc := ⟨.hbm, 159, rfl⟩
abbrev main_v90 : Ref sig .tc := ⟨.hbm, 160, rfl⟩
abbrev main_c_17 : Ref sig .tc := ⟨.hbm, 161, rfl⟩
abbrev main_call2_cst : Ref sig .tc := ⟨.hbm, 162, rfl⟩
abbrev main_call2_v0 : Ref sig .tc := ⟨.hbm, 163, rfl⟩
abbrev main_call2_v1 : Ref sig .tc := ⟨.hbm, 164, rfl⟩
abbrev main_call2_cst_0 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_call2_v5 : Ref sig .tc := ⟨.hbm, 169, rfl⟩
abbrev main_call2_v6 : Ref sig .tc := ⟨.hbm, 170, rfl⟩
abbrev main_call2_v7 : Ref sig .tc := ⟨.hbm, 171, rfl⟩
abbrev main_call2_cst_1 : Ref sig .tc := ⟨.hbm, 172, rfl⟩
abbrev main_call2_v8 : Ref sig .tc := ⟨.hbm, 173, rfl⟩
abbrev main_call2_cst_2 : Ref sig .tc := ⟨.hbm, 174, rfl⟩
abbrev main_call2_v9 : Ref sig .tc := ⟨.hbm, 175, rfl⟩
abbrev main_call2_v10 : Ref sig .tc := ⟨.hbm, 176, rfl⟩
abbrev main_call2_v11 : Ref sig .tc := ⟨.hbm, 177, rfl⟩
abbrev main_call2_cst_3 : Ref sig .tc := ⟨.hbm, 178, rfl⟩
abbrev main_call2_v12 : Ref sig .tc := ⟨.hbm, 179, rfl⟩
abbrev main_call2_cst_4 : Ref sig .tc := ⟨.hbm, 180, rfl⟩
abbrev main_call2_call0_v0 : Ref sig .tc := ⟨.hbm, 181, rfl⟩
abbrev main_call2_call0_v1 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_cst_18 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_call3_cst : Ref sig .tc := ⟨.hbm, 205, rfl⟩
abbrev main_call3_v0 : Ref sig .tc := ⟨.hbm, 206, rfl⟩
abbrev main_v112 : Ref sig .tc := ⟨.hbm, 207, rfl⟩
abbrev main_v113 : Ref sig .tc := ⟨.hbm, 208, rfl⟩
abbrev main_cst_19 : Ref sig .tc := ⟨.hbm, 209, rfl⟩
abbrev main_v114 : Ref sig .tc := ⟨.hbm, 210, rfl⟩
abbrev main_cst_20 : Ref sig .tc := ⟨.hbm, 211, rfl⟩
abbrev main_v115 : Ref sig .tc := ⟨.hbm, 212, rfl⟩
abbrev main_v116 : Ref sig .tc := ⟨.hbm, 213, rfl⟩
abbrev main_c_21 : Ref sig .tc := ⟨.hbm, 214, rfl⟩
abbrev main_call4_cst : Ref sig .tc := ⟨.hbm, 215, rfl⟩
abbrev main_call4_v0 : Ref sig .tc := ⟨.hbm, 216, rfl⟩
abbrev main_call4_v1 : Ref sig .tc := ⟨.hbm, 217, rfl⟩
abbrev main_call4_cst_0 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_call4_v5 : Ref sig .tc := ⟨.hbm, 222, rfl⟩
abbrev main_call4_v6 : Ref sig .tc := ⟨.hbm, 223, rfl⟩
abbrev main_call4_v7 : Ref sig .tc := ⟨.hbm, 224, rfl⟩
abbrev main_call4_cst_1 : Ref sig .tc := ⟨.hbm, 225, rfl⟩
abbrev main_call4_v8 : Ref sig .tc := ⟨.hbm, 226, rfl⟩
abbrev main_call4_cst_2 : Ref sig .tc := ⟨.hbm, 227, rfl⟩
abbrev main_call4_v9 : Ref sig .tc := ⟨.hbm, 228, rfl⟩
abbrev main_call4_v10 : Ref sig .tc := ⟨.hbm, 229, rfl⟩
abbrev main_call4_v11 : Ref sig .tc := ⟨.hbm, 230, rfl⟩
abbrev main_call4_cst_3 : Ref sig .tc := ⟨.hbm, 231, rfl⟩
abbrev main_call4_v12 : Ref sig .tc := ⟨.hbm, 232, rfl⟩
abbrev main_call4_cst_4 : Ref sig .tc := ⟨.hbm, 233, rfl⟩
abbrev main_call4_call0_v0 : Ref sig .tc := ⟨.hbm, 234, rfl⟩
abbrev main_call4_call0_v1 : Ref sig .tc := ⟨.hbm, 235, rfl⟩
abbrev main_v117 : Ref sig .tc := ⟨.hbm, 236, rfl⟩
abbrev main_v118 : Ref sig .tc := ⟨.hbm, 237, rfl⟩
abbrev main_v119 : Ref sig .tc := ⟨.hbm, 238, rfl⟩
abbrev main_v120 : Ref sig .tc := ⟨.hbm, 239, rfl⟩
abbrev main_cst_22 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_v129 : Ref sig .tc := ⟨.hbm, 249, rfl⟩
abbrev main_v130 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_call5_cst : Ref sig .tc := ⟨.hbm, 258, rfl⟩
abbrev main_call5_v0 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  transposes_S16x32_S32x16_1_0 : S16x32.Transposes [1, 0] S32x16
  shapeCasts_S16_S1x16 : S16.ShapeCasts S1x16
  inb_S1x16_S1x16_0_0 : ∀ a, (![0, 0] : Fin 2 → Nat) a + S1x16.size a ≤ S1x16.size a
  h_S1x16 : 0 < S1x16.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  reduces_S10000x16_S16 : S10000x16.Reduces [0] S16
  bcast_S_S1x16 : S_.BroadcastsInDim S1x16 (![] : Fin 0 → Fin S1x16.rank)
  shapeCasts_S10000x16_S10000x16 : S10000x16.ShapeCasts S10000x16
  bcast_S_S100000x16 : S_.BroadcastsInDim S100000x16 (![] : Fin 0 → Fin S100000x16.rank)
  transposes_S16x16_S16x16_1_0 : S16x16.Transposes [1, 0] S16x16
  broadcasts_S10000x1_S10000x16 : S10000x1.Broadcasts S10000x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  shapeCasts_S100000_S100000x1 : S100000.ShapeCasts S100000x1
  inb_S256x16_S256x16_0_0 : ∀ a, (![0, 0] : Fin 2 → Nat) a + S256x16.size a ≤ S256x16.size a
  h_S256x16 : 0 < S256x16.numel
  inb_S1x256_S1x256_0_0 : ∀ a, (![0, 0] : Fin 2 → Nat) a + S1x256.size a ≤ S1x256.size a
  h_S1x256 : 0 < S1x256.numel
  iota_S1x256_d1_w32 : S1x256.Iotas .tc 32 [1]
  broadcasts_S10000x1_S10000x256 : S10000x1.Broadcasts S10000x256
  broadcasts_S1x256_S10000x256 : S1x256.Broadcasts S10000x256
  natLt_1_32 : 1 < 32
  shapeCasts_S256x16_S256x16 : S256x16.ShapeCasts S256x16
  shapeCasts_S1x256_S1x256 : S1x256.ShapeCasts S1x256
  reduces_S10000x256_S256 : S10000x256.Reduces [0] S256
  shapeCasts_S256_S1x256 : S256.ShapeCasts S1x256
  shapeCasts_S1x256_S256 : S1x256.ShapeCasts S256
  bcast_S_S256 : S_.BroadcastsInDim S256 (![] : Fin 0 → Fin S256.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  reducesTo_S256x16_S16_d0 : S256x16.ReducesTo [0] S16
  h_S_ : 0 < S_.numel
  bcast_S_S16 : S_.BroadcastsInDim S16 (![] : Fin 0 → Fin S16.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  concatenates_S256x16_S256x16_S256x32_d1 : Shape.Concatenates [S256x16, S256x16] S256x32 1
  reducesTo_S256x32_S32_d0 : S256x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S256x32_0_1 : S1x32.BroadcastsInDim S256x32 (![0, 1] : Fin 2 → Fin S256x32.rank)
  transposes_S1x16_S16x1_1_0 : S1x16.Transposes [1, 0] S16x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x16_S10000x16_1_0_0_1_n_n_wf : DotDims.WF S10000x32 S32x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x16_S10000x16_1_0_0_1_n_n_wf : DotDims.WF S10000x16 S16x16 S10000x16 [1] [0] [0] [1] [] []
  dot_S10000x256_S10000x16_S256x16_0_0_1_1_n_n_wf : DotDims.WF S10000x256 S10000x16 S256x16 [0] [0] [1] [1] [] []
  dot_S256x16_S16x16_S256x16_1_0_0_1_n_n_wf : DotDims.WF S256x16 S16x16 S256x16 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x16.size a ≤ S100000x16.size a
  hwx0_6 : ∀ i : grid0.Coords, EltTy.bits .f32 = 32 ∨ (Rect.block (s := S100000x16) S10000x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x16.size a ≤ S16x16.size a
  hwx2_4 : ∀ i : grid2.Coords, EltTy.bits .f32 = 32 ∨ (Rect.block (s := S16x16) S16x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x16.size a ≤ S100000x16.size a
  hwx2_6 : ∀ i : grid2.Coords, EltTy.bits .f32 = 32 ∨ (Rect.block (s := S100000x16) S10000x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x16.size a ≤ S256x16.size a
  hwx3_2 : ∀ i : grid3.Coords, EltTy.bits .f32 = 32 ∨ (Rect.block (s := S256x16) S256x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x256_S10000x16_S256x16_0_0_1_1_n_n : DotDims S10000x256 S10000x16 S256x16 where
  lhsContracting := [0]
  rhsContracting := [0]
  lhsNonContracting := [1]
  rhsNonContracting := [1]
  lhsBatch := []
  rhsBatch := []
  wf := dot_S10000x256_S10000x16_S256x16_0_0_1_1_n_n_wf
def dot_S256x16_S16x16_S256x16_1_0_0_1_n_n : DotDims S256x16 S16x16 S256x16 where
  lhsContracting := [1]
  rhsContracting := [0]
  lhsNonContracting := [0]
  rhsNonContracting := [1]
  lhsBatch := []
  rhsBatch := []
  wf := dot_S256x16_S16x16_S256x16_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v20) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S10000x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x16.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x16.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S10000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S16x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S10000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v53) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55_0) S256x16.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55_1) S1x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S16x32 : Shape := ⟨2, ![16, 32]⟩
abbrev S16 : Shape := ⟨1, ![16]⟩
abbrev S16x16 : Shape := ⟨2, ![16, 16]⟩
abbrev S32 : Shape := ⟨1, ![32]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x32 : Shape := ⟨2, ![1600000, 32]⟩
abbrev S32x16 : Shape := ⟨2, ![32, 16]⟩
abbrev S100000x16 : Shape := ⟨2, ![100000, 16]⟩
abbrev S1600000x16 : Shape := ⟨2, ![1600000, 16]⟩
abbrev S256 : Shape := ⟨1, ![256]⟩
abbrev S256x1 : Shape := ⟨2, ![256, 1]⟩
abbrev S256x16 : Shape := ⟨2, ![256, 16]⟩
abbrev S256x32 : Shape := ⟨2, ![256, 32]⟩
abbrev S1x32 : Shape := ⟨2, ![1, 32]⟩
abbrev S16x1 : Shape := ⟨2, ![16, 1]⟩
abbrev S1x1 : Shape := ⟨2, ![1, 1]⟩

abbrev nBuf : Space → Nat
  | .hbm => 314
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S16x32, .f32⟩
  | 4 => ⟨S16x32, .f32⟩
  | 5 => ⟨S16, .f32⟩
  | 6 => ⟨S16, .f32⟩
  | 7 => ⟨S16, .f32⟩
  | 8 => ⟨S16x16, .f32⟩
  | 9 => ⟨S16x16, .f32⟩
  | 10 => ⟨S16, .f32⟩
  | 11 => ⟨S16, .f32⟩
  | 12 => ⟨S16, .f32⟩
  | 13 => ⟨S16x16, .f32⟩
  | 14 => ⟨S16, .f32⟩
  | 15 => ⟨S32, .f32⟩
  | 16 => ⟨S32, .f32⟩
  | 17 => ⟨S16x32, .f32⟩
  | 18 => ⟨S16, .f32⟩
  | 19 => ⟨S32, .f32⟩
  | 20 => ⟨S32, .f32⟩
  | 21 => ⟨S16x32, .f32⟩
  | 22 => ⟨S16, .f32⟩
  | 23 => ⟨S1x16, .f32⟩
  | 24 => ⟨S1, .f32⟩
  | 25 => ⟨S1x1600000, .i32⟩
  | 26 => ⟨S1600000, .i32⟩
  | 27 => ⟨S1x1600000, .i32⟩
  | 28 => ⟨S1600000, .i32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S_, .f32⟩
  | 49 => ⟨S100000x32, .f32⟩
  | 50 => ⟨S1600000x1, .i32⟩
  | 51 => ⟨S100000x32, .f32⟩
  | 52 => ⟨S100000x32, .f32⟩
  | 53 => ⟨S100000x32, .f32⟩
  | 54 => ⟨S32x16, .f32⟩
  | 55 => ⟨S100000x16, .f32⟩
  | 56 => ⟨S32x16, .f32⟩
  | 57 => ⟨S100000x16, .f32⟩
  | 58 => ⟨S100000x16, .f32⟩
  | 59 => ⟨S1x16, .f32⟩
  | 60 => ⟨S100000x16, .f32⟩
  | 61 => ⟨S100000x16, .f32⟩
  | 62 => ⟨S_, .f32⟩
  | 63 => ⟨S100000x16, .f32⟩
  | 64 => ⟨S100000x16, .f32⟩
  | 65 => ⟨S_, .f32⟩
  | 66 => ⟨S16, .f32⟩
  | 67 => ⟨S_, .f32⟩
  | 68 => ⟨S16, .f32⟩
  | 69 => ⟨S16, .f32⟩
  | 70 => ⟨S_, .i32⟩
  | 71 => ⟨S_, .f32⟩
  | 72 => ⟨S16, .f32⟩
  | 73 => ⟨S1x16, .f32⟩
  | 74 => ⟨S_, .f32⟩
  | 75 => ⟨S1x16, .f32⟩
  | 76 => ⟨S1x16, .f32⟩
  | 77 => ⟨S100000x16, .f32⟩
  | 78 => ⟨S100000x16, .f32⟩
  | 79 => ⟨S100000x16, .f32⟩
  | 80 => ⟨S_, .f32⟩
  | 81 => ⟨S_, .f32⟩
  | 82 => ⟨S_, .f32⟩
  | 83 => ⟨S_, .f32⟩
  | 84 => ⟨S16, .f32⟩
  | 85 => ⟨S16, .f32⟩
  | 86 => ⟨S16, .f32⟩
  | 87 => ⟨S_, .f32⟩
  | 88 => ⟨S_, .i1⟩
  | 89 => ⟨S_, .f32⟩
  | 90 => ⟨S_, .f32⟩
  | 91 => ⟨S16, .f32⟩
  | 92 => ⟨S16, .f32⟩
  | 93 => ⟨S1x16, .f32⟩
  | 94 => ⟨S100000x16, .f32⟩
  | 95 => ⟨S100000x16, .f32⟩
  | 96 => ⟨S_, .f32⟩
  | 97 => ⟨S16, .f32⟩
  | 98 => ⟨S16, .f32⟩
  | 99 => ⟨S16, .f32⟩
  | 100 => ⟨S1x16, .f32⟩
  | 101 => ⟨S100000x16, .f32⟩
  | 102 => ⟨S100000x16, .f32⟩
  | 103 => ⟨S1x16, .f32⟩
  | 104 => ⟨S100000x16, .f32⟩
  | 105 => ⟨S100000x16, .f32⟩
  | 106 => ⟨S1x16, .f32⟩
  | 107 => ⟨S100000x16, .f32⟩
  | 108 => ⟨S100000x16, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x16, .f32⟩
  | 118 => ⟨S_, .f32⟩
  | 119 => ⟨S100000x16, .f32⟩
  | 120 => ⟨S1600000x1, .i32⟩
  | 121 => ⟨S100000x16, .f32⟩
  | 122 => ⟨S100000x16, .f32⟩
  | 123 => ⟨S100000x16, .f32⟩
  | 124 => ⟨S16x16, .f32⟩
  | 125 => ⟨S100000x16, .f32⟩
  | 126 => ⟨S16x16, .f32⟩
  | 127 => ⟨S100000x16, .f32⟩
  | _ => ⟨S100000x32, .f32⟩

abbrev hbmTy0_1 (i : Nat) : BufTy := match i % 128 with
  | 0 => ⟨S100000x16, .f32⟩
  | 1 => ⟨S1x16, .f32⟩
  | 2 => ⟨S100000x16, .f32⟩
  | 3 => ⟨S100000x16, .f32⟩
  | 4 => ⟨S_, .f32⟩
  | 5 => ⟨S100000x16, .f32⟩
  | 6 => ⟨S100000x16, .f32⟩
  | 7 => ⟨S_, .f32⟩
  | 8 => ⟨S100000, .f32⟩
  | 9 => ⟨S_, .f32⟩
  | 10 => ⟨S256, .f32⟩
  | 11 => ⟨S100000x1, .i32⟩
  | 12 => ⟨S256, .f32⟩
  | 13 => ⟨S_, .f32⟩
  | 14 => ⟨S256, .f32⟩
  | 15 => ⟨S256, .f32⟩
  | 16 => ⟨S256x1, .f32⟩
  | 17 => ⟨S_, .f32⟩
  | 18 => ⟨S256x16, .f32⟩
  | 19 => ⟨S100000x1, .i32⟩
  | 20 => ⟨S256x16, .f32⟩
  | 21 => ⟨S256x16, .f32⟩
  | 22 => ⟨S256x16, .f32⟩
  | 23 => ⟨S_, .f32⟩
  | 24 => ⟨S16, .f32⟩
  | 25 => ⟨S_, .f32⟩
  | 26 => ⟨S16, .f32⟩
  | 27 => ⟨S16, .f32⟩
  | 28 => ⟨S_, .i32⟩
  | 29 => ⟨S_, .f32⟩
  | 30 => ⟨S16, .f32⟩
  | 31 => ⟨S1x16, .f32⟩
  | 32 => ⟨S_, .f32⟩
  | 33 => ⟨S1x16, .f32⟩
  | 34 => ⟨S1x16, .f32⟩
  | 35 => ⟨S256x16, .f32⟩
  | 36 => ⟨S256x16, .f32⟩
  | 37 => ⟨S256x16, .f32⟩
  | 38 => ⟨S_, .f32⟩
  | 39 => ⟨S_, .f32⟩
  | 40 => ⟨S_, .f32⟩
  | 41 => ⟨S_, .f32⟩
  | 42 => ⟨S16, .f32⟩
  | 43 => ⟨S16, .f32⟩
  | 44 => ⟨S16, .f32⟩
  | 45 => ⟨S_, .f32⟩
  | 46 => ⟨S_, .i1⟩
  | 47 => ⟨S_, .f32⟩
  | 48 => ⟨S_, .f32⟩
  | 49 => ⟨S16, .f32⟩
  | 50 => ⟨S16, .f32⟩
  | 51 => ⟨S1x16, .f32⟩
  | 52 => ⟨S256x16, .f32⟩
  | 53 => ⟨S256x16, .f32⟩
  | 54 => ⟨S_, .f32⟩
  | 55 => ⟨S16, .f32⟩
  | 56 => ⟨S16, .f32⟩
  | 57 => ⟨S16, .f32⟩
  | 58 => ⟨S1x16, .f32⟩
  | 59 => ⟨S256x16, .f32⟩
  | 60 => ⟨S256x16, .f32⟩
  | 61 => ⟨S1x16, .f32⟩
  | 62 => ⟨S256x16, .f32⟩
  | 63 => ⟨S256x16, .f32⟩
  | 64 => ⟨S1x16, .f32⟩
  | 65 => ⟨S256x16, .f32⟩
  | 66 => ⟨S256x16, .f32⟩
  | 67 => ⟨S16x16, .f32⟩
  | 68 => ⟨S256x16, .f32⟩
  | 69 => ⟨S1x16, .f32⟩
  | 70 => ⟨S256x16, .f32⟩
  | 71 => ⟨S256x16, .f32⟩
  | 72 => ⟨S_, .f32⟩
  | 73 => ⟨S256x16, .f32⟩
  | 74 => ⟨S256x16, .f32⟩
  | 75 => ⟨S256x32, .f32⟩
  | 76 => ⟨S_, .f32⟩
  | 77 => ⟨S32, .f32⟩
  | 78 => ⟨S_, .f32⟩
  | 79 => ⟨S32, .f32⟩
  | 80 => ⟨S32, .f32⟩
  | 81 => ⟨S_, .i32⟩
  | 82 => ⟨S_, .f32⟩
  | 83 => ⟨S32, .f32⟩
  | 84 => ⟨S1x32, .f32⟩
  | 85 => ⟨S_, .f32⟩
  | 86 => ⟨S1x32, .f32⟩
  | 87 => ⟨S1x32, .f32⟩
  | 88 => ⟨S256x32, .f32⟩
  | 89 => ⟨S256x32, .f32⟩
  | 90 => ⟨S256x32, .f32⟩
  | 91 => ⟨S_, .f32⟩
  | 92 => ⟨S_, .f32⟩
  | 93 => ⟨S_, .f32⟩
  | 94 => ⟨S_, .f32⟩
  | 95 => ⟨S32, .f32⟩
  | 96 => ⟨S32, .f32⟩
  | 97 => ⟨S32, .f32⟩
  | 98 => ⟨S_, .f32⟩
  | 99 => ⟨S_, .i1⟩
  | 100 => ⟨S_, .f32⟩
  | 101 => ⟨S_, .f32⟩
  | 102 => ⟨S32, .f32⟩
  | 103 => ⟨S32, .f32⟩
  | 104 => ⟨S1x32, .f32⟩
  | 105 => ⟨S256x32, .f32⟩
  | 106 => ⟨S256x32, .f32⟩
  | 107 => ⟨S_, .f32⟩
  | 108 => ⟨S32, .f32⟩
  | 109 => ⟨S32, .f32⟩
  | 110 => ⟨S32, .f32⟩
  | 111 => ⟨S1x32, .f32⟩
  | 112 => ⟨S256x32, .f32⟩
  | 113 => ⟨S256x32, .f32⟩
  | 114 => ⟨S1x32, .f32⟩
  | 115 => ⟨S256x32, .f32⟩
  | 116 => ⟨S256x32, .f32⟩
  | 117 => ⟨S1x32, .f32⟩
  | 118 => ⟨S256x32, .f32⟩
  | 119 => ⟨S256x32, .f32⟩
  | 120 => ⟨S32x16, .f32⟩
  | 121 => ⟨S256x16, .f32⟩
  | 122 => ⟨S1x16, .f32⟩
  | 123 => ⟨S256x16, .f32⟩
  | 124 => ⟨S256x16, .f32⟩
  | 125 => ⟨S_, .f32⟩
  | 126 => ⟨S256x16, .f32⟩
  | 127 => ⟨S256x16, .f32⟩
  | _ => ⟨S100000x32, .f32⟩

abbrev hbmTy0_2 (i : Nat) : BufTy := match i % 128 with
  | 0 => ⟨S256x32, .f32⟩
  | 1 => ⟨S_, .f32⟩
  | 2 => ⟨S32, .f32⟩
  | 3 => ⟨S_, .f32⟩
  | 4 => ⟨S32, .f32⟩
  | 5 => ⟨S32, .f32⟩
  | 6 => ⟨S_, .i32⟩
  | 7 => ⟨S_, .f32⟩
  | 8 => ⟨S32, .f32⟩
  | 9 => ⟨S1x32, .f32⟩
  | 10 => ⟨S_, .f32⟩
  | 11 => ⟨S1x32, .f32⟩
  | 12 => ⟨S1x32, .f32⟩
  | 13 => ⟨S256x32, .f32⟩
  | 14 => ⟨S256x32, .f32⟩
  | 15 => ⟨S256x32, .f32⟩
  | 16 => ⟨S_, .f32⟩
  | 17 => ⟨S_, .f32⟩
  | 18 => ⟨S_, .f32⟩
  | 19 => ⟨S_, .f32⟩
  | 20 => ⟨S32, .f32⟩
  | 21 => ⟨S32, .f32⟩
  | 22 => ⟨S32, .f32⟩
  | 23 => ⟨S_, .f32⟩
  | 24 => ⟨S_, .i1⟩
  | 25 => ⟨S_, .f32⟩
  | 26 => ⟨S_, .f32⟩
  | 27 => ⟨S32, .f32⟩
  | 28 => ⟨S32, .f32⟩
  | 29 => ⟨S1x32, .f32⟩
  | 30 => ⟨S256x32, .f32⟩
  | 31 => ⟨S256x32, .f32⟩
  | 32 => ⟨S_, .f32⟩
  | 33 => ⟨S32, .f32⟩
  | 34 => ⟨S32, .f32⟩
  | 35 => ⟨S32, .f32⟩
  | 36 => ⟨S1x32, .f32⟩
  | 37 => ⟨S256x32, .f32⟩
  | 38 => ⟨S256x32, .f32⟩
  | 39 => ⟨S1x32, .f32⟩
  | 40 => ⟨S256x32, .f32⟩
  | 41 => ⟨S256x32, .f32⟩
  | 42 => ⟨S1x32, .f32⟩
  | 43 => ⟨S256x32, .f32⟩
  | 44 => ⟨S256x32, .f32⟩
  | 45 => ⟨S32x16, .f32⟩
  | 46 => ⟨S256x16, .f32⟩
  | 47 => ⟨S1x16, .f32⟩
  | 48 => ⟨S256x16, .f32⟩
  | 49 => ⟨S256x16, .f32⟩
  | 50 => ⟨S_, .f32⟩
  | 51 => ⟨S256x16, .f32⟩
  | 52 => ⟨S256x16, .f32⟩
  | 53 => ⟨S16x1, .f32⟩
  | 54 => ⟨S256x1, .f32⟩
  | 55 => ⟨S1x1, .f32⟩
  | 56 => ⟨S256x1, .f32⟩
  | 57 => ⟨S256x1, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call0_cst : Ref sig .tc := ⟨.hbm, 62, rfl⟩
abbrev main_call0_v0 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_c_6 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_cst_2 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_cst_3 : Ref sig .tc := ⟨.hbm, 87, rfl⟩
abbrev main_call1_v12 : Ref sig .tc := ⟨.hbm, 88, rfl⟩
abbrev main_call1_cst_4 : Ref sig .tc := ⟨.hbm, 89, rfl⟩
abbrev main_call1_call0_v0 : Ref sig .tc := ⟨.hbm, 90, rfl⟩
abbrev main_call1_call0_v1 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_cst_7 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_c_8 : Ref sig .tc := ⟨.hbm, 109, rfl⟩
abbrev main_v51 : Ref sig .tc := ⟨.hbm, 110, rfl⟩
abbrev main_v52 : Ref sig .tc := ⟨.hbm, 111, rfl⟩
abbrev main_c_9 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_10 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_call2_cst : Ref sig .tc := ⟨.hbm, 132, rfl⟩
abbrev main_call2_v0 : Ref sig .tc := ⟨.hbm, 133, rfl⟩
abbrev main_v71 : Ref sig .tc := ⟨.hbm, 134, rfl⟩
abbrev main_cst_11 : Ref sig .tc := ⟨.hbm, 135, rfl⟩
abbrev main_v72 : Ref sig .tc := ⟨.hbm, 136, rfl⟩
abbrev main_cst_12 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_13 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_cst_14 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_cst_15 : Ref sig .tc := ⟨.hbm, 151, rfl⟩
abbrev main_v84 : Ref sig .tc := ⟨.hbm, 152, rfl⟩
abbrev main_cst_16 : Ref sig .tc := ⟨.hbm, 153, rfl⟩
abbrev main_v85 : Ref sig .tc := ⟨.hbm, 154, rfl⟩
abbrev main_v86 : Ref sig .tc := ⟨.hbm, 155, rfl⟩
abbrev main_c_17 : Ref sig .tc := ⟨.hbm, 156, rfl⟩
abbrev main_call3_cst : Ref sig .tc := ⟨.hbm, 157, rfl⟩
abbrev main_call3_v0 : Ref sig .tc := ⟨.hbm, 158, rfl⟩
abbrev main_call3_v1 : Ref sig .tc := ⟨.hbm, 159, rfl⟩
abbrev main_call3_cst_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_v6 : Ref sig .tc := ⟨.hbm, 165, rfl⟩
abbrev main_call3_v7 : Ref sig .tc := ⟨.hbm, 166, rfl⟩
abbrev main_call3_cst_1 : Ref sig .tc := ⟨.hbm, 167, rfl⟩
abbrev main_call3_v8 : Ref sig .tc := ⟨.hbm, 168, rfl⟩
abbrev main_call3_cst_2 : Ref sig .tc := ⟨.hbm, 169, rfl⟩
abbrev main_call3_v9 : Ref sig .tc := ⟨.hbm, 170, rfl⟩
abbrev main_call3_v10 : Ref sig .tc := ⟨.hbm, 171, rfl⟩
abbrev main_call3_v11 : Ref sig .tc := ⟨.hbm, 172, rfl⟩
abbrev main_call3_cst_3 : Ref sig .tc := ⟨.hbm, 173, rfl⟩
abbrev main_call3_v12 : Ref sig .tc := ⟨.hbm, 174, rfl⟩
abbrev main_call3_cst_4 : Ref sig .tc := ⟨.hbm, 175, rfl⟩
abbrev main_call3_call0_v0 : Ref sig .tc := ⟨.hbm, 176, rfl⟩
abbrev main_call3_call0_v1 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_cst_18 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_call4_cst : Ref sig .tc := ⟨.hbm, 200, rfl⟩
abbrev main_call4_v0 : Ref sig .tc := ⟨.hbm, 201, rfl⟩
abbrev main_v108 : Ref sig .tc := ⟨.hbm, 202, rfl⟩
abbrev main_v109 : Ref sig .tc := ⟨.hbm, 203, rfl⟩
abbrev main_cst_19 : Ref sig .tc := ⟨.hbm, 204, rfl⟩
abbrev main_v110 : Ref sig .tc := ⟨.hbm, 205, rfl⟩
abbrev main_cst_20 : Ref sig .tc := ⟨.hbm, 206, rfl⟩
abbrev main_v111 : Ref sig .tc := ⟨.hbm, 207, rfl⟩
abbrev main_v112 : Ref sig .tc := ⟨.hbm, 208, rfl⟩
abbrev main_c_21 : Ref sig .tc := ⟨.hbm, 209, rfl⟩
abbrev main_call5_cst : Ref sig .tc := ⟨.hbm, 210, rfl⟩
abbrev main_call5_v0 : Ref sig .tc := ⟨.hbm, 211, rfl⟩
abbrev main_call5_v1 : Ref sig .tc := ⟨.hbm, 212, rfl⟩
abbrev main_call5_cst_0 : Ref sig .tc := ⟨.hbm, 213, rfl⟩
abbrev main_call5_v2 : Ref sig .tc := ⟨.hbm, 214, rfl⟩
abbrev main_call5_v3 : Ref sig .tc := ⟨.hbm, 215, rfl⟩
abbrev main_call5_v4 : Ref sig .tc := ⟨.hbm, 216, rfl⟩
abbrev main_call5_v5 : Ref sig .tc := ⟨.hbm, 217, rfl⟩
abbrev main_call5_v6 : Ref sig .tc := ⟨.hbm, 218, rfl⟩
abbrev main_call5_v7 : Ref sig .tc := ⟨.hbm, 219, rfl⟩
abbrev main_call5_cst_1 : Ref sig .tc := ⟨.hbm, 220, rfl⟩
abbrev main_call5_v8 : Ref sig .tc := ⟨.hbm, 221, rfl⟩
abbrev main_call5_cst_2 : Ref sig .tc := ⟨.hbm, 222, rfl⟩
abbrev main_call5_v9 : Ref sig .tc := ⟨.hbm, 223, rfl⟩
abbrev main_call5_v10 : Ref sig .tc := ⟨.hbm, 224, rfl⟩
abbrev main_call5_v11 : Ref sig .tc := ⟨.hbm, 225, rfl⟩
abbrev main_call5_cst_3 : Ref sig .tc := ⟨.hbm, 226, rfl⟩
abbrev main_call5_v12 : Ref sig .tc := ⟨.hbm, 227, rfl⟩
abbrev main_call5_cst_4 : Ref sig .tc := ⟨.hbm, 228, rfl⟩
abbrev main_call5_call0_v0 : Ref sig .tc := ⟨.hbm, 229, rfl⟩
abbrev main_call5_call0_v1 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_v116 : Ref sig .tc := ⟨.hbm, 234, rfl⟩
abbrev main_cst_22 : Ref sig .tc := ⟨.hbm, 235, rfl⟩
abbrev main_v117 : Ref sig .tc := ⟨.hbm, 236, rfl⟩
abbrev main_v118 : Ref sig .tc := ⟨.hbm, 237, rfl⟩
abbrev main_v119 : Ref sig .tc := ⟨.hbm, 238, rfl⟩
abbrev main_v120 : Ref sig .tc := ⟨.hbm, 239, rfl⟩
abbrev main_v121 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_call6_cst : Ref sig .tc := ⟨.hbm, 253, rfl⟩
abbrev main_call6_v0 : Ref sig .tc := ⟨.hbm, 254, rfl⟩
abbrev main_v134 : Ref sig .tc := ⟨.hbm, 255, rfl⟩
abbrev main_v135 : Ref sig .tc := ⟨.hbm, 256, rfl⟩
abbrev main_cst_23 : Ref sig .tc := ⟨.hbm, 257, rfl⟩
abbrev main_v136 : Ref sig .tc := ⟨.hbm, 258, rfl⟩
abbrev main_cst_24 : Ref sig .tc := ⟨.hbm, 259, rfl⟩
abbrev main_v137 : Ref sig .tc := ⟨.hbm, 260, rfl⟩
abbrev main_v138 : Ref sig .tc := ⟨.hbm, 261, rfl⟩
abbrev main_c_25 : Ref sig .tc := ⟨.hbm, 262, rfl⟩
abbrev main_call7_cst : Ref sig .tc := ⟨.hbm, 263, rfl⟩
abbrev main_call7_v0 : Ref sig .tc := ⟨.hbm, 264, rfl⟩
abbrev main_call7_v1 : Ref sig .tc := ⟨.hbm, 265, rfl⟩
abbrev main_call7_cst_0 : Ref sig .tc := ⟨.hbm, 266, rfl⟩
abbrev main_call7_v2 : Ref sig .tc := ⟨.hbm, 267, rfl⟩
abbrev main_call7_v3 : Ref sig .tc := ⟨.hbm, 268, rfl⟩
abbrev main_call7_v4 : Ref sig .tc := ⟨.hbm, 269, rfl⟩
abbrev main_call7_v5 : Ref sig .tc := ⟨.hbm, 270, rfl⟩
abbrev main_call7_v6 : Ref sig .tc := ⟨.hbm, 271, rfl⟩
abbrev main_call7_v7 : Ref sig .tc := ⟨.hbm, 272, rfl⟩
abbrev main_call7_cst_1 : Ref sig .tc := ⟨.hbm, 273, rfl⟩
abbrev main_call7_v8 : Ref sig .tc := ⟨.hbm, 274, rfl⟩
abbrev main_call7_cst_2 : Ref sig .tc := ⟨.hbm, 275, rfl⟩
abbrev main_call7_v9 : Ref sig .tc := ⟨.hbm, 276, rfl⟩
abbrev main_call7_v10 : Ref sig .tc := ⟨.hbm, 277, rfl⟩
abbrev main_call7_v11 : Ref sig .tc := ⟨.hbm, 278, rfl⟩
abbrev main_call7_cst_3 : Ref sig .tc := ⟨.hbm, 279, rfl⟩
abbrev main_call7_v12 : Ref sig .tc := ⟨.hbm, 280, rfl⟩
abbrev main_call7_cst_4 : Ref sig .tc := ⟨.hbm, 281, rfl⟩
abbrev main_call7_call0_v0 : Ref sig .tc := ⟨.hbm, 282, rfl⟩
abbrev main_call7_call0_v1 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_cst_26 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩
abbrev main_v158 : Ref sig .tc := ⟨.hbm, 304, rfl⟩
abbrev main_v159 : Ref sig .tc := ⟨.hbm, 305, rfl⟩
abbrev main_call8_cst : Ref sig .tc := ⟨.hbm, 306, rfl⟩
abbrev main_call8_v0 : Ref sig .tc := ⟨.hbm, 307, rfl⟩
abbrev main_v160 : Ref sig .tc := ⟨.hbm, 308, rfl⟩
abbrev main_v161 : Ref sig .tc := ⟨.hbm, 309, rfl⟩
abbrev main_v162 : Ref sig .tc := ⟨.hbm, 310, rfl⟩
abbrev main_v163 : Ref sig .tc := ⟨.hbm, 311, rfl⟩
abbrev main_v164 : Ref sig .tc := ⟨.hbm, 312, rfl⟩
abbrev main_v165 : Ref sig .tc := ⟨.hbm, 313, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S16_d0 : S100000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S100000x1_S100000x16_0_1 : S100000x1.BroadcastsInDim S100000x16 (![0, 1] : Fin 2 → Fin S100000x16.rank)
  transposes_S16x16_S16x16_1_0 : S16x16.Transposes [1, 0] S16x16
  bcast_S_S256 : S_.BroadcastsInDim S256 (![] : Fin 0 → Fin S256.rank)
  bcast_S256_S256x1_0 : S256.BroadcastsInDim S256x1 (![0] : Fin 1 → Fin S256x1.rank)
  bcast_S_S256x16 : S_.BroadcastsInDim S256x16 (![] : Fin 0 → Fin S256x16.rank)
  bcast_S256x1_S256x16_0_1 : S256x1.BroadcastsInDim S256x16 (![0, 1] : Fin 2 → Fin S256x16.rank)
  reducesTo_S256x16_S16_d0 : S256x16.ReducesTo [0] S16
  bcast_S1x16_S256x16_0_1 : S1x16.BroadcastsInDim S256x16 (![0, 1] : Fin 2 → Fin S256x16.rank)
  concatenates_S256x16_S256x16_S256x32_d1 : Shape.Concatenates [S256x16, S256x16] S256x32 1
  reducesTo_S256x32_S32_d0 : S256x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S256x32_0_1 : S1x32.BroadcastsInDim S256x32 (![0, 1] : Fin 2 → Fin S256x32.rank)
  transposes_S1x16_S16x1_1_0 : S1x16.Transposes [1, 0] S16x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x16_S100000x16_1_0_0_1_n_n_wf : DotDims.WF S100000x16 S16x16 S100000x16 [1] [0] [0] [1] [] []
  scatter_S256_S100000x1_S100000_n_0_0_1_wf : ScatterDims.WF S256 S100000x1 S100000 [] [0] [0] 1
  scatter_S256x16_S100000x1_S100000x16_1_0_0_1_wf : ScatterDims.WF S256x16 S100000x1 S100000x16 [1] [0] [0] 1
  dot_S256x16_S16x16_S256x16_1_0_0_1_n_n_wf : DotDims.WF S256x16 S16x16 S256x16 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x16_S100000x1_S100000x16_1_0_0_1 : ScatterDims S256x16 S100000x1 S100000x16 where
  updateWindowDims := [1]
  insertedWindowDims := [0]
  scatterDimsToOperandDims := [0]
  indexVectorDim := 1
  wf := scatter_S256x16_S100000x1_S100000x16_1_0_0_1_wf
def dot_S256x16_S16x16_S256x16_1_0_0_1_n_n : DotDims S256x16 S16x16 S256x16 where
  lhsContracting := [1]
  rhsContracting := [0]
  lhsNonContracting := [0]
  rhsNonContracting := [1]
  lhsBatch := []
  rhsBatch := []
  wf := dot_S256x16_S16x16_S256x16_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

class Facts : Prop extends Facts₀ where

variable [Facts]
-- ==== Proof.RefOpsTable.lean ====
import proofs.«428246_j33844342293317_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- 37 operations of main in main_part0. -/
abbrev main_part0_ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.unary main_v9 main_v10 (broadcastInDim S100000x1 ![0] bcast_S100000_S100000x1_0 : (⟨S100000, .f32⟩ : BufTy).Contents (Elt F) → (⟨S100000x1, .f32⟩ : BufTy).Contents (Elt F)),
    StableHlo.nullary main_c (constantI S_ 32 0#32),
    StableHlo.unary main_c main_v11 (broadcastInDim S1600000 ![] bcast_S_S1600000 : (⟨S_, .i32⟩ : BufTy).Contents (Elt F) → (⟨S1600000, .i32⟩ : BufTy).Contents (Elt F)),
    StableHlo.binary main_v1 main_v11 main_v12 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v13 (broadcastInDim S1600000 ![] bcast_S_S1600000 : (⟨S_, .i32⟩ : BufTy).Contents (Elt F) → (⟨S1600000, .i32⟩ : BufTy).Contents (Elt F)),
    StableHlo.binary main_v1 main_v13 main_v14 (addi : (⟨S1600000, .i32⟩ : BufTy).Contents (Elt F) → (⟨S1600000, .i32⟩ : BufTy).Contents (Elt F) → (⟨S1600000, .i32⟩ : BufTy).Contents (Elt F)),
    StableHlo.ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v15 main_v16 (broadcastInDim S1600000x1 ![0] bcast_S1600000_S1600000x1_0 : (⟨S1600000, .i32⟩ : BufTy).Contents (Elt F) → (⟨S1600000x1, .i32⟩ : BufTy).Contents (Elt F)),
    StableHlo.binary main_arg0 main_v16 main_v17 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_3 (constant S_ .f32 0x00000000#32),
    StableHlo.unary main_cst_3 main_v18 (broadcastInDim S100000x32 ![] bcast_S_S100000x32 : (⟨S_, .f32⟩ : BufTy).Contents (Elt F) → (⟨S100000x32, .f32⟩ : BufTy).Contents (Elt F)),
    StableHlo.unary main_v3 main_v19 (broadcastInDim S1600000x1 ![0] bcast_S1600000_S1600000x1_0 : (⟨S1600000, .i32⟩ : BufTy).Contents (Elt F) → (⟨S1600000x1, .i32⟩ : BufTy).Contents (Elt F)),
    StableHlo.ternary main_v18 main_v19 main_v17 main_v20 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.unary main_v10 main_v21 (broadcastInDim S100000x32 ![0, 1] bcast_S100000x1_S100000x32_0_1 : (⟨S100000x1, .f32⟩ : BufTy).Contents (Elt F) → (⟨S100000x32, .f32⟩ : BufTy).Contents (Elt F)),
    StableHlo.binary main_v20 main_v21 main_v22 (Host.divf : (⟨S100000x32, .f32⟩ : BufTy).Contents (Elt F) → (⟨S100000x32, .f32⟩ : BufTy).Contents (Elt F) → (⟨S100000x32, .f32⟩ : BufTy).Contents (Elt F)),
    StableHlo.unary main_arg3 main_v23 ((transpose S32x16 [1, 0] · transposes_S16x32_S32x16_1_0) : (⟨S16x32, .f32⟩ : BufTy).Contents (Elt F) → (⟨S32x16, .f32⟩ : BufTy).Contents (Elt F)),
    StableHlo.binary main_v22 main_v23 main_v24 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg4 main_v25 ((transpose S32x16 [1, 0] · transposes_S16x32_S32x16_1_0) : (⟨S16x32, .f32⟩ : BufTy).Contents (Elt F) → (⟨S32x16, .f32⟩ : BufTy).Contents (Elt F)),
    StableHlo.binary main_arg0 main_v25 main_v26 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.binary main_v24 main_v26 main_v27 (addf : (⟨S100000x16, .f32⟩ : BufTy).Contents (Elt F) → (⟨S100000x16, .f32⟩ : BufTy).Contents (Elt F) → (⟨S100000x16, .f32⟩ : BufTy).Contents (Elt F)),
    StableHlo.unary main_arg5 main_v28 (broadcastInDim S1x16 ![1] bcast_S16_S1x16_1 : (⟨S16, .f32⟩ : BufTy).Contents (Elt F) → (⟨S1x16, .f32⟩ : BufTy).Contents (Elt F)),
    StableHlo.unary main_v28 main_v29 (broadcastInDim S100000x16 ![0, 1] bcast_S1x16_S100000x16_0_1 : (⟨S1x16, .f32⟩ : BufTy).Contents (Elt F) → (⟨S100000x16, .f32⟩ : BufTy).Contents (Elt F)),
    StableHlo.binary main_v27 main_v29 main_v30 (addf : (⟨S100000x16, .f32⟩ : BufTy).Contents (Elt F) → (⟨S100000x16, .f32⟩ : BufTy).Contents (Elt F) → (⟨S100000x16, .f32⟩ : BufTy).Contents (Elt F)) ]
theorem main_part0_ops0_sub : (main_part0_ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub ..⟩
/-- 3 operations of fn_relu main_call0 in main_part0. -/
abbrev main_part0_ops1 : List (HloOp τ sig (Elt F)) :=
  [ StableHlo.TRef.nullary main_call0.cst (constant S_ .f32 0x00000000#32),
    StableHlo.TRef.unary main_call0.cst main_call0.v0 (broadcastInDim S100000x16 ![] bcast_S_S100000x16),
    StableHlo.TRef.binary (.of main_v30 : StableHlo.TRef sig ⟨S100000x16, .f32⟩) main_call0.v0 main_call0.v1 maximumf ]
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub ..⟩
/-- 6 operations of main in main_part0. -/
abbrev main_part0_ops2 : List (HloOp τ sig (Elt F)) :=
  [ StableHlo.nullary main_cst_4 (constant S_ .f32 0x00000000#32),
    StableHlo.binary main_v31 main_cst_4 main_v32 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    StableHlo.nullary main_cst_5 (constant S_ .f32 0x47C35000#32),
    StableHlo.unary main_cst_5 main_v33 (broadcastInDim S16 ![] bcast_S_S16 : (⟨S_, .f32⟩ : BufTy).Contents (Elt F) → (⟨S16, .f32⟩ : BufTy).Contents (Elt F)),
    StableHlo.binary main_v32 main_v33 main_v34 (Host.divf : (⟨S16, .f32⟩ : BufTy).Contents (Elt F) → (⟨S16, .f32⟩ : BufTy).Contents (Elt F) → (⟨S16, .f32⟩ : BufTy).Contents (Elt F)),
    StableHlo.nullary main_c_6 (constantI S_ 32 0#32) ]
theorem main_part0_ops2_sub : (main_part0_ops2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
/-- 22 operations of fn_var main_call1 in main_part0. -/
abbrev main_part0_ops3 : List (HloOp τ sig (Elt F)) :=
  [ StableHlo.TRef.nullary main_call1.cst (constant S_ .f32 0x00000000#32),
    StableHlo.TRef.binary (.of main_v31 : StableHlo.TRef sig ⟨S100000x16, .f32⟩) main_call1.cst main_call1.v0 (fun x v => Host.reduceAdd x v reducesTo_S100000x16_S16_d0 h_S_),
    StableHlo.TRef.unary main_call1.v0 main_call1.v1 (broadcastInDim S1x16 ![1] bcast_S16_S1x16_1),
    StableHlo.TRef.nullary main_call1.cst_0 (constant S_ .f32 0x47C35000#32),
    StableHlo.TRef.unary main_call1.cst_0 main_call1.v2 (broadcastInDim S1x16 ![] bcast_S_S1x16),
    StableHlo.TRef.binary main_call1.v1 main_call1.v2 main_call1.v3 Host.divf,
    StableHlo.TRef.unary main_call1.v3 main_call1.v4 (broadcastInDim S100000x16 ![0, 1] bcast_S1x16_S100000x16_0_1),
    StableHlo.TRef.binary (.of main_v31 : StableHlo.TRef sig ⟨S100000x16, .f32⟩) main_call1.v4 main_call1.v5 subf,
    StableHlo.TRef.binary main_call1.v5 main_call1.v5 main_call1.v6 mulf,
    StableHlo.TRef.unary (.of main_c_6 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x16_S16_d0 h_S_),
    StableHlo.TRef.unary main_call1.v8 main_call1.v10 (broadcastInDim S16 ![] bcast_S_S16),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S16 ![] bcast_S_S16),
    StableHlo.TRef.ternary main_call1.v12 main_call1.v11 main_call1.call0.v1 main_call1.call0.v2 (fun p a b => select (broadcastInDim S16 ![] bcast_S_S16 p) a b) ]
theorem main_part0_ops3_sub : (main_part0_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 15 operations of main in main_part0. -/
abbrev main_part0_ops4 : List (HloOp τ sig (Elt F)) :=
  [ StableHlo.unary main_v34 main_v36 (broadcastInDim S1x16 ![1] bcast_S16_S1x16_1 : (⟨S16, .f32⟩ : BufTy).Contents (Elt F) → (⟨S1x16, .f32⟩ : BufTy).Contents (Elt F)),
    StableHlo.unary main_v36 main_v37 (broadcastInDim S100000x16 ![0, 1] bcast_S1x16_S100000x16_0_1 : (⟨S1x16, .f32⟩ : BufTy).Contents (Elt F) → (⟨S100000x16, .f32⟩ : BufTy).Contents (Elt F)),
    StableHlo.binary main_v31 main_v37 main_v38 (subf : (⟨S100000x16, .f32⟩ : BufTy).Contents (Elt F) → (⟨S100000x16, .f32⟩ : BufTy).Contents (Elt F) → (⟨S100000x16, .f32⟩ : BufTy).Contents (Elt F)),
    StableHlo.nullary main_cst_7 (constant S_ .f32 0x3727C5AC#32),
    StableHlo.unary main_cst_7 main_v39 (broadcastInDim S16 ![] bcast_S_S16 : (⟨S_, .f32⟩ : BufTy).Contents (Elt F) → (⟨S16, .f32⟩ : BufTy).Contents (Elt F)),
    StableHlo.binary main_v35 main_v39 main_v40 (addf : (⟨S16, .f32⟩ : BufTy).Contents (Elt F) → (⟨S16, .f32⟩ : BufTy).Contents (Elt F) → (⟨S16, .f32⟩ : BufTy).Contents (Elt F)),
    StableHlo.unary main_v40 main_v41 (Host.rsqrt : (⟨S16, .f32⟩ : BufTy).Contents (Elt F) → (⟨S16, .f32⟩ : BufTy).Contents (Elt F)),
    StableHlo.unary main_v41 main_v42 (broadcastInDim S1x16 ![1] bcast_S16_S1x16_1 : (⟨S16, .f32⟩ : BufTy).Contents (Elt F) → (⟨S1x16, .f32⟩ : BufTy).Contents (Elt F)),
    StableHlo.unary main_v42 main_v43 (broadcastInDim S100000x16 ![0, 1] bcast_S1x16_S100000x16_0_1 : (⟨S1x16, .f32⟩ : BufTy).Contents (Elt F) → (⟨S100000x16, .f32⟩ : BufTy).Contents (Elt F)),
    StableHlo.binary main_v38 main_v43 main_v44 (mulf : (⟨S100000x16, .f32⟩ : BufTy).Contents (Elt F) → (⟨S100000x16, .f32⟩ : BufTy).Contents (Elt F) → (⟨S100000x16, .f32⟩ : BufTy).Contents (Elt F)),
    StableHlo.unary main_arg6 main_v45 (broadcastInDim S1x16 ![1] bcast_S16_S1x16_1 : (⟨S16, .f32⟩ : BufTy).Contents (Elt F) → (⟨S1x16, .f32⟩ : BufTy).Contents (Elt F)),
    StableHlo.unary main_v45 main_v46 (broadcastInDim S100000x16 ![0, 1] bcast_S1x16_S100000x16_0_1 : (⟨S1x16, .f32⟩ : BufTy).Contents (Elt F) → (⟨S100000x16, .f32⟩ : BufTy).Contents (Elt F)),
    StableHlo.binary main_v44 main_v46 main_v47 (mulf : (⟨S100000x16, .f32⟩ : BufTy).Contents (Elt F) → (⟨S100000x16, .f32⟩ : BufTy).Contents (Elt F) → (⟨S100000x16, .f32⟩ : BufTy).Contents (Elt F)),
    StableHlo.unary main_arg7 main_v48 (broadcastInDim S1x16 ![1] bcast_S16_S1x16_1 : (⟨S16, .f32⟩ : BufTy).Contents (Elt F) → (⟨S1x16, .f32⟩ : BufTy).Contents (Elt F)),
    StableHlo.unary main_v48 main_v49 (broadcastInDim S100000x16 ![0, 1] bcast_S1x16_S100000x16_0_1 : (⟨S1x16, .f32⟩ : BufTy).Contents (Elt F) → (⟨S100000x16, .f32⟩ : BufTy).Contents (Elt F)) ]
theorem main_part0_ops4_sub : (main_part0_ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩

/-- 1 operations of main in main_part1. -/
abbrev main_part1_ops0 : List (HloOp τ sig (Elt F)) :=
  [ StableHlo.binary main_v47 main_v49 main_v50 (addf : (⟨S100000x16, .f32⟩ : BufTy).Contents (Elt F) → (⟨S100000x16, .f32⟩ : BufTy).Contents (Elt F) → (⟨S100000x16, .f32⟩ : BufTy).Contents (Elt F)) ]
theorem main_part1_ops0_sub : (main_part1_ops0 : List (HloOp τ sig (Elt F))).Forall fun op => op.bufs ⊆ StableHlo.tcRefs τ sig :=
  StableHlo.binary_bufs_sub ..
/-- 23 operations of main in main_part1. -/
abbrev main_part1_ops1 : List (HloOp τ sig (Elt F)) :=
  [ StableHlo.nullary main_c_8 (constantI S_ 32 0#32),
    StableHlo.unary main_c_8 main_v51 (broadcastInDim S1600000 ![] bcast_S_S1600000 : (⟨S_, .i32⟩ : BufTy).Contents (Elt F) → (⟨S1600000, .i32⟩ : BufTy).Contents (Elt F)),
    StableHlo.binary main_v1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v53 (broadcastInDim S1600000 ![] bcast_S_S1600000 : (⟨S_, .i32⟩ : BufTy).Contents (Elt F) → (⟨S1600000, .i32⟩ : BufTy).Contents (Elt F)),
    StableHlo.binary main_v1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.binary main_v50 main_v56 main_v57 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.nullary main_cst_10 (constant S_ .f32 0x00000000#32),
    StableHlo.unary main_cst_10 main_v58 (broadcastInDim S100000x16 ![] bcast_S_S100000x16 : (⟨S_, .f32⟩ : BufTy).Contents (Elt F) → (⟨S100000x16, .f32⟩ : BufTy).Contents (Elt F)),
    StableHlo.unary main_v3 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    StableHlo.unary main_v10 main_v61 (broadcastInDim S100000x16 ![0, 1] bcast_S100000x1_S100000x16_0_1 : (⟨S100000x1, .f32⟩ : BufTy).Contents (Elt F) → (⟨S100000x16, .f32⟩ : BufTy).Contents (Elt F)),
    StableHlo.binary main_v60 main_v61 main_v62 (Host.divf : (⟨S100000x16, .f32⟩ : BufTy).Contents (Elt F) → (⟨S100000x16, .f32⟩ : BufTy).Contents (Elt F) → (⟨S100000x16, .f32⟩ : BufTy).Contents (Elt F)),
    StableHlo.unary main_arg8 main_v63 ((transpose S16x16 [1, 0] · transposes_S16x16_S16x16_1_0) : (⟨S16x16, .f32⟩ : BufTy).Contents (Elt F) → (⟨S16x16, .f32⟩ : BufTy).Contents (Elt F)),
    StableHlo.binary main_v62 main_v63 main_v64 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.unary main_arg9 main_v65 ((transpose S16x16 [1, 0] · transposes_S16x16_S16x16_1_0) : (⟨S16x16, .f32⟩ : BufTy).Contents (Elt F) → (⟨S16x16, .f32⟩ : BufTy).Contents (Elt F)),
    StableHlo.binary main_v50 main_v65 main_v66 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    StableHlo.binary main_v64 main_v66 main_v67 (addf : (⟨S100000x16, .f32⟩ : BufTy).Contents (Elt F) → (⟨S100000x16, .f32⟩ : BufTy).Contents (Elt F) → (⟨S100000x16, .f32⟩ : BufTy).Contents (Elt F)),
    StableHlo.unary main_arg10 main_v68 (broadcastInDim S1x16 ![1] bcast_S16_S1x16_1 : (⟨S16, .f32⟩ : BufTy).Contents (Elt F) → (⟨S1x16, .f32⟩ : BufTy).Contents (Elt F)),
    StableHlo.unary main_v68 main_v69 (broadcastInDim S100000x16 ![0, 1] bcast_S1x16_S100000x16_0_1 : (⟨S1x16, .f32⟩ : BufTy).Contents (Elt F) → (⟨S100000x16, .f32⟩ : BufTy).Contents (Elt F)),
    StableHlo.binary main_v67 main_v69 main_v70 (addf : (⟨S100000x16, .f32⟩ : BufTy).Contents (Elt F) → (⟨S100000x16, .f32⟩ : BufTy).Contents (Elt F) → (⟨S100000x16, .f32⟩ : BufTy).Contents (Elt F)) ]
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub ..⟩
/-- 3 operations of fn_relu main_call2 in main_part1. -/
abbrev main_part1_ops2 : List (HloOp τ sig (Elt F)) :=
  [ StableHlo.TRef.nullary main_call2.cst (constant S_ .f32 0x00000000#32),
    StableHlo.TRef.unary main_call2.cst main_call2.v0 (broadcastInDim S100000x16 ![] bcast_S_S100000x16),
    StableHlo.TRef.binary (.of main_v70 : StableHlo.TRef sig ⟨S100000x16, .f32⟩) main_call2.v0 main_call2.v1 maximumf ]
theorem main_part1_ops2_sub : (main_part1_ops2 : List (HloOp τ sig (Elt F))).Forall fun op => op.bufs ⊆ StableHlo.tcRefs τ sig :=
  ⟨StableHlo.nullary_bufs_sub .., StableHlo.unary_bufs_sub .., StableHlo.binary_bufs_sub ..⟩
/-- 16 operations of main in main_part1. -/
abbrev main_part1_ops3 : List (HloOp τ sig (Elt F)) :=
  [ StableHlo.nullary main_cst_11 (constant S_ .f32 0x3F800000#32),
    StableHlo.unary main_cst_11 main_v72 (broadcastInDim S100000 ![] bcast_S_S100000 : (⟨S_, .f32⟩ : BufTy).Contents (Elt F) → (⟨S100000, .f32⟩ : BufTy).Contents (Elt F)),
    StableHlo.nullary main_cst_12 (constant S_ .f32 0x00000000#32),
    StableHlo.unary main_cst_12 main_v73 (broadcastInDim S256 ![] bcast_S_S256 : (⟨S_, .f32⟩ : BufTy).Contents (Elt F) → (⟨S256, .f32⟩ : BufTy).Contents (Elt F)),
    StableHlo.unary main_arg2 main_v74 (broadcastInDim S100000x1 ![0] bcast_S100000_S100000x1_0 : (⟨S100000, .i32⟩ : BufTy).Contents (Elt F) → (⟨S100000x1, .i32⟩ : BufTy).Contents (Elt F)),
    StableHlo.ternary main_v73 main_v74 main_v72 main_v75 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    StableHlo.nullary main_cst_13 (constant S_ .f32 0x3F800000#32),
    StableHlo.unary main_cst_13 main_v76 (broadcastInDim S256 ![] bcast_S_S256 : (⟨S_, .f32⟩ : BufTy).Contents (Elt F) → (⟨S256, .f32⟩ : BufTy).Contents (Elt F)),
    StableHlo.binary main_v75 main_v76 main_v77 (maximumf : (⟨S256, .f32⟩ : BufTy).Contents (Elt F) → (⟨S256, .f32⟩ : BufTy).Contents (Elt F) → (⟨S256, .f32⟩ : BufTy).Contents (Elt F)),
    StableHlo.unary main_v77 main_v78 (broadcastInDim S256x1 ![0] bcast_S256_S256x1_0 : (⟨S256, .f32⟩ : BufTy).Contents (Elt F) → (⟨S256x1, .f32⟩ : BufTy).Contents (Elt F)),
    StableHlo.nullary main_cst_14 (constant S_ .f32 0x00000000#32),
    StableHlo.unary main_cst_14 main_v79 (broadcastInDim S256x16 ![] bcast_S_S256x16 : (⟨S_, .f32⟩ : BufTy).Contents (Elt F) → (⟨S256x16, .f32⟩ : BufTy).Contents (Elt F)),
    StableHlo.unary main_arg2 main_v80 (broadcastInDim S100000x1 ![0] bcast_S100000_S100000x1_0 : (⟨S100000, .i32⟩ : BufTy).Contents (Elt F) → (⟨S100000x1, .i32⟩ : BufTy).Contents (Elt F)),
    StableHlo.ternary main_v79 main_v80 main_v71 main_v81 ((fun x i u => Host.scatterAdd scatter_S256x16_S100000x1_S100000x16_1_0_0_1 x i u) : (⟨S256x16, .f32⟩ : BufTy).Contents (Elt F) → (⟨S100000x1, .i32⟩ : BufTy).Contents (Elt F) → (⟨S100000x16, .f32⟩ : BufTy).Contents (Elt F) → (⟨S256x16, .f32⟩ : BufTy).Contents (Elt F)),
    StableHlo.unary main_v78 main_v82 (broadcastInDim S256x16 ![0, 1] bcast_S256x1_S256x16_0_1 : (⟨S256x1, .f32⟩ : BufTy).Contents (Elt F) → (⟨S256x16, .f32⟩ : BufTy).Contents (Elt F)),
    StableHlo.binary main_v81 main_v82 main_v83 (Host.divf : (⟨S256x16, .f32⟩ : BufTy).Contents (Elt F) → (⟨S256x16, .f32⟩ : BufTy).Contents (Elt F) → (⟨S256x16, .f32⟩ : BufTy).Contents (Elt F)) ]
theorem main_part1_ops3_sub : (main_part1_ops3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.unary_bufs_sub .., StableHlo.binary_bufs_sub ..⟩
/-- 6 operations of main in main_part1. -/
abbrev main_part1_ops4 : List (HloOp τ sig (Elt F)) :=
  [ StableHlo.nullary main_cst_15 (constant S_ .f32 0x00000000#32),
    StableHlo.binary main_v83 main_cst_15 main_v84 ((fun x v => Host.reduceAdd x v reducesTo_S256x16_S16_d0 h_S_) : (⟨S256x16, .f32⟩ : BufTy).Contents (Elt F) → (⟨S_, .f32⟩ : BufTy).Contents (Elt F) → (⟨S16, .f32⟩ : BufTy).Contents (Elt F)),
    StableHlo.nullary main_cst_16 (constant S_ .f32 0x43800000#32),
    StableHlo.unary main_cst_16 main_v85 (broadcastInDim S16 ![] bcast_S_S16 : (⟨S_, .f32⟩ : BufTy).Contents (Elt F) → (⟨S16, .f32⟩ : BufTy).Contents (Elt F)),
    StableHlo.binary main_v84 main_v85 main_v86 (Host.divf : (⟨S16, .f32⟩ : BufTy).Contents (Elt F) → (⟨S16, .f32⟩ : BufTy).Contents (Elt F) → (⟨S16, .f32⟩ : BufTy).Contents (Elt F)),
    StableHlo.nullary main_c_17 (constantI S_ 32 0#32) ]
theorem main_part1_ops4_sub : (main_part1_ops4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
/-- 22 operations of fn_var_0 main_call3 in main_part1. -/
abbrev main_part1_ops5 : List (HloOp τ sig (Elt F)) :=
  [ StableHlo.TRef.nullary main_call3.cst (constant S_ .f32 0x00000000#32),
    StableHlo.TRef.binary (.of main_v83 : StableHlo.TRef sig ⟨S256x16, .f32⟩) main_call3.cst main_call3.v0 (fun x v => Host.reduceAdd x v reducesTo_S256x16_S16_d0 h_S_),
    StableHlo.TRef.unary main_call3.v0 main_call3.v1 (broadcastInDim S1x16 ![1] bcast_S16_S1x16_1),
    StableHlo.TRef.nullary main_call3.cst_0 (constant S_ .f32 0x43800000#32),
    StableHlo.TRef.unary main_call3.cst_0 main_call3.v2 (broadcastInDim S1x16 ![] bcast_S_S1x16),
    StableHlo.TRef.binary main_call3.v1 main_call3.v2 main_call3.v3 Host.divf,
    StableHlo.TRef.unary main_call3.v3 main_call3.v4 (broadcastInDim S256x16 ![0, 1] bcast_S1x16_S256x16_0_1),
    StableHlo.TRef.binary (.of main_v83 : StableHlo.TRef sig ⟨S256x16, .f32⟩) main_call3.v4 main_call3.v5 subf,
    StableHlo.TRef.binary main_call3.v5 main_call3.v5 main_call3.v6 mulf,
    StableHlo.TRef.unary (.of main_c_17 : StableHlo.TRef sig ⟨S_, .i32⟩) main_call3.v7 (sitofp .f32),
    StableHlo.TRef.nullary main_call3.cst_1 (constant S_ .f32 0x43800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S256x16_S16_d0 h_S_),
    StableHlo.TRef.unary main_call3.v8 main_call3.v10 (broadcastInDim S16 ![] bcast_S_S16),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S16 ![] bcast_S_S16),
    StableHlo.TRef.ternary main_call3.v12 main_call3.v11 main_call3.call0.v1 main_call3.call0.v2 (fun p a b => select (broadcastInDim S16 ![] bcast_S_S16 p) a b) ]
theorem main_part1_ops5_sub : (main_part1_ops5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 12 operations of main in main_part1. -/
abbrev main_part1_ops6 : List (HloOp τ sig (Elt F)) :=
  [ StableHlo.unary main_v86 main_v88 (broadcastInDim S1x16 ![1] bcast_S16_S1x16_1 : (⟨S16, .f32⟩ : BufTy).Contents (Elt F) → (⟨S1x16, .f32⟩ : BufTy).Contents (Elt F)),
    StableHlo.unary main_v88 main_v89 (broadcastInDim S256x16 ![0, 1] bcast_S1x16_S256x16_0_1 : (⟨S1x16, .f32⟩ : BufTy).Contents (Elt F) → (⟨S256x16, .f32⟩ : BufTy).Contents (Elt F)),
    StableHlo.binary main_v83 main_v89 main_v90 (subf : (⟨S256x16, .f32⟩ : BufTy).Contents (Elt F) → (⟨S256x16, .f32⟩ : BufTy).Contents (Elt F) → (⟨S256x16, .f32⟩ : BufTy).Contents (Elt F)),
    StableHlo.nullary main_cst_18 (constant S_ .f32 0x3727C5AC#32),
    StableHlo.unary main_cst_18 main_v91 (broadcastInDim S16 ![] bcast_S_S16 : (⟨S_, .f32⟩ : BufTy).Contents (Elt F) → (⟨S16, .f32⟩ : BufTy).Contents (Elt F)),
    StableHlo.binary main_v87 main_v91 main_v92 (addf : (⟨S16, .f32⟩ : BufTy).Contents (Elt F) → (⟨S16, .f32⟩ : BufTy).Contents (Elt F) → (⟨S16, .f32⟩ : BufTy).Contents (Elt F)),
    StableHlo.unary main_v92 main_v93 (Host.rsqrt : (⟨S16, .f32⟩ : BufTy).Contents (Elt F) → (⟨S16, .f32⟩ : BufTy).Contents (Elt F)),
    StableHlo.unary main_v93 main_v94 (broadcastInDim S1x16 ![1] bcast_S16_S1x16_1 : (⟨S16, .f32⟩ : BufTy).Contents (Elt F) → (⟨S1x16, .f32⟩ : BufTy).Contents (Elt F)),
    StableHlo.unary main_v94 main_v95 (broadcastInDim S256x16 ![0, 1] bcast_S1x16_S256x16_0_1 : (⟨S1x16, .f32⟩ : BufTy).Contents (Elt F) → (⟨S256x16, .f32⟩ : BufTy).Contents (Elt F)),
    StableHlo.binary main_v90 main_v95 main_v96 (mulf : (⟨S256x16, .f32⟩ : BufTy).Contents (Elt F) → (⟨S256x16, .f32⟩ : BufTy).Contents (Elt F) → (⟨S256x16, .f32⟩ : BufTy).Contents (Elt F)),
    StableHlo.unary main_arg11 main_v97 (broadcastInDim S1x16 ![1] bcast_S16_S1x16_1 : (⟨S16, .f32⟩ : BufTy).Contents (Elt F) → (⟨S1x16, .f32⟩ : BufTy).Contents (Elt F)),
    StableHlo.unary main_v97 main_v98 (broadcastInDim S256x16 ![0, 1] bcast_S1x16_S256x16_0_1 : (⟨S1x16, .f32⟩ : BufTy).Contents (Elt F) → (⟨S256x16, .f32⟩ : BufTy).Contents (Elt F)) ]
theorem main_part1_ops6_sub : (main_part1_ops6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub ..⟩

/-- 9 operations of main in main_part2. -/
abbrev main_part2_ops0 : List (HloOp τ sig (Elt F)) :=
  [ StableHlo.binary main_v96 main_v98 main_v99 (mulf : (⟨S256x16, .f32⟩ : BufTy).Contents (Elt F) → (⟨S256x16, .f32⟩ : BufTy).Contents (Elt F) → (⟨S256x16, .f32⟩ : BufTy).Contents (Elt F)),
    StableHlo.unary main_arg12 main_v100 (broadcastInDim S1x16 ![1] bcast_S16_S1x16_1 : (⟨S16, .f32⟩ : BufTy).Contents (Elt F) → (⟨S1x16, .f32⟩ : BufTy).Contents (Elt F)),
    StableHlo.unary main_v100 main_v101 (broadcastInDim S256x16 ![0, 1] bcast_S1x16_S256x16_0_1 : (⟨S1x16, .f32⟩ : BufTy).Contents (Elt F) → (⟨S256x16, .f32⟩ : BufTy).Contents (Elt F)),
    StableHlo.binary main_v99 main_v101 main_v102 (addf : (⟨S256x16, .f32⟩ : BufTy).Contents (Elt F) → (⟨S256x16, .f32⟩ : BufTy).Contents (Elt F) → (⟨S256x16, .f32⟩ : BufTy).Contents (Elt F)),
    StableHlo.unary main_arg13 main_v103 ((transpose S16x16 [1, 0] · transposes_S16x16_S16x16_1_0) : (⟨S16x16, .f32⟩ : BufTy).Contents (Elt F) → (⟨S16x16, .f32⟩ : BufTy).Contents (Elt F)),
    StableHlo.binary main_v102 main_v103 main_v104 ((fun l r => Host.dotGeneral dot_S256x16_S16x16_S256x16_1_0_0_1_n_n none l r) : (⟨S256x16, .f32⟩ : BufTy).Contents (Elt F) → (⟨S16x16, .f32⟩ : BufTy).Contents (Elt F) → (⟨S256x16, .f32⟩ : BufTy).Contents (Elt F)),
    StableHlo.unary main_arg14 main_v105 (broadcastInDim S1x16 ![1] bcast_S16_S1x16_1 : (⟨S16, .f32⟩ : BufTy).Contents (Elt F) → (⟨S1x16, .f32⟩ : BufTy).Contents (Elt F)),
    StableHlo.unary main_v105 main_v106 (broadcastInDim S256x16 ![0, 1] bcast_S1x16_S256x16_0_1 : (⟨S1x16, .f32⟩ : BufTy).Contents (Elt F) → (⟨S256x16, .f32⟩ : BufTy).Contents (Elt F)),
    StableHlo.binary main_v104 main_v106 main_v107 (addf : (⟨S256x16, .f32⟩ : BufTy).Contents (Elt F) → (⟨S256x16, .f32⟩ : BufTy).Contents (Elt F) → (⟨S256x16, .f32⟩ : BufTy).Contents (Elt F)) ]
theorem main_part2_ops0_sub : (main_part2_ops0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩
/-- 3 operations of fn_relu_1 main_call4 in main_part2. -/
abbrev main_part2_ops1 : List (HloOp τ sig (Elt F)) :=
  [ StableHlo.TRef.nullary main_call4.cst (constant S_ .f32 0x00000000#32),
    StableHlo.TRef.unary main_call4.cst main_call4.v0 (broadcastInDim S256x16 ![] bcast_S_S256x16),
    StableHlo.TRef.binary (.of main_v107 : StableHlo.TRef sig ⟨S256x16, .f32⟩) main_call4.v0 main_call4.v1 maximumf ]
theorem main_part2_ops1_sub : (main_part2_ops1 : List (HloOp τ sig (Elt F))).Forall fun op => op.bufs ⊆ StableHlo.tcRefs τ sig :=
  ⟨StableHlo.nullary_bufs_sub .., StableHlo.unary_bufs_sub .., StableHlo.binary_bufs_sub ..⟩
/-- 7 operations of main in main_part2. -/
abbrev main_part2_ops2 : List (HloOp τ sig (Elt F)) :=
  [ StableHlo.binary main_v108 main_v83 main_v109 ((fun a b => concatenate S256x32 1 [⟨S256x16, a⟩, ⟨S256x16, b⟩] concatenates_S256x16_S256x16_S256x32_d1) : (⟨S256x16, .f32⟩ : BufTy).Contents (Elt F) → (⟨S256x16, .f32⟩ : BufTy).Contents (Elt F) → (⟨S256x32, .f32⟩ : BufTy).Contents (Elt F)),
    StableHlo.nullary main_cst_19 (constant S_ .f32 0x00000000#32),
    StableHlo.binary main_v109 main_cst_19 main_v110 ((fun x v => Host.reduceAdd x v reducesTo_S256x32_S32_d0 h_S_) : (⟨S256x32, .f32⟩ : BufTy).Contents (Elt F) → (⟨S_, .f32⟩ : BufTy).Contents (Elt F) → (⟨S32, .f32⟩ : BufTy).Contents (Elt F)),
    StableHlo.nullary main_cst_20 (constant S_ .f32 0x43800000#32),
    StableHlo.unary main_cst_20 main_v111 (broadcastInDim S32 ![] bcast_S_S32 : (⟨S_, .f32⟩ : BufTy).Contents (Elt F) → (⟨S32, .f32⟩ : BufTy).Contents (Elt F)),
    StableHlo.binary main_v110 main_v111 main_v112 (Host.divf : (⟨S32, .f32⟩ : BufTy).Contents (Elt F) → (⟨S32, .f32⟩ : BufTy).Contents (Elt F) → (⟨S32, .f32⟩ : BufTy).Contents (Elt F)),
    StableHlo.nullary main_c_21 (constantI S_ 32 0#32) ]
theorem main_part2_ops2_sub : (main_part2_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
/-- 22 operations of fn_var_2 main_call5 in main_part2. -/
abbrev main_part2_ops3 : List (HloOp τ sig (Elt F)) :=
  [ StableHlo.TRef.nullary main_call5.cst (constant S_ .f32 0x00000000#32),
    StableHlo.TRef.binary (.of main_v109 : StableHlo.TRef sig ⟨S256x32, .f32⟩) main_call5.cst main_call5.v0 (fun x v => Host.reduceAdd x v reducesTo_S256x32_S32_d0 h_S_),
    StableHlo.TRef.unary main_call5.v0 main_call5.v1 (broadcastInDim S1x32 ![1] bcast_S32_S1x32_1),
    StableHlo.TRef.nullary main_call5.cst_0 (constant S_ .f32 0x43800000#32),
    StableHlo.TRef.unary main_call5.cst_0 main_call5.v2 (broadcastInDim S1x32 ![] bcast_S_S1x32),
    StableHlo.TRef.binary main_call5.v1 main_call5.v2 main_call5.v3 Host.divf,
    StableHlo.TRef.unary main_call5.v3 main_call5.v4 (broadcastInDim S256x32 ![0, 1] bcast_S1x32_S256x32_0_1),
    StableHlo.TRef.binary (.of main_v109 : StableHlo.TRef sig ⟨S256x32, .f32⟩) main_call5.v4 main_call5.v5 subf,
    StableHlo.TRef.binary main_call5.v5 main_call5.v5 main_call5.v6 mulf,
    StableHlo.TRef.unary (.of main_c_21 : StableHlo.TRef sig ⟨S_, .i32⟩) main_call5.v7 (sitofp .f32),
    StableHlo.TRef.nullary main_call5.cst_1 (constant S_ .f32 0x43800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S256x32_S32_d0 h_S_),
    StableHlo.TRef.unary main_call5.v8 main_call5.v10 (broadcastInDim S32 ![] bcast_S_S32),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S32 ![] bcast_S_S32),
    StableHlo.TRef.ternary main_call5.v12 main_call5.v11 main_call5.call0.v1 main_call5.call0.v2 (fun p a b => select (broadcastInDim S32 ![] bcast_S_S32 p) a b) ]
theorem main_part2_ops3_sub : (main_part2_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 21 operations of main in main_part2. -/
abbrev main_part2_ops4 : List (HloOp τ sig (Elt F)) :=
  [ StableHlo.unary main_v112 main_v114 (broadcastInDim S1x32 ![1] bcast_S32_S1x32_1 : (⟨S32, .f32⟩ : BufTy).Contents (Elt F) → (⟨S1x32, .f32⟩ : BufTy).Contents (Elt F)),
    StableHlo.unary main_v114 main_v115 (broadcastInDim S256x32 ![0, 1] bcast_S1x32_S256x32_0_1 : (⟨S1x32, .f32⟩ : BufTy).Contents (Elt F) → (⟨S256x32, .f32⟩ : BufTy).Contents (Elt F)),
    StableHlo.binary main_v109 main_v115 main_v116 (subf : (⟨S256x32, .f32⟩ : BufTy).Contents (Elt F) → (⟨S256x32, .f32⟩ : BufTy).Contents (Elt F) → (⟨S256x32, .f32⟩ : BufTy).Contents (Elt F)),
    StableHlo.nullary main_cst_22 (constant S_ .f32 0x3727C5AC#32),
    StableHlo.unary main_cst_22 main_v117 (broadcastInDim S32 ![] bcast_S_S32 : (⟨S_, .f32⟩ : BufTy).Contents (Elt F) → (⟨S32, .f32⟩ : BufTy).Contents (Elt F)),
    StableHlo.binary main_v113 main_v117 main_v118 (addf : (⟨S32, .f32⟩ : BufTy).Contents (Elt F) → (⟨S32, .f32⟩ : BufTy).Contents (Elt F) → (⟨S32, .f32⟩ : BufTy).Contents (Elt F)),
    StableHlo.unary main_v118 main_v119 (Host.rsqrt : (⟨S32, .f32⟩ : BufTy).Contents (Elt F) → (⟨S32, .f32⟩ : BufTy).Contents (Elt F)),
    StableHlo.unary main_v119 main_v120 (broadcastInDim S1x32 ![1] bcast_S32_S1x32_1 : (⟨S32, .f32⟩ : BufTy).Contents (Elt F) → (⟨S1x32, .f32⟩ : BufTy).Contents (Elt F)),
    StableHlo.unary main_v120 main_v121 (broadcastInDim S256x32 ![0, 1] bcast_S1x32_S256x32_0_1 : (⟨S1x32, .f32⟩ : BufTy).Contents (Elt F) → (⟨S256x32, .f32⟩ : BufTy).Contents (Elt F)),
    StableHlo.binary main_v116 main_v121 main_v122 (mulf : (⟨S256x32, .f32⟩ : BufTy).Contents (Elt F) → (⟨S256x32, .f32⟩ : BufTy).Contents (Elt F) → (⟨S256x32, .f32⟩ : BufTy).Contents (Elt F)),
    StableHlo.unary main_arg15 main_v123 (broadcastInDim S1x32 ![1] bcast_S32_S1x32_1 : (⟨S32, .f32⟩ : BufTy).Contents (Elt F) → (⟨S1x32, .f32⟩ : BufTy).Contents (Elt F)),
    StableHlo.unary main_v123 main_v124 (broadcastInDim S256x32 ![0, 1] bcast_S1x32_S256x32_0_1 : (⟨S1x32, .f32⟩ : BufTy).Contents (Elt F) → (⟨S256x32, .f32⟩ : BufTy).Contents (Elt F)),
    StableHlo.binary main_v122 main_v124 main_v125 (mulf : (⟨S256x32, .f32⟩ : BufTy).Contents (Elt F) → (⟨S256x32, .f32⟩ : BufTy).Contents (Elt F) → (⟨S256x32, .f32⟩ : BufTy).Contents (Elt F)),
    StableHlo.unary main_arg16 main_v126 (broadcastInDim S1x32 ![1] bcast_S32_S1x32_1 : (⟨S32, .f32⟩ : BufTy).Contents (Elt F) → (⟨S1x32, .f32⟩ : BufTy).Contents (Elt F)),
    StableHlo.unary main_v126 main_v127 (broadcastInDim S256x32 ![0, 1] bcast_S1x32_S256x32_0_1 : (⟨S1x32, .f32⟩ : BufTy).Contents (Elt F) → (⟨S256x32, .f32⟩ : BufTy).Contents (Elt F)),
    StableHlo.binary main_v125 main_v127 main_v128 (addf : (⟨S256x32, .f32⟩ : BufTy).Contents (Elt F) → (⟨S256x32, .f32⟩ : BufTy).Contents (Elt F) → (⟨S256x32, .f32⟩ : BufTy).Contents (Elt F)),
    StableHlo.unary main_arg17 main_v129 ((transpose S32x16 [1, 0] · transposes_S16x32_S32x16_1_0) : (⟨S16x32, .f32⟩ : BufTy).Contents (Elt F) → (⟨S32x16, .f32⟩ : BufTy).Contents (Elt F)),
    StableHlo.binary main_v128 main_v129 main_v130 ((fun l r => Host.dotGeneral dot_S256x32_S32x16_S256x16_1_0_0_1_n_n none l r) : (⟨S256x32, .f32⟩ : BufTy).Contents (Elt F) → (⟨S32x16, .f32⟩ : BufTy).Contents (Elt F) → (⟨S256x16, .f32⟩ : BufTy).Contents (Elt F)),
    StableHlo.unary main_arg18 main_v131 (broadcastInDim S1x16 ![1] bcast_S16_S1x16_1 : (⟨S16, .f32⟩ : BufTy).Contents (Elt F) → (⟨S1x16, .f32⟩ : BufTy).Contents (Elt F)),
    StableHlo.unary main_v131 main_v132 (broadcastInDim S256x16 ![0, 1] bcast_S1x16_S256x16_0_1 : (⟨S1x16, .f32⟩ : BufTy).Contents (Elt F) → (⟨S256x16, .f32⟩ : BufTy).Contents (Elt F)),
    StableHlo.binary main_v130 main_v132 main_v133 (addf : (⟨S256x16, .f32⟩ : BufTy).Contents (Elt F) → (⟨S256x16, .f32⟩ : BufTy).Contents (Elt F) → (⟨S256x16, .f32⟩ : BufTy).Contents (Elt F)) ]
theorem main_part2_ops4_sub : (main_part2_ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩
/-- 3 operations of fn_relu_1 main_call6 in main_part2. -/
abbrev main_part2_ops5 : List (HloOp τ sig (Elt F)) :=
  [ StableHlo.TRef.nullary main_call6.cst (constant S_ .f32 0x00000000#32),
    StableHlo.TRef.unary main_call6.cst main_call6.v0 (broadcastInDim S256x16 ![] bcast_S_S256x16),
    StableHlo.TRef.binary (.of main_v133 : StableHlo.TRef sig ⟨S256x16, .f32⟩) main_call6.v0 main_call6.v1 maximumf ]
theorem main_part2_ops5_sub : (main_part2_ops5 : List (HloOp τ sig (Elt F))).Forall fun op => op.bufs ⊆ StableHlo.tcRefs τ sig :=
  ⟨StableHlo.nullary_bufs_sub .., StableHlo.unary_bufs_sub .., StableHlo.binary_bufs_sub ..⟩
/-- 7 operations of main in main_part2. -/
abbrev main_part2_ops6 : List (HloOp τ sig (Elt F)) :=
  [ StableHlo.binary main_v134 main_v83 main_v135 ((fun a b => concatenate S256x32 1 [⟨S256x16, a⟩, ⟨S256x16, b⟩] concatenates_S256x16_S256x16_S256x32_d1) : (⟨S256x16, .f32⟩ : BufTy).Contents (Elt F) → (⟨S256x16, .f32⟩ : BufTy).Contents (Elt F) → (⟨S256x32, .f32⟩ : BufTy).Contents (Elt F)),
    StableHlo.nullary main_cst_23 (constant S_ .f32 0x00000000#32),
    StableHlo.binary main_v135 main_cst_23 main_v136 ((fun x v => Host.reduceAdd x v reducesTo_S256x32_S32_d0 h_S_) : (⟨S256x32, .f32⟩ : BufTy).Contents (Elt F) → (⟨S_, .f32⟩ : BufTy).Contents (Elt F) → (⟨S32, .f32⟩ : BufTy).Contents (Elt F)),
    StableHlo.nullary main_cst_24 (constant S_ .f32 0x43800000#32),
    StableHlo.unary main_cst_24 main_v137 (broadcastInDim S32 ![] bcast_S_S32 : (⟨S_, .f32⟩ : BufTy).Contents (Elt F) → (⟨S32, .f32⟩ : BufTy).Contents (Elt F)),
    StableHlo.binary main_v136 main_v137 main_v138 (Host.divf : (⟨S32, .f32⟩ : BufTy).Contents (Elt F) → (⟨S32, .f32⟩ : BufTy).Contents (Elt F) → (⟨S32, .f32⟩ : BufTy).Contents (Elt F)),
    StableHlo.nullary main_c_25 (constantI S_ 32 0#32) ]
theorem main_part2_ops6_sub : (main_part2_ops6 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
/-- 22 operations of fn_var_2 main_call7 in main_part2. -/
abbrev main_part2_ops7 : List (HloOp τ sig (Elt F)) :=
  [ StableHlo.TRef.nullary main_call7.cst (constant S_ .f32 0x00000000#32),
    StableHlo.TRef.binary (.of main_v135 : StableHlo.TRef sig ⟨S256x32, .f32⟩) main_call7.cst main_call7.v0 (fun x v => Host.reduceAdd x v reducesTo_S256x32_S32_d0 h_S_),
    StableHlo.TRef.unary main_call7.v0 main_call7.v1 (broadcastInDim S1x32 ![1] bcast_S32_S1x32_1),
    StableHlo.TRef.nullary main_call7.cst_0 (constant S_ .f32 0x43800000#32),
    StableHlo.TRef.unary main_call7.cst_0 main_call7.v2 (broadcastInDim S1x32 ![] bcast_S_S1x32),
    StableHlo.TRef.binary main_call7.v1 main_call7.v2 main_call7.v3 Host.divf,
    StableHlo.TRef.unary main_call7.v3 main_call7.v4 (broadcastInDim S256x32 ![0, 1] bcast_S1x32_S256x32_0_1),
    StableHlo.TRef.binary (.of main_v135 : StableHlo.TRef sig ⟨S256x32, .f32⟩) main_call7.v4 main_call7.v5 subf,
    StableHlo.TRef.binary main_call7.v5 main_call7.v5 main_call7.v6 mulf,
    StableHlo.TRef.unary (.of main_c_25 : StableHlo.TRef sig ⟨S_, .i32⟩) main_call7.v7 (sitofp .f32),
    StableHlo.TRef.nullary main_call7.cst_1 (constant S_ .f32 0x43800000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S256x32_S32_d0 h_S_),
    StableHlo.TRef.unary main_call7.v8 main_call7.v10 (broadcastInDim S32 ![] bcast_S_S32),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S32 ![] bcast_S_S32),
    StableHlo.TRef.ternary main_call7.v12 main_call7.v11 main_call7.call0.v1 main_call7.call0.v2 (fun p a b => select (broadcastInDim S32 ![] bcast_S_S32 p) a b) ]
theorem main_part2_ops7_sub : (main_part2_ops7 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- 12 operations of main in main_part2. -/
abbrev main_part2_ops8 : List (HloOp τ sig (Elt F)) :=
  [ StableHlo.unary main_v138 main_v140 (broadcastInDim S1x32 ![1] bcast_S32_S1x32_1 : (⟨S32, .f32⟩ : BufTy).Contents (Elt F) → (⟨S1x32, .f32⟩ : BufTy).Contents (Elt F)),
    StableHlo.unary main_v140 main_v141 (broadcastInDim S256x32 ![0, 1] bcast_S1x32_S256x32_0_1 : (⟨S1x32, .f32⟩ : BufTy).Contents (Elt F) → (⟨S256x32, .f32⟩ : BufTy).Contents (Elt F)),
    StableHlo.binary main_v135 main_v141 main_v142 (subf : (⟨S256x32, .f32⟩ : BufTy).Contents (Elt F) → (⟨S256x32, .f32⟩ : BufTy).Contents (Elt F) → (⟨S256x32, .f32⟩ : BufTy).Contents (Elt F)),
    StableHlo.nullary main_cst_26 (constant S_ .f32 0x3727C5AC#32),
    StableHlo.unary main_cst_26 main_v143 (broadcastInDim S32 ![] bcast_S_S32 : (⟨S_, .f32⟩ : BufTy).Contents (Elt F) → (⟨S32, .f32⟩ : BufTy).Contents (Elt F)),
    StableHlo.binary main_v139 main_v143 main_v144 (addf : (⟨S32, .f32⟩ : BufTy).Contents (Elt F) → (⟨S32, .f32⟩ : BufTy).Contents (Elt F) → (⟨S32, .f32⟩ : BufTy).Contents (Elt F)),
    StableHlo.unary main_v144 main_v145 (Host.rsqrt : (⟨S32, .f32⟩ : BufTy).Contents (Elt F) → (⟨S32, .f32⟩ : BufTy).Contents (Elt F)),
    StableHlo.unary main_v145 main_v146 (broadcastInDim S1x32 ![1] bcast_S32_S1x32_1 : (⟨S32, .f32⟩ : BufTy).Contents (Elt F) → (⟨S1x32, .f32⟩ : BufTy).Contents (Elt F)),
    StableHlo.unary main_v146 main_v147 (broadcastInDim S256x32 ![0, 1] bcast_S1x32_S256x32_0_1 : (⟨S1x32, .f32⟩ : BufTy).Contents (Elt F) → (⟨S256x32, .f32⟩ : BufTy).Contents (Elt F)),
    StableHlo.binary main_v142 main_v147 main_v148 (mulf : (⟨S256x32, .f32⟩ : BufTy).Contents (Elt F) → (⟨S256x32, .f32⟩ : BufTy).Contents (Elt F) → (⟨S256x32, .f32⟩ : BufTy).Contents (Elt F)),
    StableHlo.unary main_arg19 main_v149 (broadcastInDim S1x32 ![1] bcast_S32_S1x32_1 : (⟨S32, .f32⟩ : BufTy).Contents (Elt F) → (⟨S1x32, .f32⟩ : BufTy).Contents (Elt F)),
    StableHlo.unary main_v149 main_v150 (broadcastInDim S256x32 ![0, 1] bcast_S1x32_S256x32_0_1 : (⟨S1x32, .f32⟩ : BufTy).Contents (Elt F) → (⟨S256x32, .f32⟩ : BufTy).Contents (Elt F)) ]
theorem main_part2_ops8_sub : (main_part2_ops8 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub ..⟩

/-- 9 operations of main in main_part3. -/
abbrev main_part3_ops0 : List (HloOp τ sig (Elt F)) :=
  [ StableHlo.binary main_v148 main_v150 main_v151 (mulf : (⟨S256x32, .f32⟩ : BufTy).Contents (Elt F) → (⟨S256x32, .f32⟩ : BufTy).Contents (Elt F) → (⟨S256x32, .f32⟩ : BufTy).Contents (Elt F)),
    StableHlo.unary main_arg20 main_v152 (broadcastInDim S1x32 ![1] bcast_S32_S1x32_1 : (⟨S32, .f32⟩ : BufTy).Contents (Elt F) → (⟨S1x32, .f32⟩ : BufTy).Contents (Elt F)),
    StableHlo.unary main_v152 main_v153 (broadcastInDim S256x32 ![0, 1] bcast_S1x32_S256x32_0_1 : (⟨S1x32, .f32⟩ : BufTy).Contents (Elt F) → (⟨S256x32, .f32⟩ : BufTy).Contents (Elt F)),
    StableHlo.binary main_v151 main_v153 main_v154 (addf : (⟨S256x32, .f32⟩ : BufTy).Contents (Elt F) → (⟨S256x32, .f32⟩ : BufTy).Contents (Elt F) → (⟨S256x32, .f32⟩ : BufTy).Contents (Elt F)),
    StableHlo.unary main_arg21 main_v155 ((transpose S32x16 [1, 0] · transposes_S16x32_S32x16_1_0) : (⟨S16x32, .f32⟩ : BufTy).Contents (Elt F) → (⟨S32x16, .f32⟩ : BufTy).Contents (Elt F)),
    StableHlo.binary main_v154 main_v155 main_v156 ((fun l r => Host.dotGeneral dot_S256x32_S32x16_S256x16_1_0_0_1_n_n none l r) : (⟨S256x32, .f32⟩ : BufTy).Contents (Elt F) → (⟨S32x16, .f32⟩ : BufTy).Contents (Elt F) → (⟨S256x16, .f32⟩ : BufTy).Contents (Elt F)),
    StableHlo.unary main_arg22 main_v157 (broadcastInDim S1x16 ![1] bcast_S16_S1x16_1 : (⟨S16, .f32⟩ : BufTy).Contents (Elt F) → (⟨S1x16, .f32⟩ : BufTy).Contents (Elt F)),
    StableHlo.unary main_v157 main_v158 (broadcastInDim S256x16 ![0, 1] bcast_S1x16_S256x16_0_1 : (⟨S1x16, .f32⟩ : BufTy).Contents (Elt F) → (⟨S256x16, .f32⟩ : BufTy).Contents (Elt F)),
    StableHlo.binary main_v156 main_v158 main_v159 (addf : (⟨S256x16, .f32⟩ : BufTy).Contents (Elt F) → (⟨S256x16, .f32⟩ : BufTy).Contents (Elt F) → (⟨S256x16, .f32⟩ : BufTy).Contents (Elt F)) ]
theorem main_part3_ops0_sub : (main_part3_ops0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩
/-- 3 operations of fn_relu_1 main_call8 in main_part3. -/
abbrev main_part3_ops1 : List (HloOp τ sig (Elt F)) :=
  [ StableHlo.TRef.nullary main_call8.cst (constant S_ .f32 0x00000000#32),
    StableHlo.TRef.unary main_call8.cst main_call8.v0 (broadcastInDim S256x16 ![] bcast_S_S256x16),
    StableHlo.TRef.binary (.of main_v159 : StableHlo.TRef sig ⟨S256x16, .f32⟩) main_call8.v0 main_call8.v1 maximumf ]
theorem main_part3_ops1_sub : (main_part3_ops1 : List (HloOp τ sig (Elt F))).Forall fun op => op.bufs ⊆ StableHlo.tcRefs τ sig :=
  ⟨StableHlo.nullary_bufs_sub .., StableHlo.unary_bufs_sub .., StableHlo.binary_bufs_sub ..⟩
/-- 5 operations of main in main_part3. -/
abbrev main_part3_ops2 : List (HloOp τ sig (Elt F)) :=
  [ StableHlo.unary main_arg23 main_v161 ((transpose S16x1 [1, 0] · transposes_S1x16_S16x1_1_0) : (⟨S1x16, .f32⟩ : BufTy).Contents (Elt F) → (⟨S16x1, .f32⟩ : BufTy).Contents (Elt F)),
    StableHlo.binary main_v160 main_v161 main_v162 ((fun l r => Host.dotGeneral dot_S256x16_S16x1_S256x1_1_0_0_1_n_n none l r) : (⟨S256x16, .f32⟩ : BufTy).Contents (Elt F) → (⟨S16x1, .f32⟩ : BufTy).Contents (Elt F) → (⟨S256x1, .f32⟩ : BufTy).Contents (Elt F)),
    StableHlo.unary main_arg24 main_v163 (broadcastInDim S1x1 ![1] bcast_S1_S1x1_1 : (⟨S1, .f32⟩ : BufTy).Contents (Elt F) → (⟨S1x1, .f32⟩ : BufTy).Contents (Elt F)),
    StableHlo.unary main_v163 main_v164 (broadcastInDim S256x1 ![0, 1] bcast_S1x1_S256x1_0_1 : (⟨S1x1, .f32⟩ : BufTy).Contents (Elt F) → (⟨S256x1, .f32⟩ : BufTy).Contents (Elt F)),
    StableHlo.binary main_v162 main_v164 main_v165 (addf : (⟨S256x1, .f32⟩ : BufTy).Contents (Elt F) → (⟨S256x1, .f32⟩ : BufTy).Contents (Elt F) → (⟨S256x1, .f32⟩ : BufTy).Contents (Elt F)) ]
theorem main_part3_ops2_sub : (main_part3_ops2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩

end Cert.ReferenceIdeal.RefOps

end
-- ==== Proof.LibAfter.lean ====
import Idealize.ShloMosaic.Lib.StableHlo.Run
import Idealize.ShloMosaic.Lib.Pipeline.Regions

namespace Idealize.ShloMosaic.StableHlo

open Idealize.SL.Sem

variable {nD : Nat} {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_flatten {α : Type} {p : α → Prop} :
    ∀ ls : List (List α), (∀ l ∈ ls, l.Forall p) → ls.flatten.Forall p
  | [], _ => by simp [List.Forall]
  | l :: ls, h => by
    rw [List.flatten_cons, List.forall_iff_forall_mem]
    intro x hx
    rcases List.mem_append.mp hx with hx | hx
    · exact (List.forall_iff_forall_mem.mp (h l List.mem_cons_self)) x hx
    · exact (List.forall_iff_forall_mem.mp (forall_flatten ls fun l' hl' => h l' (List.mem_cons_of_mem _ hl'))) x hx

variable {Λ : Labels}

theorem chain_seq :
    ∀ ls : List (List (HloOp τ sig Val)),
      (Pipeline.chain (ls.map fun l => (seq l : Prog (TpuEff nD τ sig Val Λ .tc) PUnit))) = seq ls.flatten
  | [] => rfl
  | l :: ls => by
    rw [List.map_cons, Pipeline.chain_cons, chain_seq ls, List.flatten_cons, seq_append]

end Idealize.ShloMosaic.StableHlo
-- ==== Proof.RefRun.lean ====
import proofs.«428246_j33844342293317_2_alg».proof.Proof.RefOpsTable
import proofs.«428246_j33844342293317_2_alg».proof.Proof.LibAfter

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

theorem part0_chain (c : Dev nD) : main_part0 (F := F) c = (Pipeline.chainK
    [ seq main_part0_ops0, seq main_part0_ops1, seq main_part0_ops2, seq main_part0_ops3 ]
    (seq main_part0_ops4) : Prog (TpuEff nD τ sig (Elt F) (Pipeline.Sig Λ₀ (Fin 0) fun p => (pcfgs (F := F) p).Adm) .tc) PUnit) := by
  chain_rfl

theorem part1_chain (c : Dev nD) : main_part1 (F := F) c = (Pipeline.chainK
    [ seq main_part1_ops0, seq main_part1_ops1, seq main_part1_ops2, seq main_part1_ops3, seq main_part1_ops4, seq main_part1_ops5 ]
    (seq main_part1_ops6) : Prog (TpuEff nD τ sig (Elt F) (Pipeline.Sig Λ₀ (Fin 0) fun p => (pcfgs (F := F) p).Adm) .tc) PUnit) := by
  chain_rfl

theorem part2_chain (c : Dev nD) : main_part2 (F := F) c = (Pipeline.chainK
    [ seq main_part2_ops0, seq main_part2_ops1, seq main_part2_ops2, seq main_part2_ops3, seq main_part2_ops4, seq main_part2_ops5,
      seq main_part2_ops6, seq main_part2_ops7 ]
    (seq main_part2_ops8) : Prog (TpuEff nD τ sig (Elt F) (Pipeline.Sig Λ₀ (Fin 0) fun p => (pcfgs (F := F) p).Adm) .tc) PUnit) := by
  chain_rfl

theorem part3_chain (c : Dev nD) : main_part3 (F := F) c = (Pipeline.chain
    [ seq main_part3_ops0, seq main_part3_ops1, seq main_part3_ops2 ]
    : Prog (TpuEff nD τ sig (Elt F) (Pipeline.Sig Λ₀ (Fin 0) fun p => (pcfgs (F := F) p).Adm) .tc) PUnit) := by
  chain_rfl

abbrev stageA : List (List (HloOp τ sig (Elt F))) := [main_part0_ops0, main_part0_ops1]

abbrev stageB : List (List (HloOp τ sig (Elt F))) := [main_part0_ops2, main_part0_ops3, main_part0_ops4, main_part1_ops0]

abbrev stageC : List (List (HloOp τ sig (Elt F))) := [main_part1_ops1, main_part1_ops2]

abbrev stageD : List (List (HloOp τ sig (Elt F))) := [main_part1_ops3]

abbrev stageE : List (List (HloOp τ sig (Elt F))) :=
  [main_part1_ops4, main_part1_ops5, main_part1_ops6,
   main_part2_ops0, main_part2_ops1, main_part2_ops2, main_part2_ops3, main_part2_ops4, main_part2_ops5, main_part2_ops6,
   main_part2_ops7, main_part2_ops8, main_part3_ops0, main_part3_ops1, main_part3_ops2]

abbrev stretches : List (List (HloOp τ sig (Elt F))) := stageA ++ stageB ++ stageC ++ stageD ++ stageE

abbrev rops : List (HloOp τ sig (Elt F)) := (stretches (F := F)).flatten

theorem main_eq (c : Dev nD) : main (F := F) c = seq rops := by
  show (main_part0 (F := F) c >>= fun _ => main_part1 (F := F) c >>= fun _ => main_part2 (F := F) c >>= fun _ => main_part3 (F := F) c) = _
  rewrite [part3_chain, part2_chain, Pipeline.chainK_bind_chain, part1_chain, Pipeline.chainK_bind_chain, part0_chain,
    Pipeline.chainK_bind_chain]
  exact chain_seq (Λ := Pipeline.Sig Λ₀ (Fin 0) fun p => (pcfgs (F := F) p).Adm) (stretches (F := F))

theorem scopedRefs_eq : (Finset.univ.filter fun b : Ref sig .tc => b.isScoped) = ∅ := by decide
theorem scopedSems_eq : (Finset.univ.filter fun sm : SemLoc sig => sm.isScoped .tc) = ∅ := by decide

theorem rops_sub : (rops : List (HloOp τ sig (Elt F))).Forall fun op => op.bufs ⊆ tcRefs τ sig :=
  forall_flatten _ (by
    intro l hl
    simp only [stretches, stageA, stageB, stageC, stageD, stageE, List.cons_append, List.nil_append, List.mem_cons,
      List.not_mem_nil, or_false] at hl
    rcases hl with rfl | rfl | rfl | rfl | rfl | rfl | rfl | rfl | rfl | rfl | rfl | rfl | rfl | rfl | rfl | rfl | rfl | rfl | rfl |
      rfl | rfl | rfl | rfl | rfl
    exacts [main_part0_ops0_sub, main_part0_ops1_sub, main_part0_ops2_sub, main_part0_ops3_sub, main_part0_ops4_sub,
      main_part1_ops0_sub, main_part1_ops1_sub, main_part1_ops2_sub, main_part1_ops3_sub, main_part1_ops4_sub,
      main_part1_ops5_sub, main_part1_ops6_sub, main_part2_ops0_sub, main_part2_ops1_sub, main_part2_ops2_sub,
      main_part2_ops3_sub, main_part2_ops4_sub, main_part2_ops5_sub, main_part2_ops6_sub, main_part2_ops7_sub,
      main_part2_ops8_sub, main_part3_ops0_sub, main_part3_ops1_sub, main_part3_ops2_sub])

theorem rops_fresh : ∀ op ∈ (rops : List (HloOp τ sig (Elt F))), op.fresh = ∅ :=
  List.forall_iff_forall_mem.mp (forall_flatten _ (by
    intro l hl
    simp only [stretches, stageA, stageB, stageC, stageD, stageE, List.cons_append, List.nil_append, List.mem_cons,
      List.not_mem_nil, or_false] at hl
    rcases hl with rfl | rfl | rfl | rfl | rfl | rfl | rfl | rfl | rfl | rfl | rfl | rfl | rfl | rfl | rfl | rfl | rfl | rfl | rfl |
      rfl | rfl | rfl | rfl | rfl
    all_goals (simp only [List.Forall]; repeat' constructor)))

abbrev U0 (m : (ℓ : Loc nD τ sig) → Buf (Elt F) ℓ) (c : Dev nD) : Valuation τ sig (Elt F) := launchContents m c
abbrev U1 (m : (ℓ : Loc nD τ sig) → Buf (Elt F) ℓ) (c : Dev nD) : Valuation τ sig (Elt F) := after (stageA (F := F)).flatten (U0 m c)
abbrev U2 (m : (ℓ : Loc nD τ sig) → Buf (Elt F) ℓ) (c : Dev nD) : Valuation τ sig (Elt F) := after (stageB (F := F)).flatten (U1 m c)
abbrev U3 (m : (ℓ : Loc nD τ sig) → Buf (Elt F) ℓ) (c : Dev nD) : Valuation τ sig (Elt F) := after (stageC (F := F)).flatten (U2 m c)
abbrev U4 (m : (ℓ : Loc nD τ sig) → Buf (Elt F) ℓ) (c : Dev nD) : Valuation τ sig (Elt F) := after (stageD (F := F)).flatten (U3 m c)
abbrev U5 (m : (ℓ : Loc nD τ sig) → Buf (Elt F) ℓ) (c : Dev nD) : Valuation τ sig (Elt F) := after (stageE (F := F)).flatten (U4 m c)

theorem after_rops (m : (ℓ : Loc nD τ sig) → Buf (Elt F) ℓ) (c : Dev nD) : after rops (launchContents m c) = U5 m c := by
  show after (stageA ++ stageB ++ stageC ++ stageD ++ stageE).flatten _ = _
  simp only [List.flatten_append, after_append]

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = U5 m c (Proc.devRef .tc b) :=
  (θ_run defs _ _).mono (fun _ h c b => (h c b).trans (congrFun (after_rops m c) _))
    (run_seq scopedRefs_eq scopedSems_eq defs main (fun _ => rops) main_eq (fun _ => rops_sub) m ρ (fun _ => rops_fresh))

end Cert.ReferenceIdeal.RefRun

end
-- ==== Proof.Iface.lean ====
import proofs.«428246_j33844342293317_2_alg».proof.Proof.Gen.KernelIdeal.Frame
import proofs.«428246_j33844342293317_2_alg».proof.Proof.RefRun
import Idealize.ShloMosaic.Lib.ValueIdx
import Idealize.ShloMosaic.PureOps.Ideal

set_option maxHeartbeats 1000000

noncomputable section

namespace Cert.Bridge

open Idealize.ShloMosaic Idealize.ShloMosaic.TcCoe Idealize.SL.Sem Idealize.ShloMosaic.ValueIdx
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

-- the five stages' results: the reference's, each read where its stage of the line ends
abbrev rH0 : FVec Ideal Cert.KernelIdeal.S100000x16 .f32 := Cert.ReferenceIdeal.RefRun.U1 m' c (Proc.devRef .tc Cert.ReferenceIdeal.main_v31)
abbrev rHbn : FVec Ideal Cert.KernelIdeal.S100000x16 .f32 := Cert.ReferenceIdeal.RefRun.U2 m' c (Proc.devRef .tc Cert.ReferenceIdeal.main_v50)
abbrev rH2 : FVec Ideal Cert.KernelIdeal.S100000x16 .f32 := Cert.ReferenceIdeal.RefRun.U3 m' c (Proc.devRef .tc Cert.ReferenceIdeal.main_v71)
abbrev rX : FVec Ideal Cert.KernelIdeal.S256x16 .f32 := Cert.ReferenceIdeal.RefRun.U4 m' c (Proc.devRef .tc Cert.ReferenceIdeal.main_v83)
abbrev rOut : FVec Ideal Cert.KernelIdeal.S256x1 .f32 := Cert.ReferenceIdeal.RefRun.U5 m' c (Proc.devRef .tc Cert.ReferenceIdeal.main_v165)
-- the kernel's, each read right after the launch that produces it (with the first launch's two column sums)
abbrev kH0 : FVec Ideal Cert.KernelIdeal.S100000x16 .f32 := Cert.KernelIdeal.Gen.W2 m ρ c (Proc.devRef .tc Cert.KernelIdeal.main_v24_0)
abbrev kSum : FVec Ideal Cert.KernelIdeal.S1x16 .f32 := Cert.KernelIdeal.Gen.W2 m ρ c (Proc.devRef .tc Cert.KernelIdeal.main_v24_1)
abbrev kSq : FVec Ideal Cert.KernelIdeal.S1x16 .f32 := Cert.KernelIdeal.Gen.W2 m ρ c (Proc.devRef .tc Cert.KernelIdeal.main_v24_2)
abbrev kHbn : FVec Ideal Cert.KernelIdeal.S100000x16 .f32 := Cert.KernelIdeal.Gen.W4 m ρ c (Proc.devRef .tc Cert.KernelIdeal.main_v39)
abbrev kH2 : FVec Ideal Cert.KernelIdeal.S100000x16 .f32 := Cert.KernelIdeal.Gen.W6 m ρ c (Proc.devRef .tc Cert.KernelIdeal.main_v53)
abbrev kX : FVec Ideal Cert.KernelIdeal.S256x16 .f32 := Cert.KernelIdeal.Gen.W9 m ρ c (Proc.devRef .tc Cert.KernelIdeal.main_v61)
abbrev kOut : FVec Ideal Cert.KernelIdeal.S256x1 .f32 := Cert.KernelIdeal.Gen.W21 m ρ c (Proc.devRef .tc Cert.KernelIdeal.main_v143)

/-- The two memories hold the same arguments. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
/-- Every entry of every float argument is a real number. -/
structure FinArgs : Prop where
  f0 : ∀ i, ∃ r : ℝ, m ((c.tc : Thread Cert.KernelIdeal.nD Cert.KernelIdeal.τ).loc Cert.KernelIdeal.main_arg0) i = (r : EReal)
  f3 : ∀ i, ∃ r : ℝ, m ((c.tc : Thread Cert.KernelIdeal.nD Cert.KernelIdeal.τ).loc Cert.KernelIdeal.main_arg3) i = (r : EReal)
  f4 : ∀ i, ∃ r : ℝ, m ((c.tc : Thread Cert.KernelIdeal.nD Cert.KernelIdeal.τ).loc Cert.KernelIdeal.main_arg4) i = (r : EReal)
  f5 : ∀ i, ∃ r : ℝ, m ((c.tc : Thread Cert.KernelIdeal.nD Cert.KernelIdeal.τ).loc Cert.KernelIdeal.main_arg5) i = (r : EReal)
  f6 : ∀ i, ∃ r : ℝ, m ((c.tc : Thread Cert.KernelIdeal.nD Cert.KernelIdeal.τ).loc Cert.KernelIdeal.main_arg6) i = (r : EReal)
  f7 : ∀ i, ∃ r : ℝ, m ((c.tc : Thread Cert.KernelIdeal.nD Cert.KernelIdeal.τ).loc Cert.KernelIdeal.main_arg7) i = (r : EReal)
  f8 : ∀ i, ∃ r : ℝ, m ((c.tc : Thread Cert.KernelIdeal.nD Cert.KernelIdeal.τ).loc Cert.KernelIdeal.main_arg8) i = (r : EReal)
  f9 : ∀ i, ∃ r : ℝ, m ((c.tc : Thread Cert.KernelIdeal.nD Cert.KernelIdeal.τ).loc Cert.KernelIdeal.main_arg9) i = (r : EReal)
  f10 : ∀ i, ∃ r : ℝ, m ((c.tc : Thread Cert.KernelIdeal.nD Cert.KernelIdeal.τ).loc Cert.KernelIdeal.main_arg10) i = (r : EReal)
  f11 : ∀ i, ∃ r : ℝ, m ((c.tc : Thread Cert.KernelIdeal.nD Cert.KernelIdeal.τ).loc Cert.KernelIdeal.main_arg11) i = (r : EReal)
  f12 : ∀ i, ∃ r : ℝ, m ((c.tc : Thread Cert.KernelIdeal.nD Cert.KernelIdeal.τ).loc Cert.KernelIdeal.main_arg12) i = (r : EReal)
  f13 : ∀ i, ∃ r : ℝ, m ((c.tc : Thread Cert.KernelIdeal.nD Cert.KernelIdeal.τ).loc Cert.KernelIdeal.main_arg13) i = (r : EReal)
  f14 : ∀ i, ∃ r : ℝ, m ((c.tc : Thread Cert.KernelIdeal.nD Cert.KernelIdeal.τ).loc Cert.KernelIdeal.main_arg14) i = (r : EReal)
  f15 : ∀ i, ∃ r : ℝ, m ((c.tc : Thread Cert.KernelIdeal.nD Cert.KernelIdeal.τ).loc Cert.KernelIdeal.main_arg15) i = (r : EReal)
  f16 : ∀ i, ∃ r : ℝ, m ((c.tc : Thread Cert.KernelIdeal.nD Cert.KernelIdeal.τ).loc Cert.KernelIdeal.main_arg16) i = (r : EReal)
  f17 : ∀ i, ∃ r : ℝ, m ((c.tc : Thread Cert.KernelIdeal.nD Cert.KernelIdeal.τ).loc Cert.KernelIdeal.main_arg17) i = (r : EReal)
  f18 : ∀ i, ∃ r : ℝ, m ((c.tc : Thread Cert.KernelIdeal.nD Cert.KernelIdeal.τ).loc Cert.KernelIdeal.main_arg18) i = (r : EReal)
  f19 : ∀ i, ∃ r : ℝ, m ((c.tc : Thread Cert.KernelIdeal.nD Cert.KernelIdeal.τ).loc Cert.KernelIdeal.main_arg19) i = (r : EReal)
  f20 : ∀ i, ∃ r : ℝ, m ((c.tc : Thread Cert.KernelIdeal.nD Cert.KernelIdeal.τ).loc Cert.KernelIdeal.main_arg20) i = (r : EReal)
  f21 : ∀ i, ∃ r : ℝ, m ((c.tc : Thread Cert.KernelIdeal.nD Cert.KernelIdeal.τ).loc Cert.KernelIdeal.main_arg21) i = (r : EReal)
  f22 : ∀ i, ∃ r : ℝ, m ((c.tc : Thread Cert.KernelIdeal.nD Cert.KernelIdeal.τ).loc Cert.KernelIdeal.main_arg22) i = (r : EReal)
  f23 : ∀ i, ∃ r : ℝ, m ((c.tc : Thread Cert.KernelIdeal.nD Cert.KernelIdeal.τ).loc Cert.KernelIdeal.main_arg23) i = (r : EReal)
  f24 : ∀ i, ∃ r : ℝ, m ((c.tc : Thread Cert.KernelIdeal.nD Cert.KernelIdeal.τ).loc Cert.KernelIdeal.main_arg24) i = (r : EReal)

end Cert.Bridge

end
-- ==== Proof.StageAValSpec.lean ====
import Idealize.ShloMosaic.Lib.StackMember
import Idealize.ShloMosaic.Lib.ValueIdx
import Idealize.ShloMosaic.PureOps.Ideal

noncomputable section

namespace Cert.Bridge

open Idealize.ShloMosaic Idealize.ShloMosaic.ValueIdx
open scoped BigOperators

def sageEntry (a : Fin 32 → Ideal .f32) (d : Ideal .f32) (x : Fin 32 → Ideal .f32) (wl wr : Fin 32 → Ideal .f32)
    (b : Ideal .f32) : Ideal .f32 :=
  max ((∑ k : Fin 32, Ideal.div (a k) d * wl k) + (∑ k : Fin 32, x k * wr k) + b) (Ideal.ofBits .f32 0x00000000#32)

theorem sageEntry_congr {a a' : Fin 32 → Ideal .f32} {d d' : Ideal .f32} {x x' wl wl' wr wr' : Fin 32 → Ideal .f32}
    {b b' : Ideal .f32} (ha : ∀ k, a k = a' k) (hd : d = d') (hx : ∀ k, x k = x' k) (hwl : ∀ k, wl k = wl' k)
    (hwr : ∀ k, wr k = wr' k) (hb : b = b') : sageEntry a d x wl wr b = sageEntry a' d' x' wl' wr' b' := by
  obtain rfl : a = a' := funext ha
  obtain rfl : x = x' := funext hx
  obtain rfl : wl = wl' := funext hwl
  obtain rfl : wr = wr' := funext hwr
  subst hd hb
  rfl

theorem dotGeneral_plain_apply' {M K N : Nat} {φ₁ φ₂ : FTy} (d : DotDims ⟨2, ![M, K]⟩ ⟨2, ![K, N]⟩ ⟨2, ![M, N]⟩)
    (hd : d = DotDims.plain M K N) (A : FVec Ideal ⟨2, ![M, K]⟩ φ₁) (B : FVec Ideal ⟨2, ![K, N]⟩ φ₂) (a : Fin M) (b : Fin N) :
    Host.dotGeneral (F := Ideal) d none A B (ix2 a b) = ∑ k : Fin K, A (ix2 a k) * B (ix2 k b) := by
  subst hd
  exact StackMember.dotGeneral_plain_apply none A B a b

theorem matmul_plain_apply {M K N : Nat} {φ₁ φ₂ : FTy} (d : DotDims ⟨2, ![M, K]⟩ ⟨2, ![K, N]⟩ ⟨2, ![M, N]⟩)
    (hd : d = DotDims.plain M K N) (A : FVec Ideal ⟨2, ![M, K]⟩ φ₁) (B : FVec Ideal ⟨2, ![K, N]⟩ φ₂) (a : Fin M) (b : Fin N) :
    matmul (F := Ideal) d none A B (constant ⟨2, ![M, N]⟩ .f32 0x00000000#32) (ix2 a b) = ∑ k : Fin K, A (ix2 a k) * B (ix2 k b) := by
  rw [matmul_zero_eq_dotGeneral]
  exact dotGeneral_plain_apply' d hd A B a b

end Cert.Bridge

end
-- ==== Proof.StageAValPay.lean ====
import proofs.«428246_j33844342293317_2_alg».proof.Proof.Gen.KernelIdeal.Skeleton
import proofs.«428246_j33844342293317_2_alg».proof.Proof.StageAValSpec

noncomputable section

namespace Cert.Bridge

open Idealize.ShloMosaic Idealize.ShloMosaic.ValueIdx
open Cert.KernelIdeal Cert.KernelIdeal.Gen
open scoped BigOperators

theorem pay4_apply (a : Vec Ideal S10000x32 .f32) (d : Vec Ideal S10000x1 .f32) (x : Vec Ideal S10000x32 .f32)
    (wl wr : Vec Ideal S32x16 .f32) (b : Vec Ideal S1x16 .f32) (r : Fin 10000) (f : Fin 16) :
    k0_pay4 (F := Ideal) a d x wl wr b (ix2 r f)
      = sageEntry (fun k => a (ix2 r k)) (d (ix2 r 0)) (fun k => x (ix2 r k)) (fun k => wl (ix2 k f)) (fun k => wr (ix2 k f))
          (b (ix2 0 f)) := by
  unfold k0_pay4 sageEntry
  simp only [Idealize.ShloMosaic.shapeCast_self]

  have hd : ∀ k : Fin 32, broadcastTo S10000x32 d broadcasts_S10000x1_S10000x32 (ix2 r k) = d (ix2 r 0) := fun k =>
    broadcastTo_apply d _ (ix2 r k) (ix2 r 0) fun ax => by
      match ax with
      | ⟨0, _⟩ => rfl
      | ⟨1, _⟩ => rfl
  have hb : broadcastTo S10000x16 b broadcasts_S1x16_S10000x16 (ix2 r f) = b (ix2 0 f) :=
    broadcastTo_apply b _ (ix2 r f) (ix2 0 f) fun ax => by
      match ax with
      | ⟨0, _⟩ => rfl
      | ⟨1, _⟩ => rfl
  refine congrArg (fun v => max v (Ideal.ofBits .f32 0x00000000#32)) ?_
  refine congrArg₂ (· + ·) (congrArg₂ (· + ·) ?_ ?_) hb
  · refine (matmul_plain_apply _ rfl _ _ r f).trans (Finset.sum_congr rfl fun k _ => ?_)
    exact congrArg (fun v => Ideal.div (a (ix2 r k)) v * wl (ix2 k f)) (hd k)
  · exact matmul_plain_apply _ rfl _ _ r f

end Cert.Bridge

end
-- ==== Proof.StageAValRef.lean ====
import proofs.«428246_j33844342293317_2_alg».proof.Proof.RefRun
import proofs.«428246_j33844342293317_2_alg».proof.Proof.StageAValSpec
import Idealize.ShloMosaic.Lib.Pipeline.Value

noncomputable section

namespace Cert.Bridge

open Idealize.ShloMosaic Idealize.ShloMosaic.ValueIdx
open scoped BigOperators

open Idealize.ShloMosaic.TcCoe Idealize.SL.Sem Idealize.ShloMosaic.StableHlo
open Cert.ReferenceIdeal Cert.ReferenceIdeal.Gen Cert.ReferenceIdeal.RefRun Cert.ReferenceIdeal.RefOps

section AnyF
variable {F : FTy → Type} [FloatOps F]

abbrev tailA : List (HloOp τ sig (Elt F)) :=
  [
    StableHlo.unary main_v10 main_v21 (broadcastInDim S100000x32 ![0, 1] bcast_S100000x1_S100000x32_0_1 : (⟨S100000x1, .f32⟩ : BufTy).Contents (Elt F) → (⟨S100000x32, .f32⟩ : BufTy).Contents (Elt F)),
    StableHlo.binary main_v20 main_v21 main_v22 (Host.divf : (⟨S100000x32, .f32⟩ : BufTy).Contents (Elt F) → (⟨S100000x32, .f32⟩ : BufTy).Contents (Elt F) → (⟨S100000x32, .f32⟩ : BufTy).Contents (Elt F)),
    StableHlo.unary main_arg3 main_v23 ((transpose S32x16 [1, 0] · transposes_S16x32_S32x16_1_0) : (⟨S16x32, .f32⟩ : BufTy).Contents (Elt F) → (⟨S32x16, .f32⟩ : BufTy).Contents (Elt F)),
    StableHlo.binary main_v22 main_v23 main_v24 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg4 main_v25 ((transpose S32x16 [1, 0] · transposes_S16x32_S32x16_1_0) : (⟨S16x32, .f32⟩ : BufTy).Contents (Elt F) → (⟨S32x16, .f32⟩ : BufTy).Contents (Elt F)),
    StableHlo.binary main_arg0 main_v25 main_v26 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.binary main_v24 main_v26 main_v27 (addf : (⟨S100000x16, .f32⟩ : BufTy).Contents (Elt F) → (⟨S100000x16, .f32⟩ : BufTy).Contents (Elt F) → (⟨S100000x16, .f32⟩ : BufTy).Contents (Elt F)),
    StableHlo.unary main_arg5 main_v28 (broadcastInDim S1x16 ![1] bcast_S16_S1x16_1 : (⟨S16, .f32⟩ : BufTy).Contents (Elt F) → (⟨S1x16, .f32⟩ : BufTy).Contents (Elt F)),
    StableHlo.unary main_v28 main_v29 (broadcastInDim S100000x16 ![0, 1] bcast_S1x16_S100000x16_0_1 : (⟨S1x16, .f32⟩ : BufTy).Contents (Elt F) → (⟨S100000x16, .f32⟩ : BufTy).Contents (Elt F)),
    StableHlo.binary main_v27 main_v29 main_v30 (addf : (⟨S100000x16, .f32⟩ : BufTy).Contents (Elt F) → (⟨S100000x16, .f32⟩ : BufTy).Contents (Elt F) → (⟨S100000x16, .f32⟩ : BufTy).Contents (Elt F)),
    StableHlo.TRef.nullary main_call0.cst (constant S_ .f32 0x00000000#32),
    StableHlo.TRef.unary main_call0.cst main_call0.v0 (broadcastInDim S100000x16 ![] bcast_S_S100000x16),
    StableHlo.TRef.binary (.of main_v30 : StableHlo.TRef sig ⟨S100000x16, .f32⟩) main_call0.v0 main_call0.v1 maximumf ]

theorem stageA_split : (stageA (F := F)).flatten = (main_part0_ops0 (F := F)).take 27 ++ tailA := rfl

variable (m' : (ℓ : Loc nD τ sig) → Buf (Elt F) ℓ) (c : Dev nD)

abbrev Upre : Valuation τ sig (Elt F) := after ((main_part0_ops0 (F := F)).take 27) (U0 m' c)

theorem U1_eq_tail : U1 m' c = after tailA (Upre m' c) := by
  show after (stageA (F := F)).flatten (U0 m' c) = _
  rw [stageA_split, after_append]

variable (Vp : Valuation τ sig (Elt F))

theorem tail_v20 : after tailA Vp (Proc.devRef .tc main_v20) = Vp (Proc.devRef .tc main_v20) := by
  simp only [tailA]; after_results_simp
theorem tail_v10 : after tailA Vp (Proc.devRef .tc main_v10) = Vp (Proc.devRef .tc main_v10) := by
  simp only [tailA]; after_results_simp
theorem tail_arg0 : after tailA Vp (Proc.devRef .tc main_arg0) = Vp (Proc.devRef .tc main_arg0) := by
  simp only [tailA]; after_results_simp
theorem tail_arg3 : after tailA Vp (Proc.devRef .tc main_arg3) = Vp (Proc.devRef .tc main_arg3) := by
  simp only [tailA]; after_results_simp
theorem tail_arg4 : after tailA Vp (Proc.devRef .tc main_arg4) = Vp (Proc.devRef .tc main_arg4) := by
  simp only [tailA]; after_results_simp
theorem tail_arg5 : after tailA Vp (Proc.devRef .tc main_arg5) = Vp (Proc.devRef .tc main_arg5) := by
  simp only [tailA]; after_results_simp

abbrev layerOf (agg : FVec F S100000x32 .f32) (deg : FVec F S100000x1 .f32) (x : FVec F S100000x32 .f32)
    (w1 w2 : FVec F S16x32 .f32) (b : FVec F S16 .f32) : FVec F S100000x16 .f32 :=
  maximumf
    (addf
      (addf
        (Host.dotGeneral dot_S100000x32_S32x16_S100000x16_1_0_0_1_n_n none
          (Host.divf agg (broadcastInDim S100000x32 ![0, 1] bcast_S100000x1_S100000x32_0_1 deg))
          (transpose S32x16 [1, 0] w1 transposes_S16x32_S32x16_1_0))
        (Host.dotGeneral dot_S100000x32_S32x16_S100000x16_1_0_0_1_n_n none x
          (transpose S32x16 [1, 0] w2 transposes_S16x32_S32x16_1_0)))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

theorem tail_v31 : (after tailA Vp (Proc.devRef .tc main_v31) : FVec F S100000x16 .f32)
    = layerOf (Vp (Proc.devRef .tc main_v20)) (Vp (Proc.devRef .tc main_v10)) (Vp (Proc.devRef .tc main_arg0))
        (Vp (Proc.devRef .tc main_arg3)) (Vp (Proc.devRef .tc main_arg4)) (Vp (Proc.devRef .tc main_arg5)) := by
  simp only [tailA]
  after_results_simp
  simp only [TRef.ofBuf, TRef.toBuf, cast_eq]

theorem rH0_layer : (U1 m' c (Proc.devRef .tc main_v31) : FVec F S100000x16 .f32)
    = layerOf (U1 m' c (Proc.devRef .tc main_v20)) (U1 m' c (Proc.devRef .tc main_v10)) (U1 m' c (Proc.devRef .tc main_arg0))
        (U1 m' c (Proc.devRef .tc main_arg3)) (U1 m' c (Proc.devRef .tc main_arg4)) (U1 m' c (Proc.devRef .tc main_arg5)) := by
  rw [U1_eq_tail, tail_v31, tail_v20, tail_v10, tail_arg0, tail_arg3, tail_arg4, tail_arg5]

end AnyF

section AtIdeal
variable (m' : (ℓ : Loc nD τ sig) → Buf (Elt Ideal) ℓ) (c : Dev nD)

theorem layerOf_apply (agg : FVec Ideal S100000x32 .f32) (deg : FVec Ideal S100000x1 .f32) (x : FVec Ideal S100000x32 .f32)
    (w1 w2 : FVec Ideal S16x32 .f32) (b : FVec Ideal S16 .f32) (n : Fin 100000) (f : Fin 16) :
    layerOf (F := Ideal) agg deg x w1 w2 b (ix2 n f)
      = sageEntry (fun k => agg (ix2 n k)) (deg (ix2 n 0)) (fun k => x (ix2 n k)) (fun k => w1 (ix2 f k))
          (fun k => w2 (ix2 f k)) (b (ix1 f)) := by
  unfold sageEntry
  have hdeg : ∀ k : Fin 32, broadcastInDim S100000x32 ![0, 1] bcast_S100000x1_S100000x32_0_1 deg (ix2 n k) = deg (ix2 n 0) :=
    fun k => broadcastInDim_apply ![0, 1] bcast_S100000x1_S100000x32_0_1 deg (ix2 n k) (ix2 n 0) fun ax => by
      match ax with
      | ⟨0, _⟩ => rfl
      | ⟨1, _⟩ => rfl
  have hw1 : ∀ k : Fin 32, transpose S32x16 [1, 0] w1 transposes_S16x32_S32x16_1_0 (ix2 k f) = w1 (ix2 f k) :=
    fun k => transpose_apply [1, 0] w1 transposes_S16x32_S32x16_1_0 (ix2 k f) (ix2 f k) fun ax => by
      match ax with
      | ⟨0, _⟩ => rfl
      | ⟨1, _⟩ => rfl
  have hw2 : ∀ k : Fin 32, transpose S32x16 [1, 0] w2 transposes_S16x32_S32x16_1_0 (ix2 k f) = w2 (ix2 f k) :=
    fun k => transpose_apply [1, 0] w2 transposes_S16x32_S32x16_1_0 (ix2 k f) (ix2 f k) fun ax => by
      match ax with
      | ⟨0, _⟩ => rfl
      | ⟨1, _⟩ => rfl
  have hb : broadcastInDim S100000x16 ![0, 1] bcast_S1x16_S100000x16_0_1 (broadcastInDim S1x16 ![1] bcast_S16_S1x16_1 b) (ix2 n f)
      = b (ix1 f) :=
    (broadcastInDim_apply ![0, 1] bcast_S1x16_S100000x16_0_1 _ (ix2 n f) (ix2 0 f) fun ax => by
      match ax with
      | ⟨0, _⟩ => rfl
      | ⟨1, _⟩ => rfl).trans
    (broadcastInDim_apply ![1] bcast_S16_S1x16_1 b (ix2 0 f) (ix1 f) fun ax => by
      match ax with
      | ⟨0, _⟩ => rfl)
  refine congrArg (fun v => max v (Ideal.ofBits .f32 0x00000000#32)) ?_
  refine congrArg₂ (· + ·) (congrArg₂ (· + ·) ?_ ?_) hb
  · refine (dotGeneral_plain_apply' _ rfl _ _ n f).trans (Finset.sum_congr rfl fun k _ => ?_)
    exact congrArg₂ (fun u v => Ideal.div (agg (ix2 n k)) u * v) (hdeg k) (hw1 k)
  · refine (dotGeneral_plain_apply' _ rfl _ _ n f).trans (Finset.sum_congr rfl fun k _ => ?_)
    exact congrArg (fun v => x (ix2 n k) * v) (hw2 k)

end AtIdeal

section Args
variable {F : FTy → Type} [FloatOps F]
variable (m' : (ℓ : Loc nD τ sig) → Buf (Elt F) ℓ) (c : Dev nD)

theorem U1_arg0 : (U1 m' c (Proc.devRef .tc main_arg0) : FVec F S100000x32 .f32) = m' ((c.tc : Thread nD τ).loc main_arg0) := by
  show after (stageA (F := F)).flatten (U0 m' c) (Proc.devRef .tc main_arg0) = _
  simp only [stageA, List.flatten_cons, List.flatten_nil, List.append_nil, after_append, main_part0_ops0, main_part0_ops1]
  after_results_simp
theorem U1_arg3 : (U1 m' c (Proc.devRef .tc main_arg3) : FVec F S16x32 .f32) = m' ((c.tc : Thread nD τ).loc main_arg3) := by
  show after (stageA (F := F)).flatten (U0 m' c) (Proc.devRef .tc main_arg3) = _
  simp only [stageA, List.flatten_cons, List.flatten_nil, List.append_nil, after_append, main_part0_ops0, main_part0_ops1]
  after_results_simp
theorem U1_arg4 : (U1 m' c (Proc.devRef .tc main_arg4) : FVec F S16x32 .f32) = m' ((c.tc : Thread nD τ).loc main_arg4) := by
  show after (stageA (F := F)).flatten (U0 m' c) (Proc.devRef .tc main_arg4) = _
  simp only [stageA, List.flatten_cons, List.flatten_nil, List.append_nil, after_append, main_part0_ops0, main_part0_ops1]
  after_results_simp
theorem U1_arg5 : (U1 m' c (Proc.devRef .tc main_arg5) : FVec F S16 .f32) = m' ((c.tc : Thread nD τ).loc main_arg5) := by
  show after (stageA (F := F)).flatten (U0 m' c) (Proc.devRef .tc main_arg5) = _
  simp only [stageA, List.flatten_cons, List.flatten_nil, List.append_nil, after_append, main_part0_ops0, main_part0_ops1]
  after_results_simp

end Args

section Read
variable (m' : (ℓ : Loc nD τ sig) → Buf (Elt Ideal) ℓ) (c : Dev nD)

theorem rH0_apply (n : Fin 100000) (f : Fin 16) :
    (U1 m' c (Proc.devRef .tc main_v31) : FVec Ideal S100000x16 .f32) (ix2 n f)
      = sageEntry (fun k => (U1 m' c (Proc.devRef .tc main_v20) : FVec Ideal S100000x32 .f32) (ix2 n k))
          ((U1 m' c (Proc.devRef .tc main_v10) : FVec Ideal S100000x1 .f32) (ix2 n 0))
          (fun k => (m' ((c.tc : Thread nD τ).loc main_arg0) : FVec Ideal S100000x32 .f32) (ix2 n k))
          (fun k => (m' ((c.tc : Thread nD τ).loc main_arg3) : FVec Ideal S16x32 .f32) (ix2 f k))
          (fun k => (m' ((c.tc : Thread nD τ).loc main_arg4) : FVec Ideal S16x32 .f32) (ix2 f k))
          ((m' ((c.tc : Thread nD τ).loc main_arg5) : FVec Ideal S16 .f32) (ix1 f)) := by
  rw [rH0_layer, U1_arg0, U1_arg3, U1_arg4, U1_arg5]
  exact layerOf_apply _ _ _ _ _ _ n f

end Read

end Cert.Bridge

end
-- ==== Proof.StageAValAgree.lean ====
import proofs.«428246_j33844342293317_2_alg».proof.Proof.Gen.KernelIdeal.Frame
import proofs.«428246_j33844342293317_2_alg».proof.Proof.RefRun
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx

variable {F : FTy → Type} [FloatOps F]
variable (m : (ℓ : Loc Cert.KernelIdeal.nD Cert.KernelIdeal.τ Cert.KernelIdeal.sig) → Buf (Elt F) ℓ) (ρ : Dev Cert.KernelIdeal.nD → PrngReg)
  (m' : (ℓ : Loc Cert.ReferenceIdeal.nD Cert.ReferenceIdeal.τ Cert.ReferenceIdeal.sig) → Buf (Elt F) ℓ)
  (c : Dev Cert.KernelIdeal.nD)

theorem agg_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.W1 m ρ c (Proc.devRef .tc Cert.KernelIdeal.main_v20) : Vec F Cert.KernelIdeal.S100000x32 .f32)
      = Cert.ReferenceIdeal.RefRun.U1 m' c (Proc.devRef .tc Cert.ReferenceIdeal.main_v20) := by
  have e0 : Cert.ReferenceIdeal.RefRun.U0 m' c (Proc.devRef .tc Cert.ReferenceIdeal.main_arg0)
      = Cert.KernelIdeal.Gen.W0 m ρ c (Proc.devRef .tc Cert.KernelIdeal.main_arg0) := h0
  have e1 : Cert.ReferenceIdeal.RefRun.U0 m' c (Proc.devRef .tc Cert.ReferenceIdeal.main_arg1)
      = Cert.KernelIdeal.Gen.W0 m ρ c (Proc.devRef .tc Cert.KernelIdeal.main_arg1) := h1
  show StableHlo.after Cert.KernelIdeal.Gen.hostOps0 (Cert.KernelIdeal.Gen.W0 m ρ c) (Proc.devRef .tc Cert.KernelIdeal.main_v20)
    = StableHlo.after (Cert.ReferenceIdeal.RefRun.stageA (F := F)).flatten (Cert.ReferenceIdeal.RefRun.U0 m' c) (Proc.devRef .tc Cert.ReferenceIdeal.main_v20)
  simp only [Cert.KernelIdeal.Gen.hostOps0, Cert.ReferenceIdeal.RefRun.stageA, List.flatten_cons, List.flatten_nil, List.append_nil,
    StableHlo.after_append, Cert.ReferenceIdeal.RefOps.main_part0_ops0, Cert.ReferenceIdeal.RefOps.main_part0_ops1]
  after_results_simp
  rw [e0, e1]
  rfl

theorem deg_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.W1 m ρ c (Proc.devRef .tc Cert.KernelIdeal.main_v10) : Vec F Cert.KernelIdeal.S100000x1 .f32)
      = Cert.ReferenceIdeal.RefRun.U1 m' c (Proc.devRef .tc Cert.ReferenceIdeal.main_v10) := by
  have e0 : Cert.ReferenceIdeal.RefRun.U0 m' c (Proc.devRef .tc Cert.ReferenceIdeal.main_arg0)
      = Cert.KernelIdeal.Gen.W0 m ρ c (Proc.devRef .tc Cert.KernelIdeal.main_arg0) := h0
  have e1 : Cert.ReferenceIdeal.RefRun.U0 m' c (Proc.devRef .tc Cert.ReferenceIdeal.main_arg1)
      = Cert.KernelIdeal.Gen.W0 m ρ c (Proc.devRef .tc Cert.KernelIdeal.main_arg1) := h1
  show StableHlo.after Cert.KernelIdeal.Gen.hostOps0 (Cert.KernelIdeal.Gen.W0 m ρ c) (Proc.devRef .tc Cert.KernelIdeal.main_v10)
    = StableHlo.after (Cert.ReferenceIdeal.RefRun.stageA (F := F)).flatten (Cert.ReferenceIdeal.RefRun.U0 m' c) (Proc.devRef .tc Cert.ReferenceIdeal.main_v10)
  simp only [Cert.KernelIdeal.Gen.hostOps0, Cert.ReferenceIdeal.RefRun.stageA, List.flatten_cons, List.flatten_nil, List.append_nil,
    StableHlo.after_append, Cert.ReferenceIdeal.RefOps.main_part0_ops0, Cert.ReferenceIdeal.RefOps.main_part0_ops1]
  after_results_simp
  rw [e1]
  rfl

section Kernel
open Cert.KernelIdeal Cert.KernelIdeal.Gen

theorem W1_arg0 : (W1 m ρ c (Proc.devRef .tc main_arg0) : Vec F S100000x32 .f32) = m ((c.tc : Thread nD τ).loc main_arg0) := by
  show StableHlo.after hostOps0 (W0 m ρ c) (Proc.devRef .tc main_arg0) = _
  simp only [hostOps0]
  after_results_simp

theorem W1_v21 : (W1 m ρ c (Proc.devRef .tc main_v21) : Vec F S32x16 .f32)
    = transpose S32x16 [1, 0] (m ((c.tc : Thread nD τ).loc main_arg3)) transposes_S16x32_S32x16_1_0 := by
  show StableHlo.after hostOps0 (W0 m ρ c) (Proc.devRef .tc main_v21) = _
  simp only [hostOps0]
  after_results_simp

theorem W1_v22 : (W1 m ρ c (Proc.devRef .tc main_v22) : Vec F S32x16 .f32)
    = transpose S32x16 [1, 0] (m ((c.tc : Thread nD τ).loc main_arg4)) transposes_S16x32_S32x16_1_0 := by
  show StableHlo.after hostOps0 (W0 m ρ c) (Proc.devRef .tc main_v22) = _
  simp only [hostOps0]
  after_results_simp

theorem W1_v23 : (W1 m ρ c (Proc.devRef .tc main_v23) : Vec F S1x16 .f32)
    = shapeCast S1x16 (m ((c.tc : Thread nD τ).loc main_arg5)) shapeCasts_S16_S1x16 := by
  show StableHlo.after hostOps0 (W0 m ρ c) (Proc.devRef .tc main_v23) = _
  simp only [hostOps0]
  after_results_simp
  rfl

theorem W1_v21_apply (k : Fin 32) (f : Fin 16) :
    (W1 m ρ c (Proc.devRef .tc main_v21) : Vec F S32x16 .f32) (ix2 k f)
      = (m ((c.tc : Thread nD τ).loc main_arg3) : Vec F S16x32 .f32) (ix2 f k) := by
  rw [W1_v21]
  exact transpose_apply [1, 0] _ transposes_S16x32_S32x16_1_0 (ix2 k f) (ix2 f k) fun ax => by
    match ax with
    | ⟨0, _⟩ => rfl
    | ⟨1, _⟩ => rfl

theorem W1_v22_apply (k : Fin 32) (f : Fin 16) :
    (W1 m ρ c (Proc.devRef .tc main_v22) : Vec F S32x16 .f32) (ix2 k f)
      = (m ((c.tc : Thread nD τ).loc main_arg4) : Vec F S16x32 .f32) (ix2 f k) := by
  rw [W1_v22]
  exact transpose_apply [1, 0] _ transposes_S16x32_S32x16_1_0 (ix2 k f) (ix2 f k) fun ax => by
    match ax with
    | ⟨0, _⟩ => rfl
    | ⟨1, _⟩ => rfl

theorem W1_v23_apply (f : Fin 16) :
    (W1 m ρ c (Proc.devRef .tc main_v23) : Vec F S1x16 .f32) (ix2 0 f)
      = (m ((c.tc : Thread nD τ).loc main_arg5) : Vec F S16 .f32) (ix1 f) := by
  rw [W1_v23]
  refine shapeCast_apply _ shapeCasts_S16_S1x16 (ix2 0 f) (ix1 f) ?_
  rw [Shape.rowMajor_val_one, Shape.rowMajor_val_two]
  show f.val = 0 * 16 + f.val
  omega

end Kernel

end Cert.Bridge

end
-- ==== Proof.StageAValBlk.lean ====
import proofs.«428246_j33844342293317_2_alg».proof.Proof.Gen.KernelIdeal.Frame
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable {F : FTy → Type} [FloatOps F]
variable (V : (c : Dev nD) → (b : Ref sig .tc) → Buf (Elt F) ((c : Thread nD τ).loc b))

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem iblk0_0_apply (c : Dev nD) (t : Fin cfg0.N) (r : Fin 10000) (k : Fin 32) (n : Fin 100000)
    (hn : n.val = t.val * 10000 + r.val) :
    (iblk0 V c 0 t : Vec F S10000x32 .f32) (ix2 r k) = (V c main_v20 : Vec F S100000x32 .f32) (ix2 n k) := by
  unfold iblk0
  rw [View.read_apply]
  show (V c main_v20 : Vec F S100000x32 .f32) _ = (V c main_v20 : Vec F S100000x32 .f32) _
  congr 1
  funext a; apply Fin.ext
  obtain ⟨e0, e1, -⟩ := idx_facts0 t
  match a with
  | ⟨0, _⟩ => show win0_0.index t (0 : Fin 2) * 10000 + 1 * r.val = n.val; rw [e0]; omega
  | ⟨1, _⟩ => show win0_0.index t (1 : Fin 2) * 32 + 1 * k.val = k.val; rw [e1]; omega

theorem iblk0_1_apply (c : Dev nD) (t : Fin cfg0.N) (r : Fin 10000) (n : Fin 100000)
    (hn : n.val = t.val * 10000 + r.val) :
    (iblk0 V c 1 t : Vec F S10000x1 .f32) (ix2 r 0) = (V c main_v10 : Vec F S100000x1 .f32) (ix2 n 0) := by
  unfold iblk0
  rw [View.read_apply]
  show (V c main_v10 : Vec F S100000x1 .f32) _ = (V c main_v10 : Vec F S100000x1 .f32) _
  congr 1
  funext a; apply Fin.ext
  obtain ⟨-, -, e0, e1, -⟩ := idx_facts0 t
  match a with
  | ⟨0, _⟩ => show win0_1.index t (0 : Fin 2) * 10000 + 1 * r.val = n.val; rw [e0]; omega
  | ⟨1, _⟩ => show win0_1.index t (1 : Fin 2) * 1 + 1 * 0 = 0; rw [e1]

theorem iblk0_2_apply (c : Dev nD) (t : Fin cfg0.N) (r : Fin 10000) (k : Fin 32) (n : Fin 100000)
    (hn : n.val = t.val * 10000 + r.val) :
    (iblk0 V c 2 t : Vec F S10000x32 .f32) (ix2 r k) = (V c main_arg0 : Vec F S100000x32 .f32) (ix2 n k) := by
  unfold iblk0
  rw [View.read_apply]
  show (V c main_arg0 : Vec F S100000x32 .f32) _ = (V c main_arg0 : Vec F S100000x32 .f32) _
  congr 1
  funext a; apply Fin.ext
  obtain ⟨-, -, -, -, e0, e1, -⟩ := idx_facts0 t
  match a with
  | ⟨0, _⟩ => show win0_2.index t (0 : Fin 2) * 10000 + 1 * r.val = n.val; rw [e0]; omega
  | ⟨1, _⟩ => show win0_2.index t (1 : Fin 2) * 32 + 1 * k.val = k.val; rw [e1]; omega

theorem iblk0_3_apply (c : Dev nD) (t : Fin cfg0.N) (k : Fin 32) (f : Fin 16) :
    (iblk0 V c 3 t : Vec F S32x16 .f32) (ix2 k f) = (V c main_v21 : Vec F S32x16 .f32) (ix2 k f) := by
  unfold iblk0
  rw [View.read_apply]
  show (V c main_v21 : Vec F S32x16 .f32) _ = (V c main_v21 : Vec F S32x16 .f32) _
  congr 1
  funext a; apply Fin.ext
  obtain ⟨-, -, -, -, -, -, e0, e1, -⟩ := idx_facts0 t
  match a with
  | ⟨0, _⟩ => show win0_3.index t (0 : Fin 2) * 32 + 1 * k.val = k.val; rw [e0]; omega
  | ⟨1, _⟩ => show win0_3.index t (1 : Fin 2) * 16 + 1 * f.val = f.val; rw [e1]; omega

theorem iblk0_4_apply (c : Dev nD) (t : Fin cfg0.N) (k : Fin 32) (f : Fin 16) :
    (iblk0 V c 4 t : Vec F S32x16 .f32) (ix2 k f) = (V c main_v22 : Vec F S32x16 .f32) (ix2 k f) := by
  unfold iblk0
  rw [View.read_apply]
  show (V c main_v22 : Vec F S32x16 .f32) _ = (V c main_v22 : Vec F S32x16 .f32) _
  congr 1
  funext a; apply Fin.ext
  obtain ⟨-, -, -, -, -, -, -, -, e0, e1, -⟩ := idx_facts0 t
  match a with
  | ⟨0, _⟩ => show win0_4.index t (0 : Fin 2) * 32 + 1 * k.val = k.val; rw [e0]; omega
  | ⟨1, _⟩ => show win0_4.index t (1 : Fin 2) * 16 + 1 * f.val = f.val; rw [e1]; omega

theorem iblk0_5_apply (c : Dev nD) (t : Fin cfg0.N) (f : Fin 16) :
    (iblk0 V c 5 t : Vec F S1x16 .f32) (ix2 0 f) = (V c main_v23 : Vec F S1x16 .f32) (ix2 0 f) := by
  unfold iblk0
  rw [View.read_apply]
  show (V c main_v23 : Vec F S1x16 .f32) _ = (V c main_v23 : Vec F S1x16 .f32) _
  congr 1
  funext a; apply Fin.ext
  obtain ⟨-, -, -, -, -, -, -, -, -, -, e0, e1, -⟩ := idx_facts0 t
  match a with
  | ⟨0, _⟩ => show win0_5.index t (0 : Fin 2) * 1 + 1 * 0 = 0; rw [e0]
  | ⟨1, _⟩ => show win0_5.index t (1 : Fin 2) * 16 + 1 * f.val = f.val; rw [e1]; omega

end Cert.Bridge

end
-- ==== Proof.StageABlock.lean ====
import proofs.«428246_j33844342293317_2_alg».proof.Proof.Iface
import proofs.«428246_j33844342293317_2_alg».proof.Proof.StageAValPay
import proofs.«428246_j33844342293317_2_alg».proof.Proof.StageAValRef
import proofs.«428246_j33844342293317_2_alg».proof.Proof.StageAValAgree
import proofs.«428246_j33844342293317_2_alg».proof.Proof.StageAValBlk

noncomputable section

namespace Cert.Bridge

open Idealize.ShloMosaic Idealize.ShloMosaic.TcCoe Idealize.SL.Sem Idealize.ShloMosaic.ValueIdx
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

open Cert.KernelIdeal.Gen in

theorem blockA (ha : Agree m m' c) (t : Fin Cert.KernelIdeal.cfg0.N) (r : Fin 10000) (f : Fin 16) (n : Fin 100000)
    (hn : n.val = t.val * 10000 + r.val) :
    Cert.KernelIdeal.Gen.k0_pay4 (F := Ideal)
      (Cert.KernelIdeal.Gen.iblk0 (Cert.KernelIdeal.Gen.V1 m ρ) c 0 t)
      (Cert.KernelIdeal.Gen.iblk0 (Cert.KernelIdeal.Gen.V1 m ρ) c 1 t)
      (Cert.KernelIdeal.Gen.iblk0 (Cert.KernelIdeal.Gen.V1 m ρ) c 2 t)
      (Cert.KernelIdeal.Gen.iblk0 (Cert.KernelIdeal.Gen.V1 m ρ) c 3 t)
      (Cert.KernelIdeal.Gen.iblk0 (Cert.KernelIdeal.Gen.V1 m ρ) c 4 t)
      (Cert.KernelIdeal.Gen.iblk0 (Cert.KernelIdeal.Gen.V1 m ρ) c 5 t) (ix2 r f)
      = rH0 m' c (ix2 n f) := by
  refine (pay4_apply (iblk0 (V1 m ρ) c 0 t) (iblk0 (V1 m ρ) c 1 t) (iblk0 (V1 m ρ) c 2 t) (iblk0 (V1 m ρ) c 3 t)
    (iblk0 (V1 m ρ) c 4 t) (iblk0 (V1 m ρ) c 5 t) r f).trans (Eq.trans ?_ (rH0_apply m' c n f).symm)
  refine sageEntry_congr (fun k => ?_) ?_ (fun k => ?_) (fun k => ?_) (fun k => ?_) ?_
  ·
    exact (iblk0_0_apply (V1 m ρ) c t r k n hn).trans (congrFun (agg_agree m ρ m' c ha.a0 ha.a1) (ix2 n k))
  ·
    exact (iblk0_1_apply (V1 m ρ) c t r n hn).trans (congrFun (deg_agree m ρ m' c ha.a0 ha.a1) (ix2 n 0))
  ·
    exact (iblk0_2_apply (V1 m ρ) c t r k n hn).trans
      ((congrFun (W1_arg0 m ρ c) (ix2 n k)).trans (congrFun ha.a0.symm (ix2 n k)))
  ·
    exact (iblk0_3_apply (V1 m ρ) c t k f).trans ((W1_v21_apply m ρ c k f).trans (congrFun ha.a3.symm (ix2 f k)))
  ·
    exact (iblk0_4_apply (V1 m ρ) c t k f).trans ((W1_v22_apply m ρ c k f).trans (congrFun ha.a4.symm (ix2 f k)))
  ·
    exact (iblk0_5_apply (V1 m ρ) c t f).trans ((W1_v23_apply m ρ c f).trans (congrFun ha.a5.symm (ix1 f)))

end Cert.Bridge

end
-- ==== Proof.StageAValOut.lean ====
import proofs.«428246_j33844342293317_2_alg».proof.Proof.Gen.KernelIdeal.Frame
import Idealize.ShloMosaic.Lib.Pipeline.Value
import Idealize.ShloMosaic.Lib.Tactic

set_option maxRecDepth 16384

noncomputable section

namespace Cert.Bridge

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl

theorem out_A_6 (c : Dev nD) (i : grid0.Coords) (a1 : Memref sig .tc .vmem S10000x32 .f32) (h1 : a1.IsWhole)
    (a2 : Memref sig .tc .vmem S10000x1 .f32) (h2 : a2.IsWhole) (a3 : Memref sig .tc .vmem S10000x32 .f32) (h3 : a3.IsWhole)
    (a4 : Memref sig .tc .vmem S32x16 .f32) (h4 : a4.IsWhole) (a5 : Memref sig .tc .vmem S32x16 .f32) (h5 : a5.IsWhole)
    (a6 : Memref sig .tc .vmem S1x16 .f32) (h6 : a6.IsWhole) (a7 : Memref sig .tc .vmem S10000x16 .f32) (h7 : a7.IsWhole)
    (a8 : Memref sig .tc .vmem S1x16 .f32) (h8 : a8.IsWhole) (a9 : Memref sig .tc .vmem S1x16 .f32) (h9 : a9.IsWhole)
    (hc : cond0_0 i)
    (x0 : Vec F S10000x32 .f32) (x1 : Vec F S10000x1 .f32) (x2 : Vec F S10000x32 .f32) (x3 : Vec F S32x16 .f32)
    (x4 : Vec F S32x16 .f32) (x5 : Vec F S1x16 .f32) :
    out0_A_6 c i a1 h1 a2 h2 a3 h3 a4 h4 a5 h5 a6 h6 a7 h7 a8 h8 a9 h9 hc x0 x1 x2 x3 x4 x5
      = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h6.read_unread,
    View.ld_unit_zero (S := S10000x32) hz2, View.ld_unit_zero (S := S10000x1) hz2, View.ld_unit_zero (S := S32x16) hz2,
    View.ld_unit_zero (S := S1x16) hz2]

theorem out_B_6 (c : Dev nD) (i : grid0.Coords) (a1 : Memref sig .tc .vmem S10000x32 .f32) (h1 : a1.IsWhole)
    (a2 : Memref sig .tc .vmem S10000x1 .f32) (h2 : a2.IsWhole) (a3 : Memref sig .tc .vmem S10000x32 .f32) (h3 : a3.IsWhole)
    (a4 : Memref sig .tc .vmem S32x16 .f32) (h4 : a4.IsWhole) (a5 : Memref sig .tc .vmem S32x16 .f32) (h5 : a5.IsWhole)
    (a6 : Memref sig .tc .vmem S1x16 .f32) (h6 : a6.IsWhole) (a7 : Memref sig .tc .vmem S10000x16 .f32) (h7 : a7.IsWhole)
    (a8 : Memref sig .tc .vmem S1x16 .f32) (h8 : a8.IsWhole) (a9 : Memref sig .tc .vmem S1x16 .f32) (h9 : a9.IsWhole)
    (hc : ¬cond0_0 i)
    (x0 : Vec F S10000x32 .f32) (x1 : Vec F S10000x1 .f32) (x2 : Vec F S10000x32 .f32) (x3 : Vec F S32x16 .f32)
    (x4 : Vec F S32x16 .f32) (x5 : Vec F S1x16 .f32) (xo7 xo8 : Vec F S1x16 .f32) :
    out0_B_6 c i a1 h1 a2 h2 a3 h3 a4 h4 a5 h5 a6 h6 a7 h7 a8 h8 a9 h9 hc x0 x1 x2 x3 x4 x5 xo7 xo8
      = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz2]
  simp only [View.readAt_eq_ld, h1.read_unread, h2.read_unread, h3.read_unread, h4.read_unread, h5.read_unread, h6.read_unread,
    View.ld_unit_zero (S := S10000x32) hz2, View.ld_unit_zero (S := S10000x1) hz2, View.ld_unit_zero (S := S32x16) hz2,
    View.ld_unit_zero (S := S1x16) hz2]

variable (V : (c : Dev nD) → (b : Ref sig .tc) → Buf (Elt F) ((c : Thread nD τ).loc b))

theorem outsAt0_fst (c : Dev nD) (t : Fin cfg0.N) :
    (outsAt0 V c t.val t.isLt).1
      = k0_pay4 (iblk0 V c 0 t) (iblk0 V c 1 t) (iblk0 V c 2 t) (iblk0 V c 3 t) (iblk0 V c 4 t) (iblk0 V c 5 t) := by
  by_cases h0 : t.val % 10 = 0
  · rw [outsAt0_A V c t h0]
    dsimp only
    exact out_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact out_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (fun h => h0 ((hcond0_0 t).mp h)) (iblk0 V c 0 t) (iblk0 V c 1 t) (iblk0 V c 2 t) (iblk0 V c 3 t) (iblk0 V c 4 t)
      (iblk0 V c 5 t) (outsAt0 V c (t.val - 1) (Nat.lt_of_le_of_lt (Nat.sub_le _ _) t.isLt)).2.1
      (outsAt0 V c (t.val - 1) (Nat.lt_of_le_of_lt (Nat.sub_le _ _) t.isLt)).2.2

end Cert.Bridge

end
-- ==== Proof.StageAValCover.lean ====
import proofs.«428246_j33844342293317_2_alg».proof.Proof.StageAValOut
import proofs.«428246_j33844342293317_2_alg».proof.Proof.StageAValBlk

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable {F : FTy → Type} [FloatOps F]
variable (V : (c : Dev nD) → (b : Ref sig .tc) → Buf (Elt F) ((c : Thread nD τ).loc b))

theorem mem_blk6 (t : Fin cfg0.N) (i : S100000x16.Idx) :
    i ∈ ((cfg0.win 6).blk t).view.set ↔ ∀ a : Fin 2, win0_6.index t a * S10000x16.size a ≤ (i a).val
      ∧ (i a).val < win0_6.index t a * S10000x16.size a + S10000x16.size a := by
  show i ∈ ((View.whole main_v24_0).slice (win0_6.rect t)).set ↔ _
  rw [View.set_slice_whole, Rect.mem_set_unit]
  exact Iff.rfl

theorem cover6 (i : S100000x16.Idx) : ∃ t : Fin cfg0.N, (cfg0.win 6).flush t = true ∧ i ∈ ((cfg0.win 6).blk t).view.set := by
  have hN : cfg0.N = 10 := N_0
  have hi0 : (i 0).val < 100000 := (i 0).isLt
  have hi1 : (i 1).val < 16 := (i 1).isLt
  refine ⟨⟨(i 0).val / 10000, by omega⟩, flush0_6 _, ?_⟩
  rw [mem_blk6]
  obtain ⟨-, -, -, -, -, -, -, -, -, -, -, -, e0, e1⟩ := idx_facts0 (⟨(i 0).val / 10000, by omega⟩ : Fin cfg0.N)
  intro a
  match a with
  | ⟨0, _⟩ =>
    show win0_6.index _ (0 : Fin 2) * 10000 ≤ (i 0).val ∧ (i 0).val < win0_6.index _ (0 : Fin 2) * 10000 + 10000
    rw [e0]; dsimp only; omega
  | ⟨1, _⟩ =>
    show win0_6.index _ (1 : Fin 2) * 16 ≤ (i 1).val ∧ (i 1).val < win0_6.index _ (1 : Fin 2) * 16 + 16
    rw [e1]; omega

theorem arrAt6_eq (c : Dev nD) (G : Vec F S100000x16 .f32)
    (hG : ∀ (t : Fin cfg0.N) (r : Fin 10000) (f : Fin 16) (n : Fin 100000), n.val = t.val * 10000 + r.val →
      k0_pay4 (iblk0 V c 0 t) (iblk0 V c 1 t) (iblk0 V c 2 t) (iblk0 V c 3 t) (iblk0 V c 4 t) (iblk0 V c 5 t) (ix2 r f)
        = G (ix2 n f)) :
    (dat0 V c).arrAt 6 cfg0.N = G := by
  refine (dat0 V c).arrAt_eq_of_cover 6 G (fun t _ => ?_) cover6
  show (cfg0.win 6).cut (grid0.coords t) ((dat0 V c).after 6 t) = _
  rw [after0_6, outsAt0_fst]
  have hN : cfg0.N = 10 := N_0
  obtain ⟨-, -, -, -, -, -, -, -, -, -, -, -, e0, e1⟩ := idx_facts0 t
  funext j
  obtain ⟨r, f, rfl⟩ : ∃ (r : Fin 10000) (f : Fin 16), j = ix2 r f := ⟨j 0, j 1, eq_ix2 j⟩
  have hlt : t.val * 10000 + r.val < 100000 := by have := t.isLt; have := r.isLt; omega
  rw [View.read_apply]
  have hemb : ((cfg0.win 6).blk t).view.emb (ix2 r f) = ix2 (⟨t.val * 10000 + r.val, hlt⟩ : Fin 100000) f := by
    funext a; apply Fin.ext
    match a with
    | ⟨0, _⟩ => show win0_6.index t (0 : Fin 2) * 10000 + 1 * r.val = t.val * 10000 + r.val; rw [e0]; omega
    | ⟨1, _⟩ => show win0_6.index t (1 : Fin 2) * 16 + 1 * f.val = f.val; rw [e1]; omega
  rw [hemb]
  exact hG t r f ⟨t.val * 10000 + r.val, hlt⟩ rfl

end Cert.Bridge

end
-- ==== Proof.StageAVal.lean ====
import proofs.«428246_j33844342293317_2_alg».proof.Proof.Iface
import proofs.«428246_j33844342293317_2_alg».proof.Proof.StageABlock
import proofs.«428246_j33844342293317_2_alg».proof.Proof.StageAValCover

noncomputable section

namespace Cert.Bridge

open Idealize.ShloMosaic Idealize.ShloMosaic.TcCoe Idealize.SL.Sem Idealize.ShloMosaic.ValueIdx
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

-- block by block the rows are relu(agg·W1lᵀ + x·W1rᵀ + b1), the reference's rows, and the ten blocks tile the array
theorem stageA_val (ha : Agree m m' c) : kH0 m ρ c = rH0 m' c :=
  (Cert.KernelIdeal.Gen.W2_arr m ρ c 6).trans
    (arrAt6_eq (Cert.KernelIdeal.Gen.V1 m ρ) c (rH0 m' c) fun t r f n hn => blockA m ρ m' c ha t r f n hn)

end Cert.Bridge

end
-- ==== Proof.StageAAccPiece.lean ====
import proofs.«428246_j33844342293317_2_alg».proof.Proof.Gen.KernelIdeal.Frame
import Idealize.ShloMosaic.Lib.Pipeline.Value
import Idealize.ShloMosaic.Lib.Tactic

noncomputable section

namespace Cert.Bridge.AccPiece

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

theorem sum_later (c : Dev nD) (i : grid0.Coords) (a1 : Memref sig .tc .vmem S10000x32 .f32) (h1 : a1.IsWhole) (a2 : Memref sig .tc .vmem S10000x1 .f32) (h2 : a2.IsWhole) (a3 : Memref sig .tc .vmem S10000x32 .f32) (h3 : a3.IsWhole) (a4 : Memref sig .tc .vmem S32x16 .f32) (h4 : a4.IsWhole) (a5 : Memref sig .tc .vmem S32x16 .f32) (h5 : a5.IsWhole) (a6 : Memref sig .tc .vmem S1x16 .f32) (h6 : a6.IsWhole) (a7 : Memref sig .tc .vmem S10000x16 .f32) (h7 : a7.IsWhole) (a8 : Memref sig .tc .vmem S1x16 .f32) (h8 : a8.IsWhole) (a9 : Memref sig .tc .vmem S1x16 .f32) (h9 : a9.IsWhole) (hc : ¬cond0_0 i)
    (x0 : Vec F S10000x32 .f32) (x1 : Vec F S10000x1 .f32) (x2 : Vec F S10000x32 .f32) (x3 : Vec F S32x16 .f32) (x4 : Vec F S32x16 .f32) (x5 : Vec F S1x16 .f32) (xo7 xo8 : Vec F S1x16 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S10000x32) hz, View.ld_unit_zero (S := S10000x1) hz, View.ld_unit_zero (S := S32x16) hz, View.ld_unit_zero (S := S1x16) hz, View.ld_unit_zero (S := S10000x16) hz]

theorem sq_later (c : Dev nD) (i : grid0.Coords) (a1 : Memref sig .tc .vmem S10000x32 .f32) (h1 : a1.IsWhole) (a2 : Memref sig .tc .vmem S10000x1 .f32) (h2 : a2.IsWhole) (a3 : Memref sig .tc .vmem S10000x32 .f32) (h3 : a3.IsWhole) (a4 : Memref sig .tc .vmem S32x16 .f32) (h4 : a4.IsWhole) (a5 : Memref sig .tc .vmem S32x16 .f32) (h5 : a5.IsWhole) (a6 : Memref sig .tc .vmem S1x16 .f32) (h6 : a6.IsWhole) (a7 : Memref sig .tc .vmem S10000x16 .f32) (h7 : a7.IsWhole) (a8 : Memref sig .tc .vmem S1x16 .f32) (h8 : a8.IsWhole) (a9 : Memref sig .tc .vmem S1x16 .f32) (h9 : a9.IsWhole) (hc : ¬cond0_0 i)
    (x0 : Vec F S10000x32 .f32) (x1 : Vec F S10000x1 .f32) (x2 : Vec F S10000x32 .f32) (x3 : Vec F S32x16 .f32) (x4 : Vec F S32x16 .f32) (x5 : Vec F S1x16 .f32) (xo7 xo8 : Vec F S1x16 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S10000x32) hz, View.ld_unit_zero (S := S10000x1) hz, View.ld_unit_zero (S := S32x16) hz, View.ld_unit_zero (S := S1x16) hz, View.ld_unit_zero (S := S10000x16) hz]

theorem sum_first (c : Dev nD) (i : grid0.Coords) (a1 : Memref sig .tc .vmem S10000x32 .f32) (h1 : a1.IsWhole) (a2 : Memref sig .tc .vmem S10000x1 .f32) (h2 : a2.IsWhole) (a3 : Memref sig .tc .vmem S10000x32 .f32) (h3 : a3.IsWhole) (a4 : Memref sig .tc .vmem S32x16 .f32) (h4 : a4.IsWhole) (a5 : Memref sig .tc .vmem S32x16 .f32) (h5 : a5.IsWhole) (a6 : Memref sig .tc .vmem S1x16 .f32) (h6 : a6.IsWhole) (a7 : Memref sig .tc .vmem S10000x16 .f32) (h7 : a7.IsWhole) (a8 : Memref sig .tc .vmem S1x16 .f32) (h8 : a8.IsWhole) (a9 : Memref sig .tc .vmem S1x16 .f32) (h9 : a9.IsWhole) (hc : cond0_0 i)
    (x0 : Vec F S10000x32 .f32) (x1 : Vec F S10000x1 .f32) (x2 : Vec F S10000x32 .f32) (x3 : Vec F S32x16 .f32) (x4 : Vec F S32x16 .f32) (x5 : Vec F S1x16 .f32) :
    out0_A_7 c i a1 h1 a2 h2 a3 h3 a4 h4 a5 h5 a6 h6 a7 h7 a8 h8 a9 h9 hc x0 x1 x2 x3 x4 x5 = k0_pay5 x0 x1 x2 x3 x4 x5 (k0_pay2 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x16) hz]
  simp only [View.readCov_unit_zero (S := S1x16) _ hz, View.readAt_eq_ld, h1.read_unread, h2.read_unread, h3.read_unread, h4.read_unread, h5.read_unread, h6.read_unread,
    View.ld_unit_zero (S := S10000x32) hz, View.ld_unit_zero (S := S10000x1) hz, View.ld_unit_zero (S := S32x16) hz, View.ld_unit_zero (S := S1x16) hz, View.ld_unit_zero (S := S10000x16) hz]

theorem sq_first (c : Dev nD) (i : grid0.Coords) (a1 : Memref sig .tc .vmem S10000x32 .f32) (h1 : a1.IsWhole) (a2 : Memref sig .tc .vmem S10000x1 .f32) (h2 : a2.IsWhole) (a3 : Memref sig .tc .vmem S10000x32 .f32) (h3 : a3.IsWhole) (a4 : Memref sig .tc .vmem S32x16 .f32) (h4 : a4.IsWhole) (a5 : Memref sig .tc .vmem S32x16 .f32) (h5 : a5.IsWhole) (a6 : Memref sig .tc .vmem S1x16 .f32) (h6 : a6.IsWhole) (a7 : Memref sig .tc .vmem S10000x16 .f32) (h7 : a7.IsWhole) (a8 : Memref sig .tc .vmem S1x16 .f32) (h8 : a8.IsWhole) (a9 : Memref sig .tc .vmem S1x16 .f32) (h9 : a9.IsWhole) (hc : cond0_0 i)
    (x0 : Vec F S10000x32 .f32) (x1 : Vec F S10000x1 .f32) (x2 : Vec F S10000x32 .f32) (x3 : Vec F S32x16 .f32) (x4 : Vec F S32x16 .f32) (x5 : Vec F S1x16 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) (k0_pay3 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x16) hz]
  simp only [View.readCov_unit_zero (S := S1x16) _ hz, View.readAt_eq_ld, h1.read_unread, h2.read_unread, h3.read_unread, h4.read_unread, h5.read_unread, h6.read_unread,
    View.ld_unit_zero (S := S10000x32) hz, View.ld_unit_zero (S := S10000x1) hz, View.ld_unit_zero (S := S32x16) hz, View.ld_unit_zero (S := S1x16) hz, View.ld_unit_zero (S := S10000x16) hz]

end Cert.Bridge.AccPiece

end
-- ==== Proof.StageAAccRead.lean ====
import proofs.«428246_j33844342293317_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.AccRead

open Idealize.ShloMosaic Idealize.ShloMosaic.ValueIdx
open Cert.KernelIdeal Cert.KernelIdeal.Gen
open scoped BigOperators

theorem colsum_apply (v : FVec Ideal S10000x16 .f32) (h : S10000x16.Reduces [0] S16) (hφ : FKind.Formats .f32)
    (hacc : (0x00000000#32 : BitVec 32) = FKind.add.neutral .f32 hφ) (hc : S16.ShapeCasts S1x16) (f : Fin 16) :
    shapeCast S1x16 (multiReduction (F := Ideal) .add [0] S16 v 0x00000000#32 h hφ hacc) hc (ix2 (0 : Fin 1) f)
      = ∑ r : Fin 10000, v (ix2 r f) := by
  refine (shapeCast_a_1a_apply _ hc 0 f).trans ?_
  refine (Ideal.multiReduction_add_single v 0x00000000#32 h hφ hacc (ix1 f)).trans ?_
  refine Finset.sum_congr rfl fun r _ => congrArg v ?_
  funext a
  match a with
  | ⟨0, _⟩ => rfl
  | ⟨1, _⟩ => rfl

theorem sum_pay_apply (x0 : Vec Ideal S10000x32 .f32) (x1 : Vec Ideal S10000x1 .f32) (x2 : Vec Ideal S10000x32 .f32) (x3 : Vec Ideal S32x16 .f32) (x4 : Vec Ideal S32x16 .f32) (x5 : Vec Ideal S1x16 .f32) (v28 : Vec Ideal S1x16 .f32) (f : Fin 16) :
    k0_pay5 (F := Ideal) x0 x1 x2 x3 x4 x5 v28 (ix2 (0 : Fin 1) f)
      = v28 (ix2 (0 : Fin 1) f) + ∑ r : Fin 10000, k0_pay4 (F := Ideal) x0 x1 x2 x3 x4 x5 (ix2 r f) := by
  unfold k0_pay5
  exact congrArg₂ (· + ·) (congrFun (shapeCast_self v28 _) _) (colsum_apply _ _ _ _ _ f)

theorem sq_pay_apply (v26 : FVec Ideal S10000x16 .f32) (v34 : Vec Ideal S1x16 .f32) (f : Fin 16) :
    k0_pay1 (F := Ideal) v26 v34 (ix2 (0 : Fin 1) f)
      = v34 (ix2 (0 : Fin 1) f) + ∑ r : Fin 10000, v26 (ix2 r f) * v26 (ix2 r f) := by
  unfold k0_pay1
  exact congrArg₂ (· + ·) (congrFun (shapeCast_self v34 _) _) (colsum_apply _ _ _ _ _ f)

theorem zero_sum_apply (j : S1x16.Idx) : k0_pay2 (F := Ideal) j = 0 := Ideal.ofBits_zero_f32

theorem zero_sq_apply (j : S1x16.Idx) : k0_pay3 (F := Ideal) j = 0 := Ideal.ofBits_zero_f32

end Cert.Bridge.AccRead

end
-- ==== Proof.StageAAccAlg.lean ====
import Mathlib.Algebra.BigOperators.Group.Finset.Basic
import Mathlib.Data.Fintype.BigOperators

namespace Cert.Bridge.AccAlg

open scoped BigOperators

variable {M : Type*} [AddCommMonoid M]

def ext (G : Fin 100000 → M) (k : ℕ) : M := if h : k < 100000 then G ⟨k, h⟩ else 0

theorem ext_of_lt (G : Fin 100000 → M) (k : ℕ) (h : k < 100000) : ext G k = G ⟨k, h⟩ := dif_pos h

theorem ext_total (G : Fin 100000 → M) : ∑ k ∈ Finset.range 100000, ext G k = ∑ n : Fin 100000, G n := by
  rw [← Fin.sum_univ_eq_sum_range (ext G) 100000]
  exact Finset.sum_congr rfl fun n _ => ext_of_lt G n.val n.isLt

theorem ext_block (G : Fin 100000 → M) (t : ℕ) (ht : t < 10) (B : Fin 10000 → M)
    (hB : ∀ (r : Fin 10000) (n : Fin 100000), n.val = t * 10000 + r.val → B r = G n) :
    ∑ r : Fin 10000, B r = ∑ r ∈ Finset.range 10000, ext G (t * 10000 + r) := by
  rw [← Fin.sum_univ_eq_sum_range (fun r => ext G (t * 10000 + r)) 10000]
  refine Finset.sum_congr rfl fun r _ => ?_
  have hlt : t * 10000 + r.val < 100000 := by have := r.isLt; omega
  exact (hB r ⟨t * 10000 + r.val, hlt⟩ rfl).trans (ext_of_lt G _ hlt).symm

theorem ext_step (G : Fin 100000 → M) (t : ℕ) :
    ∑ k ∈ Finset.range ((t + 1) * 10000), ext G k
      = ∑ k ∈ Finset.range (t * 10000), ext G k + ∑ r ∈ Finset.range 10000, ext G (t * 10000 + r) := by
  rw [Nat.add_one_mul, Finset.sum_range_add]

theorem ext_none (G : Fin 100000 → M) : ∑ k ∈ Finset.range (0 * 10000), ext G k = 0 := by
  rw [Nat.zero_mul, Finset.sum_range_zero]

end Cert.Bridge.AccAlg
-- ==== Proof.StageAAccSum.lean ====
import proofs.«428246_j33844342293317_2_alg».proof.Proof.StageAAccPiece
import proofs.«428246_j33844342293317_2_alg».proof.Proof.StageAAccRead
import proofs.«428246_j33844342293317_2_alg».proof.Proof.StageAAccAlg

noncomputable section

namespace Cert.Bridge.AccSum

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b)) (c : Dev nD)

abbrev act (t : Fin cfg0.N) : FVec Ideal S10000x16 .f32 :=
  k0_pay4 (F := Ideal) (iblk0 V c 0 t) (iblk0 V c 1 t) (iblk0 V c 2 t) (iblk0 V c 3 t) (iblk0 V c 4 t) (iblk0 V c 5 t)

abbrev accSum (n : ℕ) (h : n < cfg0.N) : Vec Ideal S1x16 .f32 := (outsAt0 V c n h).2.1

abbrev accSq (n : ℕ) (h : n < cfg0.N) : Vec Ideal S1x16 .f32 := (outsAt0 V c n h).2.2

theorem sum_first_at (t : Fin cfg0.N) (h0 : t.val % 10 = 0) (f : Fin 16) :
    accSum V c t.val t.isLt (ix2 (0 : Fin 1) f) = ∑ r : Fin 10000, act V c t (ix2 r f) := by
  show (outsAt0 V c t.val t.isLt).2.1 (ix2 (0 : Fin 1) f) = _
  rw [outsAt0_A V c t h0]
  dsimp only
  refine (congrFun (AccPiece.sum_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hcond0_0 t).mpr h0) (iblk0 V c 0 t) (iblk0 V c 1 t) (iblk0 V c 2 t) (iblk0 V c 3 t) (iblk0 V c 4 t) (iblk0 V c 5 t)) (ix2 (0 : Fin 1) f)).trans ?_
  refine (AccRead.sum_pay_apply (iblk0 V c 0 t) (iblk0 V c 1 t) (iblk0 V c 2 t) (iblk0 V c 3 t) (iblk0 V c 4 t) (iblk0 V c 5 t) (k0_pay2 (F := Ideal)) f).trans ?_
  rw [AccRead.zero_sum_apply, zero_add]

theorem sum_later_at (t : Fin cfg0.N) (h0 : ¬t.val % 10 = 0) (f : Fin 16) :
    accSum V c t.val t.isLt (ix2 (0 : Fin 1) f)
      = accSum V c (t.val - 1) (Nat.lt_of_le_of_lt (Nat.sub_le _ _) t.isLt) (ix2 (0 : Fin 1) f) + ∑ r : Fin 10000, act V c t (ix2 r f) := by
  show (outsAt0 V c t.val t.isLt).2.1 (ix2 (0 : Fin 1) f) = _
  rw [outsAt0_B V c t h0]
  dsimp only
  refine (congrFun (AccPiece.sum_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun h => h0 ((hcond0_0 t).mp h)) (iblk0 V c 0 t) (iblk0 V c 1 t) (iblk0 V c 2 t) (iblk0 V c 3 t) (iblk0 V c 4 t) (iblk0 V c 5 t)
    (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) f)).trans ?_
  exact AccRead.sum_pay_apply (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 f

theorem sq_first_at (t : Fin cfg0.N) (h0 : t.val % 10 = 0) (f : Fin 16) :
    accSq V c t.val t.isLt (ix2 (0 : Fin 1) f) = ∑ r : Fin 10000, act V c t (ix2 r f) * act V c t (ix2 r f) := by
  show (outsAt0 V c t.val t.isLt).2.2 (ix2 (0 : Fin 1) f) = _
  rw [outsAt0_A V c t h0]
  dsimp only
  refine (congrFun (AccPiece.sq_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hcond0_0 t).mpr h0) (iblk0 V c 0 t) (iblk0 V c 1 t) (iblk0 V c 2 t) (iblk0 V c 3 t) (iblk0 V c 4 t) (iblk0 V c 5 t)) (ix2 (0 : Fin 1) f)).trans ?_
  refine (AccRead.sq_pay_apply (act V c t) (k0_pay3 (F := Ideal)) f).trans ?_
  rw [AccRead.zero_sq_apply, zero_add]

theorem sq_later_at (t : Fin cfg0.N) (h0 : ¬t.val % 10 = 0) (f : Fin 16) :
    accSq V c t.val t.isLt (ix2 (0 : Fin 1) f)
      = accSq V c (t.val - 1) (Nat.lt_of_le_of_lt (Nat.sub_le _ _) t.isLt) (ix2 (0 : Fin 1) f)
        + ∑ r : Fin 10000, act V c t (ix2 r f) * act V c t (ix2 r f) := by
  show (outsAt0 V c t.val t.isLt).2.2 (ix2 (0 : Fin 1) f) = _
  rw [outsAt0_B V c t h0]
  dsimp only
  refine (congrFun (AccPiece.sq_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun h => h0 ((hcond0_0 t).mp h)) (iblk0 V c 0 t) (iblk0 V c 1 t) (iblk0 V c 2 t) (iblk0 V c 3 t) (iblk0 V c 4 t) (iblk0 V c 5 t)
    (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) f)).trans ?_
  exact AccRead.sq_pay_apply (act V c t) (outsAt0 V c (t.val - 1) (Nat.lt_of_le_of_lt (Nat.sub_le _ _) t.isLt)).2.2 f

theorem sum_walk (H : FVec Ideal S100000x16 .f32)
    (hblk : ∀ (t : Fin cfg0.N) (r : Fin 10000) (f : Fin 16) (n : Fin 100000), n.val = t.val * 10000 + r.val →
      act V c t (ix2 r f) = H (ix2 n f)) (f : Fin 16) : ∀ (n : ℕ) (h : n < cfg0.N),
    accSum V c n h (ix2 (0 : Fin 1) f)
      = ∑ k ∈ Finset.range ((n + 1) * 10000), AccAlg.ext (fun i : Fin 100000 => H (ix2 i f)) k
  | 0, h => by
    refine (sum_first_at V c ⟨0, h⟩ rfl f).trans ?_
    rw [AccAlg.ext_step, AccAlg.ext_none, zero_add]
    exact AccAlg.ext_block (fun i : Fin 100000 => H (ix2 i f)) 0 (by decide)
      (fun r : Fin 10000 => act V c ⟨0, h⟩ (ix2 r f)) fun r n hn => hblk ⟨0, h⟩ r f n hn
  | n + 1, h => by
    have hN : cfg0.N = 10 := N_0
    have hB : ¬(⟨n + 1, h⟩ : Fin cfg0.N).val % 10 = 0 := by dsimp only; omega
    refine (sum_later_at V c ⟨n + 1, h⟩ hB f).trans ?_
    rw [AccAlg.ext_step _ (n + 1)]
    refine congrArg₂ (· + ·) (sum_walk H hblk f n (Nat.lt_of_succ_lt h)) ?_
    exact AccAlg.ext_block (fun i : Fin 100000 => H (ix2 i f)) (n + 1) (by omega)
      (fun r : Fin 10000 => act V c ⟨n + 1, h⟩ (ix2 r f)) fun r k hk => hblk ⟨n + 1, h⟩ r f k hk

theorem sq_walk (H : FVec Ideal S100000x16 .f32)
    (hblk : ∀ (t : Fin cfg0.N) (r : Fin 10000) (f : Fin 16) (n : Fin 100000), n.val = t.val * 10000 + r.val →
      act V c t (ix2 r f) = H (ix2 n f)) (f : Fin 16) : ∀ (n : ℕ) (h : n < cfg0.N),
    accSq V c n h (ix2 (0 : Fin 1) f)
      = ∑ k ∈ Finset.range ((n + 1) * 10000), AccAlg.ext (fun i : Fin 100000 => H (ix2 i f) * H (ix2 i f)) k
  | 0, h => by
    refine (sq_first_at V c ⟨0, h⟩ rfl f).trans ?_
    rw [AccAlg.ext_step, AccAlg.ext_none, zero_add]
    exact AccAlg.ext_block (fun i : Fin 100000 => H (ix2 i f) * H (ix2 i f)) 0 (by decide)
      (fun r : Fin 10000 => act V c ⟨0, h⟩ (ix2 r f) * act V c ⟨0, h⟩ (ix2 r f))
      fun r n hn => congrArg₂ (· * ·) (hblk ⟨0, h⟩ r f n hn) (hblk ⟨0, h⟩ r f n hn)
  | n + 1, h => by
    have hN : cfg0.N = 10 := N_0
    have hB : ¬(⟨n + 1, h⟩ : Fin cfg0.N).val % 10 = 0 := by dsimp only; omega
    refine (sq_later_at V c ⟨n + 1, h⟩ hB f).trans ?_
    rw [AccAlg.ext_step _ (n + 1)]
    refine congrArg₂ (· + ·) (sq_walk H hblk f n (Nat.lt_of_succ_lt h)) ?_
    exact AccAlg.ext_block (fun i : Fin 100000 => H (ix2 i f) * H (ix2 i f)) (n + 1) (by omega)
      (fun r : Fin 10000 => act V c ⟨n + 1, h⟩ (ix2 r f) * act V c ⟨n + 1, h⟩ (ix2 r f))
      fun r k hk => congrArg₂ (· * ·) (hblk ⟨n + 1, h⟩ r f k hk) (hblk ⟨n + 1, h⟩ r f k hk)

theorem last_lt : 9 < cfg0.N := by rw [show cfg0.N = 10 from N_0]; decide

abbrev resSum : Buf (Elt Ideal) ((c : Thread nD τ).loc main_v24_1) := accSum V c 9 last_lt

abbrev resSq : Buf (Elt Ideal) ((c : Thread nD τ).loc main_v24_2) := accSq V c 9 last_lt

theorem flushed_sum (t : Fin cfg0.N) (hf : (cfg0.win 7).flush t = true) :
    (dat0 V c).flushed 7 t = ((cfg0.win 7).blk t).view.read (Elt Ideal) (resSum V c) := by
  have hN : cfg0.N = 10 := N_0
  have h9 : t.val = 9 := by have := (flush0_7 t).mp hf; have := t.isLt; omega
  obtain rfl : t = t0_9 := Fin.ext h9
  show (cfg0.win 7).cut (grid0.coords t0_9) ((dat0 V c).after 7 t0_9) = _
  rw [after0_7]
  have hz' : (fun a => win0_7.index t0_9 a * main_v24_1.ty.shape.size a) = fun _ => 0 :=
    funext fun a => by fin_cases a <;> decide
  exact (Memref.read_access_unit_zero (Elt Ideal) main_v24_1 hz' (fun a => by rw [congrFun hz' a]; simp) (resSum V c)).symm

theorem flushed_sq (t : Fin cfg0.N) (hf : (cfg0.win 8).flush t = true) :
    (dat0 V c).flushed 8 t = ((cfg0.win 8).blk t).view.read (Elt Ideal) (resSq V c) := by
  have hN : cfg0.N = 10 := N_0
  have h9 : t.val = 9 := by have := (flush0_8 t).mp hf; have := t.isLt; omega
  obtain rfl : t = t0_9 := Fin.ext h9
  show (cfg0.win 8).cut (grid0.coords t0_9) ((dat0 V c).after 8 t0_9) = _
  rw [after0_8]
  have hz' : (fun a => win0_8.index t0_9 a * main_v24_2.ty.shape.size a) = fun _ => 0 :=
    funext fun a => by fin_cases a <;> decide
  exact (Memref.read_access_unit_zero (Elt Ideal) main_v24_2 hz' (fun a => by rw [congrFun hz' a]; simp) (resSq V c)).symm

theorem final_sum : (dat0 V c).arrAt 7 cfg0.N = resSum V c :=
  (dat0 V c).arrAt_eq_of_cover 7 (resSum V c) (flushed_sum V c) fun i =>
    ⟨t0_9, (flush0_7 t0_9).mpr rfl, by
      show i ∈ ((View.whole main_v24_1).slice (win0_7.rect t0_9)).set
      rw [View.set_slice_whole, Rect.mem_set_unit]
      intro a
      have h0 : (i 0 : Nat) < 1 := (i 0).isLt
      have h1 : (i 1 : Nat) < 16 := (i 1).isLt
      match a with
      | ⟨0, _⟩ =>
        show win0_7.index t0_9 0 * win0_7.size 0 ≤ (i 0 : Nat)
          ∧ (i 0 : Nat) < win0_7.index t0_9 0 * win0_7.size 0 + win0_7.xsize (grid0.coords t0_9) 0
        rw [show win0_7.index t0_9 0 * win0_7.size 0 = 0 from by decide +kernel,
          show win0_7.xsize (grid0.coords t0_9) 0 = 1 from by decide +kernel]
        omega
      | ⟨1, _⟩ =>
        show win0_7.index t0_9 1 * win0_7.size 1 ≤ (i 1 : Nat)
          ∧ (i 1 : Nat) < win0_7.index t0_9 1 * win0_7.size 1 + win0_7.xsize (grid0.coords t0_9) 1
        rw [show win0_7.index t0_9 1 * win0_7.size 1 = 0 from by decide +kernel,
          show win0_7.xsize (grid0.coords t0_9) 1 = 16 from by decide +kernel]
        omega⟩

theorem final_sq : (dat0 V c).arrAt 8 cfg0.N = resSq V c :=
  (dat0 V c).arrAt_eq_of_cover 8 (resSq V c) (flushed_sq V c) fun i =>
    ⟨t0_9, (flush0_8 t0_9).mpr rfl, by
      show i ∈ ((View.whole main_v24_2).slice (win0_8.rect t0_9)).set
      rw [View.set_slice_whole, Rect.mem_set_unit]
      intro a
      have h0 : (i 0 : Nat) < 1 := (i 0).isLt
      have h1 : (i 1 : Nat) < 16 := (i 1).isLt
      match a with
      | ⟨0, _⟩ =>
        show win0_8.index t0_9 0 * win0_8.size 0 ≤ (i 0 : Nat)
          ∧ (i 0 : Nat) < win0_8.index t0_9 0 * win0_8.size 0 + win0_8.xsize (grid0.coords t0_9) 0
        rw [show win0_8.index t0_9 0 * win0_8.size 0 = 0 from by decide +kernel,
          show win0_8.xsize (grid0.coords t0_9) 0 = 1 from by decide +kernel]
        omega
      | ⟨1, _⟩ =>
        show win0_8.index t0_9 1 * win0_8.size 1 ≤ (i 1 : Nat)
          ∧ (i 1 : Nat) < win0_8.index t0_9 1 * win0_8.size 1 + win0_8.xsize (grid0.coords t0_9) 1
        rw [show win0_8.index t0_9 1 * win0_8.size 1 = 0 from by decide +kernel,
          show win0_8.xsize (grid0.coords t0_9) 1 = 16 from by decide +kernel]
        omega⟩

theorem region_sum (H : FVec Ideal S100000x16 .f32)
    (hblk : ∀ (t : Fin cfg0.N) (r : Fin 10000) (f : Fin 16) (n : Fin 100000), n.val = t.val * 10000 + r.val →
      act V c t (ix2 r f) = H (ix2 n f)) (f : Fin 16) :
    ((dat0 V c).arrAt 7 cfg0.N : Vec Ideal S1x16 .f32) (ix2 (0 : Fin 1) f) = ∑ n : Fin 100000, H (ix2 n f) := by
  refine (congrFun (final_sum V c) (ix2 (0 : Fin 1) f)).trans ?_
  refine (sum_walk V c H hblk f 9 last_lt).trans ?_
  exact AccAlg.ext_total fun i : Fin 100000 => H (ix2 i f)

theorem region_sq (H : FVec Ideal S100000x16 .f32)
    (hblk : ∀ (t : Fin cfg0.N) (r : Fin 10000) (f : Fin 16) (n : Fin 100000), n.val = t.val * 10000 + r.val →
      act V c t (ix2 r f) = H (ix2 n f)) (f : Fin 16) :
    ((dat0 V c).arrAt 8 cfg0.N : Vec Ideal S1x16 .f32) (ix2 (0 : Fin 1) f)
      = ∑ n : Fin 100000, H (ix2 n f) * H (ix2 n f) := by
  refine (congrFun (final_sq V c) (ix2 (0 : Fin 1) f)).trans ?_
  refine (sq_walk V c H hblk f 9 last_lt).trans ?_
  exact AccAlg.ext_total fun i : Fin 100000 => H (ix2 i f) * H (ix2 i f)

section Run

variable (m : (ℓ : Loc nD τ sig) → Buf (Elt Ideal) ℓ) (ρ : Dev nD → PrngReg)

theorem run_sum (c : Dev nD) (H : FVec Ideal S100000x16 .f32)
    (hblk : ∀ (t : Fin cfg0.N) (r : Fin 10000) (f : Fin 16) (n : Fin 100000), n.val = t.val * 10000 + r.val →
      act (V1 m ρ) c t (ix2 r f) = H (ix2 n f)) (f : Fin 16) :
    (W2 m ρ c (Proc.devRef .tc main_v24_1) : FVec Ideal S1x16 .f32) (ix2 (0 : Fin 1) f)
      = ∑ n : Fin 100000, H (ix2 n f) := by
  refine (congrFun (W2_arr m ρ c 7) (ix2 (0 : Fin 1) f)).trans ?_
  exact region_sum (V1 m ρ) c H hblk f

theorem run_sq (c : Dev nD) (H : FVec Ideal S100000x16 .f32)
    (hblk : ∀ (t : Fin cfg0.N) (r : Fin 10000) (f : Fin 16) (n : Fin 100000), n.val = t.val * 10000 + r.val →
      act (V1 m ρ) c t (ix2 r f) = H (ix2 n f)) (f : Fin 16) :
    (W2 m ρ c (Proc.devRef .tc main_v24_2) : FVec Ideal S1x16 .f32) (ix2 (0 : Fin 1) f)
      = ∑ n : Fin 100000, H (ix2 n f) * H (ix2 n f) := by
  refine (congrFun (W2_arr m ρ c 8) (ix2 (0 : Fin 1) f)).trans ?_
  exact region_sq (V1 m ρ) c H hblk f

end Run

end Cert.Bridge.AccSum

end
-- ==== Proof.StageAAcc.lean ====
import proofs.«428246_j33844342293317_2_alg».proof.Proof.Iface
import proofs.«428246_j33844342293317_2_alg».proof.Proof.StageAAccSum
import proofs.«428246_j33844342293317_2_alg».proof.Proof.StageABlock

noncomputable section

namespace Cert.Bridge

open Idealize.ShloMosaic Idealize.ShloMosaic.TcCoe Idealize.SL.Sem Idealize.ShloMosaic.ValueIdx
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

-- the carried output adds up, block after block, the activations' column sums
theorem stageA_sum (ha : Agree m m' c) (f : Fin 16) :
    kSum m ρ c (ix2 (0 : Fin 1) f) = ∑ n : Fin 100000, rH0 m' c (ix2 n f) :=
  AccSum.run_sum m ρ c (rH0 m' c) (fun t r f n hn => blockA m ρ m' c ha t r f n hn) f

-- and likewise the column sums of their squares
theorem stageA_sq (ha : Agree m m' c) (f : Fin 16) :
    kSq m ρ c (ix2 (0 : Fin 1) f) = ∑ n : Fin 100000, rH0 m' c (ix2 n f) * rH0 m' c (ix2 n f) :=
  AccSum.run_sq m ρ c (rH0 m' c) (fun t r f n hn => blockA m ρ m' c ha t r f n hn) f

end Cert.Bridge

end
-- ==== Proof.LibReal.lean ====
import Idealize.ShloMosaic.PureOps.Ideal.Laws
import Idealize.ShloMosaic.Lib.IdealHost
import Idealize.ShloMosaic.Lib.ReduceAll

noncomputable section

namespace Cert.RealLib

open Idealize.ShloMosaic
open scoped BigOperators

abbrev IsReal (x : EReal) : Prop := ∃ r : ℝ, x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (Max.max x y) := by
  rcases max_choice x y with h | h <;> rw [h] <;> assumption
theorem IsReal.min {x y : EReal} (hx : IsReal x) (hy : IsReal y) : IsReal (Min.min x y) := by
  rcases min_choice x y with h | h <;> rw [h] <;> assumption

theorem IsReal.sum {ι : Type*} (s : Finset ι) {f : ι → EReal} (h : ∀ i ∈ s, IsReal (f i)) : IsReal (∑ i ∈ s, f i) :=
  Finset.sum_induction f IsReal (fun _ _ => IsReal.add) isReal_zero h

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_of_ne {x : EReal} (h1 : x ≠ ⊤) (h2 : x ≠ ⊥) : IsReal x := by
  induction x using EReal.rec with
  | bot => exact absurd rfl h2
  | coe r => exact ⟨r, rfl⟩
  | top => exact absurd rfl h1

abbrev IsNZReal (x : EReal) : Prop := ∃ r : ℝ, r ≠ 0 ∧ x = (r : EReal)

theorem IsNZReal.isReal {x : EReal} (hx : IsNZReal x) : IsReal x := by obtain ⟨r, -, h⟩ := hx; exact ⟨r, h⟩

theorem IsReal.div {x y : EReal} (hx : IsReal x) (hy : IsNZReal y) : IsReal (Ideal.div x y) := by
  obtain ⟨r, h0, rfl⟩ := hy
  rw [Ideal.div_coe h0]
  exact hx.mul (isReal_coe _)

theorem IsReal.max_one {x : EReal} (hx : IsReal x) : IsNZReal (Max.max x 1) := by
  obtain ⟨a, rfl⟩ := hx
  refine ⟨Max.max a 1, ?_, ?_⟩
  · have : (1 : ℝ) ≤ Max.max a 1 := le_max_right a 1
    intro h0; rw [h0] at this; exact absurd this (by norm_num)
  · rw [← EReal.coe_one]; exact (EReal.coe_strictMono.monotone.map_max (a := a) (b := 1))

abbrev AllReal {s : Shape} (v : s.Idx → EReal) : Prop := ∀ i, IsReal (v i)

abbrev AllNZReal {s : Shape} (v : s.Idx → EReal) : Prop := ∀ i, IsNZReal (v i)

theorem AllNZReal.allReal {s : Shape} {v : s.Idx → EReal} (h : AllNZReal v) : AllReal v := fun i => (h i).isReal

theorem allReal_constant_zero (s : Shape) : AllReal (constant (F := Ideal) s .f32 0x00000000#32) :=
  fun _ => ⟨0, by show Ideal.ofBits .f32 0x00000000#32 = _; rw [Ideal.ofBits_zero_f32]; exact EReal.coe_zero.symm⟩
theorem allReal_constant_one (s : Shape) : AllReal (constant (F := Ideal) s .f32 0x3F800000#32) :=
  fun _ => ⟨1, by show Ideal.ofBits .f32 0x3F800000#32 = _; rw [Ideal.ofBits_one_f32]; exact EReal.coe_one.symm⟩

section Ops
variable {s t : Shape} {φ : FTy}

theorem AllReal.broadcastInDim {x : s.Idx → EReal} (h : AllReal x) (dims : Fin s.rank → Fin t.rank)
    (hb : s.BroadcastsInDim t dims) : AllReal (broadcastInDim t dims hb x) := fun _ => h _
theorem AllNZReal.broadcastInDim {x : s.Idx → EReal} (h : AllNZReal x) (dims : Fin s.rank → Fin t.rank)
    (hb : s.BroadcastsInDim t dims) : AllNZReal (broadcastInDim t dims hb x) := fun _ => h _

theorem AllReal.transpose {x : s.Idx → EReal} (h : AllReal x) (perm : List (Fin s.rank)) (ht : s.Transposes perm t) :
    AllReal (transpose t perm x ht) := fun _ => h _

theorem AllReal.gather {si : Shape} {w : ℕ} {x : s.Idx → EReal} (h : AllReal x) (d : GatherDims s si t) (idx : IVec si w) :
    AllReal (Host.gather d x idx) := fun _ => h _

theorem AllReal.scatterAdd {si u : Shape} {w : ℕ} {x : FVec Ideal s φ} {upd : FVec Ideal u φ} (hx : AllReal x)
    (hu : AllReal upd) (d : ScatterDims s si u) (idx : IVec si w) : AllReal (Host.scatterAdd d x idx upd) :=
  fun i => (hx i).add (IsReal.sum _ fun j _ => hu j)

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllReal.minimumf {x y : FVec Ideal s φ} (hx : AllReal x) (hy : AllReal y) : AllReal (minimumf x y) :=
  fun i => (hx i).min (hy i)

theorem AllReal.hostDivf {x y : FVec Ideal s φ} (hx : AllReal x) (hy : AllNZReal y) : AllReal (Host.divf x y) :=
  fun i => (hx i).div (hy i)

theorem AllReal.maximumf_one {x : FVec Ideal s .f32} (hx : AllReal x) {y : FVec Ideal s .f32} (hy : ∀ i, y i = 1) :
    AllNZReal (Idealize.ShloMosaic.maximumf x y) := fun i => by
  show IsNZReal (Max.max (x i) (y i))
  rw [hy i]; exact (hx i).max_one

theorem AllReal.dotGeneral {sl sr so : Shape} {φ₁ φ₂ : FTy} {l : FVec Ideal sl φ₁} {r : FVec Ideal sr φ₂} (hl : AllReal l)
    (hr : AllReal r) (d : DotDims sl sr so) (prec : Option ContractPrecision) : AllReal (Host.dotGeneral d prec l r) :=
  fun j => isReal_zero.add (IsReal.sum _ fun k _ => (hl _).mul (hr _))

theorem AllReal.reduceAdd {axes : List (Fin s.rank)} {u : Shape} {x : FVec Ideal s φ} {init : u.Idx → Ideal φ}
    (hx : AllReal x) (hi : ∀ k, IsReal (init k)) (h : s.ReducesTo axes t) (hu : 0 < u.numel) :
    AllReal (Host.reduceAdd x init h hu) :=
  fun _ => (hi _).add (IsReal.sum _ fun i _ => hx i)

end Ops

instance : Subsingleton (Shape.Idx ⟨0, ![]⟩) := ⟨fun a b => funext fun d => d.elim0⟩

theorem inf_bits : Ideal.ofBits .f32 0x7F800000#32 = (⊤ : EReal) := by
  simp [Ideal.ofBits, Ideal.ieee]

theorem isReal_of_abs_lt_inf (x : EReal)
    (h : Ideal.cmp .olt (Max.max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

theorem allReal_of_all_abs_lt_inf {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
          (cmpf .olt (Host.absf v) (broadcastInDim s ![] hb (constant (F := Ideal) ⟨0, ![]⟩ .f32 0x7F800000#32)))
          (constantI ⟨0, ![]⟩ 1 1#1) hr hu j = 1#1) : AllReal v := fun i =>
  isReal_of_abs_lt_inf (v i) (Host.reduce_andi_all _ _ hr hu j h i)

end Cert.RealLib

end
-- ==== Proof.StageAFin.lean ====
import proofs.«428246_j33844342293317_2_alg».proof.Proof.Iface
import proofs.«428246_j33844342293317_2_alg».proof.Proof.LibReal
import proofs.«428246_j33844342293317_2_alg».proof.Defs

noncomputable section

namespace Cert.Bridge

open Idealize.ShloMosaic Idealize.ShloMosaic.TcCoe Idealize.SL.Sem Idealize.ShloMosaic.ValueIdx Cert.RealLib
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

section FirstLayer

variable (mr : (ℓ : Loc Cert.ReferenceIdeal.nD Cert.ReferenceIdeal.τ Cert.ReferenceIdeal.sig) → Buf (Elt Ideal) ℓ) (cr : Dev Cert.ReferenceIdeal.nD)

theorem pre_relu_fin
    (h0 : ∀ i, ∃ r : ℝ, StableHlo.launchContents mr cr (Proc.devRef .tc Cert.ReferenceIdeal.main_arg0) i = (r : EReal))
    (h3 : ∀ i, ∃ r : ℝ, StableHlo.launchContents mr cr (Proc.devRef .tc Cert.ReferenceIdeal.main_arg3) i = (r : EReal))
    (h4 : ∀ i, ∃ r : ℝ, StableHlo.launchContents mr cr (Proc.devRef .tc Cert.ReferenceIdeal.main_arg4) i = (r : EReal))
    (h5 : ∀ i, ∃ r : ℝ, StableHlo.launchContents mr cr (Proc.devRef .tc Cert.ReferenceIdeal.main_arg5) i = (r : EReal)) :
    ∀ i, ∃ r : ℝ, StableHlo.after Cert.ReferenceIdeal.RefOps.main_part0_ops0 (StableHlo.launchContents mr cr)
      (Proc.devRef .tc Cert.ReferenceIdeal.main_v30) i = (r : EReal) := by
  unfold Cert.ReferenceIdeal.RefOps.main_part0_ops0
  after_results_simp
  generalize StableHlo.launchContents mr cr (Proc.devRef .tc Cert.ReferenceIdeal.main_arg0) = a0 at h0 ⊢
  generalize StableHlo.launchContents mr cr (Proc.devRef .tc Cert.ReferenceIdeal.main_arg3) = a3 at h3 ⊢
  generalize StableHlo.launchContents mr cr (Proc.devRef .tc Cert.ReferenceIdeal.main_arg4) = a4 at h4 ⊢
  generalize StableHlo.launchContents mr cr (Proc.devRef .tc Cert.ReferenceIdeal.main_arg5) = a5 at h5 ⊢
  generalize StableHlo.launchContents mr cr (Proc.devRef .tc Cert.ReferenceIdeal.main_arg1) = a1
  have hone : ∀ i, broadcastInDim Cert.ReferenceIdeal.S100000 ![] Cert.ReferenceIdeal.Gen.bcast_S_S100000
      (constant (F := Ideal) Cert.ReferenceIdeal.S_ .f32 0x3F800000#32) i = 1 := fun _ => Ideal.ofBits_one_f32
  refine AllReal.addf (s := Cert.ReferenceIdeal.S100000x16) (φ := .f32)
    (AllReal.addf
      (AllReal.dotGeneral
        (AllReal.hostDivf
          (AllReal.scatterAdd ((allReal_constant_zero _).broadcastInDim _ _) (AllReal.gather h0 _ _) _ _)
          (AllNZReal.broadcastInDim (AllNZReal.broadcastInDim (AllReal.maximumf_one
            (AllReal.scatterAdd ((allReal_constant_zero _).broadcastInDim _ _) ((allReal_constant_one _).broadcastInDim _ _) _ _)
            hone) _ _) _ _))
        (AllReal.transpose h3 _ _) _ _)
      (AllReal.dotGeneral h0 (AllReal.transpose h4 _ _) _ _))
    (AllReal.broadcastInDim (AllReal.broadcastInDim h5 _ _) _ _)

theorem relu_fin (V : Valuation Cert.ReferenceIdeal.τ Cert.ReferenceIdeal.sig (Elt Ideal))
    (h : ∀ i, ∃ r : ℝ, V (Proc.devRef .tc Cert.ReferenceIdeal.main_v30) i = (r : EReal)) :
    ∀ i, ∃ r : ℝ, StableHlo.after Cert.ReferenceIdeal.RefOps.main_part0_ops1 V (Proc.devRef .tc Cert.ReferenceIdeal.main_v31) i = (r : EReal) := by
  unfold Cert.ReferenceIdeal.RefOps.main_part0_ops1
  after_results_simp
  generalize V (Proc.devRef .tc Cert.ReferenceIdeal.main_v30) = x at h ⊢
  have key : AllReal (maximumf (F := Ideal) (s := Cert.ReferenceIdeal.S100000x16) (φ := .f32) x
      (broadcastInDim Cert.ReferenceIdeal.S100000x16 ![] Cert.ReferenceIdeal.Gen.bcast_S_S100000x16 (constant Cert.ReferenceIdeal.S_ .f32 0x00000000#32))) :=
    AllReal.maximumf h ((allReal_constant_zero _).broadcastInDim _ _)
  exact key

end FirstLayer

-- an entry below +∞ in absolute value is a real number
theorem finArgs_of_pre [hP : Cert.Pre_finite_inputs.Facts] (hpre : Cert.Pre_KernelIdeal m) : FinArgs m c := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  obtain ⟨h, h24⟩ := IntOp.andi_eq_one.1 h
  obtain ⟨h, h23⟩ := IntOp.andi_eq_one.1 h
  obtain ⟨h, h22⟩ := IntOp.andi_eq_one.1 h
  obtain ⟨h, h21⟩ := IntOp.andi_eq_one.1 h
  obtain ⟨h, h20⟩ := IntOp.andi_eq_one.1 h
  obtain ⟨h, h19⟩ := IntOp.andi_eq_one.1 h
  obtain ⟨h, h18⟩ := IntOp.andi_eq_one.1 h
  obtain ⟨h, h17⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  exact ⟨
    allReal_of_all_abs_lt_inf _ _ _ _ _ h, allReal_of_all_abs_lt_inf _ _ _ _ _ h3, allReal_of_all_abs_lt_inf _ _ _ _ _ h4,
    allReal_of_all_abs_lt_inf _ _ _ _ _ h5, allReal_of_all_abs_lt_inf _ _ _ _ _ h6, allReal_of_all_abs_lt_inf _ _ _ _ _ h7,
    allReal_of_all_abs_lt_inf _ _ _ _ _ h8, allReal_of_all_abs_lt_inf _ _ _ _ _ h9, allReal_of_all_abs_lt_inf _ _ _ _ _ h10,
    allReal_of_all_abs_lt_inf _ _ _ _ _ h11, allReal_of_all_abs_lt_inf _ _ _ _ _ h12, allReal_of_all_abs_lt_inf _ _ _ _ _ h13,
    allReal_of_all_abs_lt_inf _ _ _ _ _ h14, allReal_of_all_abs_lt_inf _ _ _ _ _ h15, allReal_of_all_abs_lt_inf _ _ _ _ _ h16,
    allReal_of_all_abs_lt_inf _ _ _ _ _ h17, allReal_of_all_abs_lt_inf _ _ _ _ _ h18, allReal_of_all_abs_lt_inf _ _ _ _ _ h19,
    allReal_of_all_abs_lt_inf _ _ _ _ _ h20, allReal_of_all_abs_lt_inf _ _ _ _ _ h21, allReal_of_all_abs_lt_inf _ _ _ _ _ h22,
    allReal_of_all_abs_lt_inf _ _ _ _ _ h23, allReal_of_all_abs_lt_inf _ _ _ _ _ h24⟩

-- sums and products of reals, and a quotient by a degree of at least one, are real
theorem stageA_fin (ha : Agree m m' c) (hf : FinArgs m c) : ∀ i, ∃ r : ℝ, rH0 m' c i = (r : EReal) := by
  have h0 : ∀ i, ∃ r : ℝ, StableHlo.launchContents m' c (Proc.devRef .tc Cert.ReferenceIdeal.main_arg0) i = (r : EReal) := fun i => by
    obtain ⟨r, hr⟩ := hf.f0 i; exact ⟨r, (congrFun ha.a0 i).trans hr⟩
  have h3 : ∀ i, ∃ r : ℝ, StableHlo.launchContents m' c (Proc.devRef .tc Cert.ReferenceIdeal.main_arg3) i = (r : EReal) := fun i => by
    obtain ⟨r, hr⟩ := hf.f3 i; exact ⟨r, (congrFun ha.a3 i).trans hr⟩
  have h4 : ∀ i, ∃ r : ℝ, StableHlo.launchContents m' c (Proc.devRef .tc Cert.ReferenceIdeal.main_arg4) i = (r : EReal) := fun i => by
    obtain ⟨r, hr⟩ := hf.f4 i; exact ⟨r, (congrFun ha.a4 i).trans hr⟩
  have h5 : ∀ i, ∃ r : ℝ, StableHlo.launchContents m' c (Proc.devRef .tc Cert.ReferenceIdeal.main_arg5) i = (r : EReal) := fun i => by
    obtain ⟨r, hr⟩ := hf.f5 i; exact ⟨r, (congrFun ha.a5 i).trans hr⟩
  show ∀ i, ∃ r : ℝ, StableHlo.after (List.flatten [Cert.ReferenceIdeal.RefOps.main_part0_ops0, Cert.ReferenceIdeal.RefOps.main_part0_ops1])
    (StableHlo.launchContents m' c) (Proc.devRef .tc Cert.ReferenceIdeal.main_v31) i = (r : EReal)
  simp only [List.flatten_cons, List.flatten_nil, List.append_nil, StableHlo.after_append]
  exact relu_fin _ (pre_relu_fin m' c h0 h3 h4 h5)

end Cert.Bridge

end
-- ==== Proof.StageBAlg.lean ====
import Idealize.ShloMosaic.PureOps.Ideal
import Idealize.ShloMosaic.PureOps.Ideal.Laws

noncomputable section

namespace Cert.BnLaw

open Idealize.ShloMosaic
open scoped BigOperators

local notation "cN" => Ideal.ofBits FTy.f32 0x47C35000#32
local notation "cEps" => Ideal.ofBits FTy.f32 0x3727C5AC#32
local notation "cZero" => Ideal.ofBits FTy.f32 0x00000000#32
local notation "cNan" => Ideal.ofBits FTy.f32 0x7FC00000#32
local notation "cI0" => ((BitVec.toInt (0#32 : BitVec 32) : ℝ) : EReal)

theorem cN_eq : cN = ((100000 : ℝ) : EReal) := by
  simp [Ideal.ofBits, Ideal.ieee, -EReal.coe_mul]; norm_num

theorem cEps_eq : ∃ e : ℝ, 0 < e ∧ cEps = (e : EReal) := by
  refine ⟨_, ?_, by simp [Ideal.ofBits, Ideal.ieee, -EReal.coe_mul]; rfl⟩
  positivity

theorem cI0_eq : cI0 = 0 := by simp

theorem cmp_eq : Ideal.cmp .ogt (cN - cI0) cZero = 1#1 := by
  rw [cN_eq]; simp [Ideal.cmp]

def kScale (S Q g : EReal) : EReal :=
  g * Ideal.rsqrt ((Ideal.div Q cN - Ideal.div S cN * Ideal.div S cN) + cEps)

def kShift (S Q g β : EReal) : EReal := β - Ideal.div S cN * kScale S Q g

def kForm (x S Q g β : EReal) : EReal := x * kScale S Q g + kShift S Q g β

def rMean (H : Fin 100000 → EReal) : EReal := Ideal.div (cZero + ∑ k : Fin 100000, H k) cN

def rVar (H : Fin 100000 → EReal) : EReal :=
  Scalar.select (Ideal.cmp .ogt (cN - cI0) cZero)
    (Ideal.div (cZero + ∑ k : Fin 100000, (H k - rMean H) * (H k - rMean H)) (cN - cI0)) cNan

def rForm (H : Fin 100000 → EReal) (n : Fin 100000) (g β : EReal) : EReal :=
  ((H n - rMean H) * Ideal.rsqrt (rVar H + cEps)) * g + β

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sum_sq_dev (h : Fin 100000 → ℝ) (μ : ℝ) :
    ∑ k, (h k - μ) * (h k - μ) = (∑ k, h k * h k) - 2 * μ * (∑ k, h k) + 100000 * (μ * μ) := by
  have e : ∀ k, (h k - μ) * (h k - μ) = h k * h k - 2 * μ * h k + μ * μ := fun k => by ring
  simp only [e, Finset.sum_add_distrib, Finset.sum_sub_distrib, ← Finset.mul_sum, Finset.sum_const, Finset.card_univ,
    Fintype.card_fin, nsmul_eq_mul]
  ring

theorem var_eq (S Q D μ : ℝ) (hμ : μ = S * (1 / 100000)) (hD : D = Q - 2 * μ * S + 100000 * (μ * μ)) :
    D * (1 / 100000) = Q * (1 / 100000) - μ * μ := by
  rw [hD, hμ]; ring

theorem div_N (x : ℝ) : Ideal.div (x : EReal) cN = ((x * (1 / 100000) : ℝ) : EReal) := by
  rw [cN_eq, Ideal.div_coe (by norm_num), ← EReal.coe_mul]

theorem rsqrt_real (v e : ℝ) (hv : 0 ≤ v) (he : 0 < e) :
    Ideal.rsqrt ((v : EReal) + (e : EReal)) = (((Real.sqrt (v + e))⁻¹ : ℝ) : EReal) := by
  have hpos : 0 < v + e := by linarith
  rw [← EReal.coe_add, Ideal.rsqrt_coe, if_neg (not_lt.2 hpos.le), if_neg hpos.ne']

theorem rMean_real (h : Fin 100000 → ℝ) : rMean (fun k => (h k : EReal)) = (((∑ k, h k) * (1 / 100000) : ℝ) : EReal) := by
  unfold rMean
  rw [Ideal.ofBits_zero_f32, zero_add, ← coe_sum, div_N]

theorem rVar_real (h : Fin 100000 → ℝ) : rVar (fun k => (h k : EReal))
    = (((∑ k, h k * h k) * (1 / 100000) - (∑ k, h k) * (1 / 100000) * ((∑ k, h k) * (1 / 100000)) : ℝ) : EReal) := by
  unfold rVar
  rw [cmp_eq, show ∀ a b : EReal, Scalar.select 1#1 a b = a from fun a b => if_pos rfl, rMean_real, Ideal.ofBits_zero_f32,
    zero_add, cI0_eq, sub_zero]
  have eD : (∑ k, ((h k : EReal) - (((∑ k, h k) * (1 / 100000) : ℝ) : EReal)) * ((h k : EReal) - (((∑ k, h k) * (1 / 100000) : ℝ) : EReal)))
      = ((∑ k, (h k - (∑ k, h k) * (1 / 100000)) * (h k - (∑ k, h k) * (1 / 100000)) : ℝ) : EReal) := by
    rw [coe_sum]; exact Finset.sum_congr rfl fun k _ => by rw [← EReal.coe_sub, ← EReal.coe_mul]
  rw [eD, div_N, var_eq _ _ _ _ rfl (sum_sq_dev h _)]

theorem var_nonneg (h : Fin 100000 → ℝ) :
    0 ≤ (∑ k, h k * h k) * (1 / 100000) - (∑ k, h k) * (1 / 100000) * ((∑ k, h k) * (1 / 100000)) := by
  rw [← var_eq _ _ _ _ rfl (sum_sq_dev h _)]
  exact mul_nonneg (Finset.sum_nonneg fun k _ => mul_self_nonneg _) (by norm_num)

theorem affine_eq (x μ g β r : ℝ) :
    ((x : EReal) * ((g : EReal) * (r : EReal)) + ((β : EReal) - (μ : EReal) * ((g : EReal) * (r : EReal))))
      = (((x : EReal) - (μ : EReal)) * (r : EReal)) * (g : EReal) + (β : EReal) := by
  simp only [← EReal.coe_mul, ← EReal.coe_sub, ← EReal.coe_add]
  congr 1
  ring

theorem law_real (h : Fin 100000 → ℝ) (g β : ℝ) (n : Fin 100000) :
    kForm (h n : EReal) (∑ k, (h k : EReal)) (∑ k, (h k : EReal) * (h k : EReal)) (g : EReal) (β : EReal)
      = rForm (fun k => (h k : EReal)) n (g : EReal) (β : EReal) := by
  obtain ⟨e, he, hE⟩ := cEps_eq
  have eQ : (∑ k, (h k : EReal) * (h k : EReal)) = ((∑ k, h k * h k : ℝ) : EReal) := by
    rw [coe_sum]; exact Finset.sum_congr rfl fun k _ => (EReal.coe_mul _ _).symm
  unfold kForm kShift kScale rForm
  rw [rMean_real, rVar_real, ← coe_sum, eQ, div_N, div_N, ← EReal.coe_mul, ← EReal.coe_sub, hE,
    rsqrt_real _ _ (var_nonneg h) he]
  exact affine_eq _ _ _ _ _

theorem law (H : Fin 100000 → EReal) (hH : ∀ k, ∃ r : ℝ, H k = (r : EReal)) (g β : EReal)
    (hg : ∃ r : ℝ, g = (r : EReal)) (hβ : ∃ r : ℝ, β = (r : EReal)) (n : Fin 100000) :
    kForm (H n) (∑ k, H k) (∑ k, H k * H k) g β = rForm H n g β := by
  choose h hh using hH
  obtain ⟨g', rfl⟩ := hg
  obtain ⟨β', rfl⟩ := hβ
  obtain rfl : H = fun k => (h k : EReal) := funext hh
  exact law_real h g' β' n

end Cert.BnLaw

end
-- ==== Proof.StageBKernelBlocks.lean ====
import proofs.«428246_j33844342293317_2_alg».proof.Proof.Gen.KernelIdeal.Frame
import Idealize.ShloMosaic.Lib.Pipeline.Value
import Idealize.ShloMosaic.Lib.ValueLayout
import Idealize.ShloMosaic.Lib.ValueIdx

set_option maxRecDepth 16384

noncomputable section

namespace Cert.BnKernel

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay_apply (x0 : Vec Ideal S10000x16 .f32) (x1 x2 : Vec Ideal S1x16 .f32) (p : Fin 10000) (q : Fin 16) :
    (k1_pay1 (F := Ideal) x0 x1 x2) (ix2 p q) = x0 (ix2 p q) * x1 (ix2 (0 : Fin 1) q) + x2 (ix2 (0 : Fin 1) q) := by
  unfold k1_pay1
  rw [addf_apply, mulf_apply, shapeCast_self, shapeCast_self, shapeCast_self, broadcastTo_1b_ab_apply, broadcastTo_1b_ab_apply]

def aff (a : S100000x16.Idx → EReal) (s b : S1x16.Idx → EReal) : S100000x16.Idx → EReal := fun i =>
  a i * s (ix2 (0 : Fin 1) (⟨(i 1).val, idx2_lt1 i⟩ : Fin 16)) + b (ix2 (0 : Fin 1) (⟨(i 1).val, idx2_lt1 i⟩ : Fin 16))

abbrev G (c : Dev nD) : S100000x16.Idx → EReal := aff (V c main_v24_0) (V c main_v35) (V c main_v38)

theorem aff_blocks (a : S100000x16.Idx → EReal) (s b : S1x16.Idx → EReal) (i0 i : S100000x16.Idx) (j1 j2 : S1x16.Idx)
    (h0 : i0 = i) (h1 : j1 = ix2 (0 : Fin 1) (⟨(i 1).val, idx2_lt1 i⟩ : Fin 16))
    (h2 : j2 = ix2 (0 : Fin 1) (⟨(i 1).val, idx2_lt1 i⟩ : Fin 16)) : a i0 * s j1 + b j2 = aff a s b i := by
  subst h0 h1 h2; rfl

theorem idx_facts : ∀ t : Fin cfg1.N, win1_0.index t (0 : Fin 2) = win1_3.index t (0 : Fin 2)
    ∧ win1_0.index t (1 : Fin 2) = win1_3.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S10000x16) hz, View.ld_unit_zero (S := S1x16) hz]
  obtain ⟨e0, e1, e2, e3, e4, e5, e6, e7⟩ := idx_facts t
  funext j
  revert j
  show ∀ j : S10000x16.Idx, k1_pay1 (F := Idealize.ShloMosaic.Ideal) (iblk1 V c 0 t) (iblk1 V c 1 t) (iblk1 V c 2 t) j = G V c (((cfg1.win 3).blk t).view.emb j)
  intro j
  obtain ⟨p, q, rfl⟩ : ∃ (p : Fin 10000) (q : Fin 16), j = ix2 p q := ⟨j 0, j 1, eq_ix2 j⟩
  refine (pay_apply (iblk1 V c 0 t) (iblk1 V c 1 t) (iblk1 V c 2 t) p q).trans ?_
  refine aff_blocks (V c main_v24_0) (V c main_v35) (V c main_v38) (((cfg1.win 0).blk t).view.emb (ix2 p q))
    (((cfg1.win 3).blk t).view.emb (ix2 p q)) (((cfg1.win 1).blk t).view.emb (ix2 (0 : Fin 1) q))
    (((cfg1.win 2).blk t).view.emb (ix2 (0 : Fin 1) q)) ?_ ?_ ?_
  · funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 16 + 1 * q.val = win1_3.index t (1 : Fin 2) * 16 + 1 * q.val; omega
  · funext a; apply Fin.ext
    match a with
    | ⟨0, _⟩ => show win1_1.index t (0 : Fin 2) * 1 + 1 * 0 = 0; omega
    | ⟨1, _⟩ => show win1_1.index t (1 : Fin 2) * 16 + 1 * q.val = win1_3.index t (1 : Fin 2) * 16 + 1 * q.val; omega
  · funext a; apply Fin.ext
    match a with
    | ⟨0, _⟩ => show win1_2.index t (0 : Fin 2) * 1 + 1 * 0 = 0; omega
    | ⟨1, _⟩ => show win1_2.index t (1 : Fin 2) * 16 + 1 * q.val = win1_3.index t (1 : Fin 2) * 16 + 1 * q.val; omega

theorem mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v39).slice (win1_3.rect t)).set ↔ _
  rw [View.set_slice_whole, Rect.mem_set_unit]
  exact Iff.rfl

theorem cover (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 10 := N_1
  have ht : (i 0).val / 10000 < cfg1.N := by rw [hN]; omega
  obtain ⟨_, _, _, _, _, _, e6, e7⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 16 ≤ (i 1).val ∧ (i 1).val < win1_3.index ⟨(i 0).val / 10000, ht⟩ (1 : Fin 2) * 16 + 16
    rw [e7]; omega

theorem final (c : Dev nD) : (dat1 V c).arrAt 3 cfg1.N = G V c :=
  (dat1 V c).arrAt_eq_of_cover 3 (G V c) (fun t _ => flushed_eq V c t) cover

end Cert.BnKernel
end
-- ==== Proof.StageBLayout.lean ====
import Idealize.ShloMosaic.Lib.Pipeline.Value
import Idealize.ShloMosaic.Lib.ValueIdx
import Idealize.ShloMosaic.PureOps.Ideal.Laws

noncomputable section

namespace Cert.BnLayout

open Idealize.ShloMosaic Idealize.ShloMosaic.ValueIdx
open scoped BigOperators

variable {α : Type}

theorem bcast_scalar_vec (x : (⟨0, ![]⟩ : Shape).Idx → α) (dims : Fin 0 → Fin 1)
    (h : (⟨0, ![]⟩ : Shape).BroadcastsInDim ⟨1, ![16]⟩ dims) (f : Fin 16) :
    broadcastInDim ⟨1, ![16]⟩ dims h x (ix1 f) = x ix0 :=
  broadcastInDim_apply dims h x (ix1 f) ix0 fun a => a.elim0

theorem bcast_scalar_row (x : (⟨0, ![]⟩ : Shape).Idx → α) (dims : Fin 0 → Fin 2)
    (h : (⟨0, ![]⟩ : Shape).BroadcastsInDim ⟨2, ![1, 16]⟩ dims) (u : Fin 1) (f : Fin 16) :
    broadcastInDim ⟨2, ![1, 16]⟩ dims h x (ix2 u f) = x ix0 :=
  broadcastInDim_apply dims h x (ix2 u f) ix0 fun a => a.elim0

theorem bcast_vec_row (x : (⟨1, ![16]⟩ : Shape).Idx → α)
    (h : (⟨1, ![16]⟩ : Shape).BroadcastsInDim ⟨2, ![1, 16]⟩ ![1]) (u : Fin 1) (f : Fin 16) :
    broadcastInDim ⟨2, ![1, 16]⟩ ![1] h x (ix2 u f) = x (ix1 f) :=
  broadcastInDim_apply ![1] h x (ix2 u f) (ix1 f) fun a => by
    match a with
    | ⟨0, _⟩ => rfl

theorem bcast_row_rows (x : (⟨2, ![1, 16]⟩ : Shape).Idx → α)
    (h : (⟨2, ![1, 16]⟩ : Shape).BroadcastsInDim ⟨2, ![100000, 16]⟩ ![0, 1]) (p : Fin 100000) (f : Fin 16) :
    broadcastInDim ⟨2, ![100000, 16]⟩ ![0, 1] h x (ix2 p f) = x (ix2 (0 : Fin 1) f) :=
  broadcastInDim_apply ![0, 1] h x (ix2 p f) (ix2 (0 : Fin 1) f) fun a => by
    match a with
    | ⟨0, _⟩ => rfl
    | ⟨1, _⟩ => rfl

theorem colsum (x : (⟨2, ![100000, 16]⟩ : Shape).Idx → EReal) (init : (⟨0, ![]⟩ : Shape).Idx → EReal)
    (h' : (⟨2, ![100000, 16]⟩ : Shape).ReducesTo [0] ⟨1, ![16]⟩) (hu : 0 < (⟨0, ![]⟩ : Shape).numel) (f : Fin 16) :
    Host.reduceAdd (F := Ideal) (φ := .f32) x init h' hu (ix1 f) = init ix0 + ∑ k : Fin 100000, x (ix2 k f) := by
  have h : (⟨2, ![100000, 16]⟩ : Shape).Reduces [0] ⟨1, ![16]⟩ := by decide
  refine (Ideal.hostReduceAdd_single h' h x _ (ix1 f)).trans ?_
  rw [eq_ix0 (Shape.Idx.first hu)]
  show init ix0 + ∑ k : Fin 100000, x (h.lift (ix1 f) k) = _
  refine congrArg (fun z => init ix0 + z) (Finset.sum_congr rfl fun k _ => congrArg x (funext fun a => ?_))
  match a with
  | ⟨0, _⟩ => exact Fin.ext rfl
  | ⟨1, _⟩ => exact Fin.ext rfl

end Cert.BnLayout

end
-- ==== Proof.StageBKernelHost.lean ====
import proofs.«428246_j33844342293317_2_alg».proof.Proof.Gen.KernelIdeal.Launch
import proofs.«428246_j33844342293317_2_alg».proof.Proof.StageBAlg
import proofs.«428246_j33844342293317_2_alg».proof.Proof.StageBLayout
import Idealize.ShloMosaic.Lib.StableHlo.Run
import Idealize.ShloMosaic.Lib.ValueLayout

noncomputable section

namespace Cert.BnKernelHost

open Cert.KernelIdeal Cert.KernelIdeal.Gen Cert.BnLaw Cert.BnLayout
open Idealize.ShloMosaic Idealize.ShloMosaic.TcCoe Idealize.SL.Sem Idealize.ShloMosaic.ValueIdx Idealize.ShloMosaic.StableHlo

local notation "cN" => Ideal.ofBits FTy.f32 0x47C35000#32

theorem scale_vec (g S Q : FVec Idealize.ShloMosaic.Ideal S1x16 .f32) (hb : S_.BroadcastsInDim S1x16 (![] : Fin 0 → Fin S1x16.rank)) (u : Fin 1) (f : Fin 16) :
    mulf g (Host.rsqrt (addf (subf (Host.divf Q (broadcastInDim S1x16 ![] hb (constant (F := Idealize.ShloMosaic.Ideal) S_ FTy.f32 0x47C35000#32)))
        (mulf (Host.divf S (broadcastInDim S1x16 ![] hb (constant (F := Idealize.ShloMosaic.Ideal) S_ FTy.f32 0x47C35000#32)))
          (Host.divf S (broadcastInDim S1x16 ![] hb (constant (F := Idealize.ShloMosaic.Ideal) S_ FTy.f32 0x47C35000#32)))))
      (broadcastInDim S1x16 ![] hb (constant (F := Idealize.ShloMosaic.Ideal) S_ FTy.f32 0x3727C5AC#32)))) (ix2 u f)
      = kScale (S (ix2 u f)) (Q (ix2 u f)) (g (ix2 u f)) := by
  show g (ix2 u f) * Ideal.rsqrt ((Ideal.div (Q (ix2 u f)) (broadcastInDim S1x16 ![] hb (constant (F := Idealize.ShloMosaic.Ideal) S_ FTy.f32 0x47C35000#32) (ix2 u f))
      - Ideal.div (S (ix2 u f)) (broadcastInDim S1x16 ![] hb (constant (F := Idealize.ShloMosaic.Ideal) S_ FTy.f32 0x47C35000#32) (ix2 u f))
        * Ideal.div (S (ix2 u f)) (broadcastInDim S1x16 ![] hb (constant (F := Idealize.ShloMosaic.Ideal) S_ FTy.f32 0x47C35000#32) (ix2 u f)))
      + broadcastInDim S1x16 ![] hb (constant (F := Idealize.ShloMosaic.Ideal) S_ FTy.f32 0x3727C5AC#32) (ix2 u f)) = _
  rw [bcast_scalar_row, bcast_scalar_row]
  rfl

theorem shift_vec (b S sc : FVec Idealize.ShloMosaic.Ideal S1x16 .f32) (hb : S_.BroadcastsInDim S1x16 (![] : Fin 0 → Fin S1x16.rank)) (u : Fin 1) (f : Fin 16) :
    subf b (mulf (Host.divf S (broadcastInDim S1x16 ![] hb (constant (F := Idealize.ShloMosaic.Ideal) S_ FTy.f32 0x47C35000#32))) sc) (ix2 u f)
      = b (ix2 u f) - Ideal.div (S (ix2 u f)) cN * sc (ix2 u f) := by
  show b (ix2 u f) - Ideal.div (S (ix2 u f)) (broadcastInDim S1x16 ![] hb (constant (F := Idealize.ShloMosaic.Ideal) S_ FTy.f32 0x47C35000#32) (ix2 u f)) * sc (ix2 u f) = _
  rw [bcast_scalar_row]
  rfl

theorem scale_apply (X : Valuation τ sig (Elt Idealize.ShloMosaic.Ideal)) (u : Fin 1) (f : Fin 16) :
    after (hostOps1 (F := Idealize.ShloMosaic.Ideal)) X (Proc.devRef .tc main_v35) (ix2 u f)
      = kScale (X (Proc.devRef .tc main_v24_1) (ix2 u f)) (X (Proc.devRef .tc main_v24_2) (ix2 u f)) (X (Proc.devRef .tc main_arg6) (ix1 f)) := by
  dsimp only [hostOps1]
  after_results_simp
  refine (scale_vec (fun i => shapeCast main_v31.ty.shape (X (Proc.devRef .tc main_arg6)) shapeCasts_S16_S1x16 i)
    (X (Proc.devRef .tc main_v24_1)) (X (Proc.devRef .tc main_v24_2)) bcast_S_S1x16 u f).trans ?_
  exact congrArg (kScale _ _) (shapeCast_a_1a_apply (X (Proc.devRef .tc main_arg6)) shapeCasts_S16_S1x16 u f)

theorem shift_apply (X : Valuation τ sig (Elt Idealize.ShloMosaic.Ideal)) (u : Fin 1) (f : Fin 16) :
    after (hostOps1 (F := Idealize.ShloMosaic.Ideal)) X (Proc.devRef .tc main_v38) (ix2 u f)
      = kShift (X (Proc.devRef .tc main_v24_1) (ix2 u f)) (X (Proc.devRef .tc main_v24_2) (ix2 u f)) (X (Proc.devRef .tc main_arg6) (ix1 f))
          (X (Proc.devRef .tc main_arg7) (ix1 f)) := by
  have hs := scale_apply X u f
  dsimp only [hostOps1] at hs ⊢
  revert hs
  after_results_simp
  intro hs
  refine (shift_vec (fun i => shapeCast main_v36.ty.shape (X (Proc.devRef .tc main_arg7)) shapeCasts_S16_S1x16 i)
    (X (Proc.devRef .tc main_v24_1)) _ bcast_S_S1x16 u f).trans ?_
  rw [hs]
  unfold kShift
  exact congrArg (fun z => z - _) (shapeCast_a_1a_apply (X (Proc.devRef .tc main_arg7)) shapeCasts_S16_S1x16 u f)

theorem keep_v24_0 (X : Valuation τ sig (Elt Idealize.ShloMosaic.Ideal)) :
    after (hostOps1 (F := Idealize.ShloMosaic.Ideal)) X (Proc.devRef .tc main_v24_0) = X (Proc.devRef .tc main_v24_0) :=
  after_of_forall_not_mem (b := Proc.devRef .tc main_v24_0) _ _ (List.forall_iff_forall_mem.mp (by
    simp only [hostOps1, List.Forall, nullary_writes, unary_writes, binary_writes, reshape_writes, Finset.mem_singleton]
    repeat' apply And.intro
    all_goals exact devRef_ne_of_ne (by decide)))

end Cert.BnKernelHost
end
-- ==== Proof.StageBKernel.lean ====
import proofs.«428246_j33844342293317_2_alg».proof.Proof.Gen.KernelIdeal.Frame
import proofs.«428246_j33844342293317_2_alg».proof.Proof.StageBKernelBlocks
import proofs.«428246_j33844342293317_2_alg».proof.Proof.StageBKernelHost
import proofs.«428246_j33844342293317_2_alg».proof.Proof.StageBAlg

noncomputable section

namespace Cert.BnKernel

open Cert.KernelIdeal Cert.KernelIdeal.Gen Cert.BnLaw Cert.BnKernelHost
open Idealize.ShloMosaic Idealize.ShloMosaic.TcCoe Idealize.SL.Sem Idealize.ShloMosaic.ValueIdx

variable (m : (ℓ : Loc nD τ sig) → Buf (Elt Idealize.ShloMosaic.Ideal) ℓ) (ρ : Dev nD → PrngReg)

theorem W2_arg6 (c : Dev nD) : W2 m ρ c (Proc.devRef .tc main_arg6) = m ((c : Thread nD τ).loc main_arg6) :=
  (W2_of_ne m ρ c main_arg6 (by decide)).trans
    ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem W2_arg7 (c : Dev nD) : W2 m ρ c (Proc.devRef .tc main_arg7) = m ((c : Thread nD τ).loc main_arg7) :=
  (W2_of_ne m ρ c main_arg7 (by decide)).trans
    ((StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem kernel_read (c : Dev nD) (n : Fin 100000) (f : Fin 16) :
    W4 m ρ c (Proc.devRef .tc main_v39) (ix2 n f)
      = kForm (W2 m ρ c (Proc.devRef .tc main_v24_0) (ix2 n f)) (W2 m ρ c (Proc.devRef .tc main_v24_1) (ix2 (0 : Fin 1) f))
          (W2 m ρ c (Proc.devRef .tc main_v24_2) (ix2 (0 : Fin 1) f)) (m ((c : Thread nD τ).loc main_arg6) (ix1 f))
          (m ((c : Thread nD τ).loc main_arg7) (ix1 f)) := by
  have e : W4 m ρ c (Proc.devRef .tc main_v39) = G (V3 m ρ) c := (W4_arr m ρ c 3).trans (final (V3 m ρ) c)
  rw [e, ← W2_arg6 m ρ c, ← W2_arg7 m ρ c]
  have e0 := congrFun (keep_v24_0 (W2 m ρ c)) (ix2 n f)
  have e1 := scale_apply (W2 m ρ c) (0 : Fin 1) f
  have e2 := shift_apply (W2 m ρ c) (0 : Fin 1) f
  unfold kForm
  rw [← e0, ← e1, ← e2]
  rfl

end Cert.BnKernel

end
-- ==== Proof.StageBRef.lean ====
import proofs.«428246_j33844342293317_2_alg».proof.Proof.RefRun
import proofs.«428246_j33844342293317_2_alg».proof.Proof.StageBAlg
import proofs.«428246_j33844342293317_2_alg».proof.Proof.StageBLayout
import Idealize.ShloMosaic.Lib.StableHlo.Run
import Idealize.ShloMosaic.Lib.ValueLayout

noncomputable section

namespace Cert.BnRef

open Cert.ReferenceIdeal Cert.ReferenceIdeal.Gen Cert.ReferenceIdeal.RefOps Cert.ReferenceIdeal.RefRun Cert.BnLaw Cert.BnLayout
open Idealize.ShloMosaic Idealize.ShloMosaic.TcCoe Idealize.SL.Sem Idealize.ShloMosaic.ValueIdx Idealize.ShloMosaic.StableHlo
open scoped BigOperators

local notation "𝕀" => Idealize.ShloMosaic.Ideal

local notation "cEps" => Ideal.ofBits FTy.f32 0x3727C5AC#32

theorem ofBuf_toBuf {sig : RefSig} {Val : EltTy → Type} {T : BufTy} (x : TRef sig T) (v : T.Contents Val) : x.ofBuf (x.toBuf v) = v := by
  simp only [TRef.ofBuf, TRef.toBuf, cast_cast, cast_eq]

theorem ofBuf_v31 (p1 : main_v31.ty = ⟨S100000x16, .f32⟩) (p2 : main_v31.space ≠ .host) (p3 : main_v31.isScoped = false)
    (v : main_v31.ty.Contents (Elt 𝕀)) : (TRef.of main_v31 p1 p2 p3).ofBuf v = v := rfl
theorem ofBuf_c6 (p1 : main_c_6.ty = ⟨S_, .i32⟩) (p2 : main_c_6.space ≠ .host) (p3 : main_c_6.isScoped = false)
    (v : main_c_6.ty.Contents (Elt 𝕀)) : (TRef.of main_c_6 p1 p2 p3).ofBuf v = v := rfl
theorem toBuf_v35 (p1 : main_v35.ty = ⟨S16, .f32⟩) (p2 : main_v35.space ≠ .host) (p3 : main_v35.isScoped = false)
    (v : (⟨S16, .f32⟩ : BufTy).Contents (Elt 𝕀)) : (TRef.of main_v35 p1 p2 p3).toBuf v = v := rfl

section Vec
variable (H : FVec 𝕀 S100000x16 .f32)
  (hR : S100000x16.ReducesTo [0] S16) (hS : 0 < S_.numel)
  (hb16 : S_.BroadcastsInDim S16 (![] : Fin 0 → Fin S16.rank))
  (hb1 : S_.BroadcastsInDim S1x16 (![] : Fin 0 → Fin S1x16.rank))
  (h1 : S16.BroadcastsInDim S1x16 ![1]) (h01 : S1x16.BroadcastsInDim S100000x16 ![0, 1])

theorem mean_vec (f : Fin 16) :
    Host.divf (Host.reduceAdd H (constant (F := 𝕀) S_ FTy.f32 0x00000000#32) hR hS)
      (broadcastInDim S16 ![] hb16 (constant (F := 𝕀) S_ FTy.f32 0x47C35000#32)) (ix1 f) = rMean (fun k => H (ix2 k f)) := by
  show Ideal.div (Host.reduceAdd H (constant (F := 𝕀) S_ FTy.f32 0x00000000#32) hR hS (ix1 f))
      (broadcastInDim S16 ![] hb16 (constant (F := 𝕀) S_ FTy.f32 0x47C35000#32) (ix1 f)) = _
  rw [colsum, bcast_scalar_vec]
  rfl

theorem mean_row (u : Fin 1) (f : Fin 16) :
    Host.divf (broadcastInDim S1x16 ![1] h1 (Host.reduceAdd H (constant (F := 𝕀) S_ FTy.f32 0x00000000#32) hR hS))
      (broadcastInDim S1x16 ![] hb1 (constant (F := 𝕀) S_ FTy.f32 0x47C35000#32)) (ix2 u f) = rMean (fun k => H (ix2 k f)) := by
  show Ideal.div (broadcastInDim S1x16 ![1] h1 (Host.reduceAdd H (constant (F := 𝕀) S_ FTy.f32 0x00000000#32) hR hS) (ix2 u f))
      (broadcastInDim S1x16 ![] hb1 (constant (F := 𝕀) S_ FTy.f32 0x47C35000#32) (ix2 u f)) = _
  rw [bcast_vec_row, colsum, bcast_scalar_row]
  rfl

theorem rows_of_vec (x : FVec 𝕀 S16 .f32) (n : Fin 100000) (f : Fin 16) :
    broadcastInDim S100000x16 ![0, 1] h01 (broadcastInDim S1x16 ![1] h1 x) (ix2 n f) = x (ix1 f) := by
  rw [bcast_row_rows, bcast_vec_row]

local notation "MROW" => Host.divf (broadcastInDim S1x16 ![1] h1 (Host.reduceAdd H (constant (F := 𝕀) S_ FTy.f32 0x00000000#32) hR hS))
      (broadcastInDim S1x16 ![] hb1 (constant (F := 𝕀) S_ FTy.f32 0x47C35000#32))
local notation "DEV" => subf H (broadcastInDim S100000x16 ![0, 1] h01 MROW)
local notation "NEFF" => subf (constant (F := 𝕀) S_ FTy.f32 0x47C35000#32) (sitofp FTy.f32 (constantI S_ 32 0#32))

theorem var_vec (f : Fin 16) :
    select (broadcastInDim S16 ![] hb16 (cmpf CmpFPredicate.ogt NEFF (constant (F := 𝕀) S_ FTy.f32 0x00000000#32)))
      (Host.divf (Host.reduceAdd (mulf DEV DEV) (constant (F := 𝕀) S_ FTy.f32 0x00000000#32) hR hS)
        (broadcastInDim S16 ![] hb16 NEFF))
      (broadcastInDim S16 ![] hb16 (constant (F := 𝕀) S_ FTy.f32 0x7FC00000#32)) (ix1 f)
      = rVar (fun k => H (ix2 k f)) := by
  show Scalar.select (broadcastInDim S16 ![] hb16 (cmpf CmpFPredicate.ogt NEFF (constant (F := 𝕀) S_ FTy.f32 0x00000000#32)) (ix1 f))
      (Ideal.div (Host.reduceAdd (mulf DEV DEV) (constant (F := 𝕀) S_ FTy.f32 0x00000000#32) hR hS (ix1 f))
        (broadcastInDim S16 ![] hb16 NEFF (ix1 f)))
      (broadcastInDim S16 ![] hb16 (constant (F := 𝕀) S_ FTy.f32 0x7FC00000#32) (ix1 f)) = _
  rw [bcast_scalar_vec, bcast_scalar_vec, bcast_scalar_vec, colsum]
  have hD : ∀ k : Fin 100000, mulf DEV DEV (ix2 k f)
      = (H (ix2 k f) - rMean (fun k => H (ix2 k f))) * (H (ix2 k f) - rMean (fun k => H (ix2 k f))) := fun k => by
    show (H (ix2 k f) - broadcastInDim S100000x16 ![0, 1] h01 MROW (ix2 k f))
      * (H (ix2 k f) - broadcastInDim S100000x16 ![0, 1] h01 MROW (ix2 k f)) = _
    rw [bcast_row_rows, mean_row]
  rw [Finset.sum_congr rfl fun k _ => hD k]
  rfl

theorem out_vec (Mv Vv g b : FVec 𝕀 S16 .f32) (n : Fin 100000) (f : Fin 16) :
    addf (mulf (mulf (subf H (broadcastInDim S100000x16 ![0, 1] h01 (broadcastInDim S1x16 ![1] h1 Mv)))
          (broadcastInDim S100000x16 ![0, 1] h01 (broadcastInDim S1x16 ![1] h1
            (Host.rsqrt (addf Vv (broadcastInDim S16 ![] hb16 (constant (F := 𝕀) S_ FTy.f32 0x3727C5AC#32)))))))
        (broadcastInDim S100000x16 ![0, 1] h01 (broadcastInDim S1x16 ![1] h1 g)))
      (broadcastInDim S100000x16 ![0, 1] h01 (broadcastInDim S1x16 ![1] h1 b)) (ix2 n f)
      = ((H (ix2 n f) - Mv (ix1 f)) * Ideal.rsqrt (Vv (ix1 f) + cEps)) * g (ix1 f) + b (ix1 f) := by
  show ((H (ix2 n f) - broadcastInDim S100000x16 ![0, 1] h01 (broadcastInDim S1x16 ![1] h1 Mv) (ix2 n f))
        * broadcastInDim S100000x16 ![0, 1] h01 (broadcastInDim S1x16 ![1] h1
            (Host.rsqrt (addf Vv (broadcastInDim S16 ![] hb16 (constant (F := 𝕀) S_ FTy.f32 0x3727C5AC#32))))) (ix2 n f))
      * broadcastInDim S100000x16 ![0, 1] h01 (broadcastInDim S1x16 ![1] h1 g) (ix2 n f)
      + broadcastInDim S100000x16 ![0, 1] h01 (broadcastInDim S1x16 ![1] h1 b) (ix2 n f) = _
  rw [rows_of_vec, rows_of_vec, rows_of_vec, rows_of_vec]
  show ((H (ix2 n f) - Mv (ix1 f)) * Ideal.rsqrt (Vv (ix1 f) + broadcastInDim S16 ![] hb16 (constant (F := 𝕀) S_ FTy.f32 0x3727C5AC#32) (ix1 f)))
      * g (ix1 f) + b (ix1 f) = _
  rw [bcast_scalar_vec]
  rfl

end Vec

theorem ref_read (X : Valuation τ sig (Elt 𝕀)) (n : Fin 100000) (f : Fin 16) :
    after (stageB (F := 𝕀)).flatten X (Proc.devRef .tc main_v50) (ix2 n f)
      = rForm (fun k => X (Proc.devRef .tc main_v31) (ix2 k f)) n (X (Proc.devRef .tc main_arg6) (ix1 f))
          (X (Proc.devRef .tc main_arg7) (ix1 f)) := by
  simp only [stageB, List.flatten_cons, List.flatten_nil, List.append_nil, after_append]
  dsimp only [main_part0_ops2, main_part0_ops3, main_part0_ops4, main_part1_ops0]
  after_results_simp
  simp only [ofBuf_toBuf, id_eq, ofBuf_v31, ofBuf_c6, toBuf_v35]
  refine (out_vec (X (Proc.devRef .tc main_v31)) bcast_S_S16 bcast_S16_S1x16_1 bcast_S1x16_S100000x16_0_1 _ _
    (X (Proc.devRef .tc main_arg6)) (X (Proc.devRef .tc main_arg7)) n f).trans ?_
  rw [mean_vec (X (Proc.devRef .tc main_v31)) reducesTo_S100000x16_S16_d0 h_S_ bcast_S_S16 f,
    var_vec (X (Proc.devRef .tc main_v31)) reducesTo_S100000x16_S16_d0 h_S_ bcast_S_S16 bcast_S_S1x16 bcast_S16_S1x16_1
      bcast_S1x16_S100000x16_0_1 f]
  rfl

variable (m' : (ℓ : Loc nD τ sig) → Buf (Elt 𝕀) ℓ) (c : Dev nD)

theorem U1_arg6 : U1 m' c (Proc.devRef .tc main_arg6) = m' ((c.tc : Thread nD τ).loc main_arg6) :=
  (after_of_forall_not_mem (b := Proc.devRef .tc main_arg6) (stageA (F := 𝕀)).flatten (U0 m' c) (List.forall_iff_forall_mem.mp (by
    simp only [stageA, main_part0_ops0, main_part0_ops1, List.flatten_cons, List.flatten_nil, List.append_nil, List.cons_append,
      List.nil_append, List.Forall, nullary_writes, unary_writes, binary_writes, ternary_writes, reshape_writes, Finset.mem_singleton]
    repeat' apply And.intro
    all_goals exact devRef_ne_of_ne (by decide)))).trans rfl
theorem U1_arg7 : U1 m' c (Proc.devRef .tc main_arg7) = m' ((c.tc : Thread nD τ).loc main_arg7) :=
  (after_of_forall_not_mem (b := Proc.devRef .tc main_arg7) (stageA (F := 𝕀)).flatten (U0 m' c) (List.forall_iff_forall_mem.mp (by
    simp only [stageA, main_part0_ops0, main_part0_ops1, List.flatten_cons, List.flatten_nil, List.append_nil, List.cons_append,
      List.nil_append, List.Forall, nullary_writes, unary_writes, binary_writes, ternary_writes, reshape_writes, Finset.mem_singleton]
    repeat' apply And.intro
    all_goals exact devRef_ne_of_ne (by decide)))).trans rfl

theorem rHbn_read (n : Fin 100000) (f : Fin 16) :
    U2 m' c (Proc.devRef .tc main_v50) (ix2 n f)
      = rForm (fun k => U1 m' c (Proc.devRef .tc main_v31) (ix2 k f)) n (m' ((c.tc : Thread nD τ).loc main_arg6) (ix1 f))
          (m' ((c.tc : Thread nD τ).loc main_arg7) (ix1 f)) := by
  rw [← U1_arg6 m' c, ← U1_arg7 m' c]
  exact ref_read (U1 m' c) n f

end Cert.BnRef
end
-- ==== Proof.StageB.lean ====
import proofs.«428246_j33844342293317_2_alg».proof.Proof.Iface
import proofs.«428246_j33844342293317_2_alg».proof.Proof.StageBAlg
import proofs.«428246_j33844342293317_2_alg».proof.Proof.StageBKernel
import proofs.«428246_j33844342293317_2_alg».proof.Proof.StageBRef

noncomputable section

namespace Cert.Bridge

open Idealize.ShloMosaic Idealize.ShloMosaic.TcCoe Idealize.SL.Sem Idealize.ShloMosaic.ValueIdx
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

-- over reals Σh²/N − μ² = Σ(h−μ)²/N, hence h·(γr) + (β − μ·γr) = (h − μ)·r·γ + β
theorem stageB (ha : Agree m m' c) (hf : FinArgs m c) (h1 : kH0 m ρ c = rH0 m' c)
    (h2 : ∀ f : Fin 16, kSum m ρ c (ix2 (0 : Fin 1) f) = ∑ n : Fin 100000, rH0 m' c (ix2 n f))
    (h3 : ∀ f : Fin 16, kSq m ρ c (ix2 (0 : Fin 1) f) = ∑ n : Fin 100000, rH0 m' c (ix2 n f) * rH0 m' c (ix2 n f))
    (h4 : ∀ i, ∃ r : ℝ, rH0 m' c i = (r : EReal)) : kHbn m ρ c = rHbn m' c := by
  funext i
  obtain ⟨n, f, rfl⟩ : ∃ (n : Fin 100000) (f : Fin 16), i = ix2 n f := ⟨i 0, i 1, eq_ix2 i⟩

  refine (Cert.BnKernel.kernel_read m ρ c n f).trans ?_

  refine Eq.trans ?_ (Cert.BnRef.rHbn_read m' c n f).symm
  show Cert.BnLaw.kForm (kH0 m ρ c (ix2 n f)) (kSum m ρ c (ix2 (0 : Fin 1) f)) (kSq m ρ c (ix2 (0 : Fin 1) f)) _ _
    = Cert.BnLaw.rForm (fun k => rH0 m' c (ix2 k f)) n _ _
  rw [congrFun h1 (ix2 n f), h2 f, h3 f, congrFun ha.a6 (ix1 f), congrFun ha.a7 (ix1 f)]
  exact Cert.BnLaw.law (fun k => rH0 m' c (ix2 k f)) (fun k => h4 _) _ _ (hf.f6 (ix1 f)) (hf.f7 (ix1 f)) n

end Cert.Bridge

end
-- ==== Proof.StageCDot.lean ====
import Idealize.ShloMosaic.PureOps.Ideal.Laws
import Idealize.ShloMosaic.Lib.ValueIdx

noncomputable section

open scoped BigOperators

namespace Cert.Bridge.StageC

open Idealize.ShloMosaic Idealize.ShloMosaic.ValueIdx

variable {n K c : Nat}

structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

private theorem coord_congr {s : Shape} (j : s.Idx) (p q : Nat) (hp : p < s.rank) (hq : q < s.rank) (h : p = q) :
    (j ⟨p, hp⟩).val = (j ⟨q, hq⟩).val := by subst h; rfl

theorem RowsCols.rank_contr (h : RowsCols d) : d.contr.rank = 1 := by rw [d.rank_contr, h.lc]; rfl

theorem RowsCols.size_contr (h : RowsCols d) : d.contr.size ⟨0, by rw [h.rank_contr]; exact Nat.one_pos⟩ = K := by
  have := d.size_contr 0 (by rw [h.lc]; exact Nat.one_pos)
  rw [this]; simp only [h.lc]; rfl

theorem RowsCols.lhs_0 (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

theorem RowsCols.lhs_1 (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

theorem RowsCols.rhs_0 (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

theorem RowsCols.rhs_1 (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem RowsCols.sum_eq (h : RowsCols d) (l : (⟨2, ![n, K]⟩ : Shape).Idx → EReal) (w : (⟨2, ![K, c]⟩ : Shape).Idx → EReal)
    (r : Fin n) (v : Fin c) :
    ∑ k : d.contr.Idx, l (d.lhsIdx (ix2 r v) k) * w (d.rhsIdx (ix2 r v) k) = ∑ q : Fin K, l (ix2 r q) * w (ix2 q v) := by
  rw [← Equiv.sum_comp (contrEquiv1 d K h.rank_contr h.size_contr).symm]
  refine Finset.sum_congr rfl fun q _ => ?_
  have hk := contrEquiv1_symm_val d K h.rank_contr h.size_contr q
  have e1 : d.lhsIdx (ix2 r v) ((contrEquiv1 d K h.rank_contr h.size_contr).symm q) = ix2 r q := by
    funext a
    match a with
    | ⟨0, _⟩ => exact Fin.ext (h.lhs_0 _ _)
    | ⟨1, _⟩ => exact Fin.ext ((h.lhs_1 _ _).trans hk)
  have e2 : d.rhsIdx (ix2 r v) ((contrEquiv1 d K h.rank_contr h.size_contr).symm q) = ix2 q v := by
    funext a
    match a with
    | ⟨0, _⟩ => exact Fin.ext ((h.rhs_0 _ _).trans hk)
    | ⟨1, _⟩ => exact Fin.ext (h.rhs_1 _ _)
  exact congrArg₂ (· * ·) (congrArg l e1) (congrArg w e2)

theorem RowsCols.matmul_zero_apply {φ₁ φ₂ : FTy} (h : RowsCols d) (prec : Option ContractPrecision)
    (l : FVec Ideal ⟨2, ![n, K]⟩ φ₁) (w : FVec Ideal ⟨2, ![K, c]⟩ φ₂) (r : Fin n) (v : Fin c) :
    matmul (F := Ideal) d prec l w (constant ⟨2, ![n, c]⟩ .f32 0x00000000#32) (ix2 r v)
      = ∑ q : Fin K, l (ix2 r q) * w (ix2 q v) :=
  (Ideal.matmul_constant_zero_apply d prec l w (ix2 r v)).trans (h.sum_eq l w r v)

theorem RowsCols.dotGeneral_apply {φ₁ φ₂ : FTy} (h : RowsCols d) (prec : Option ContractPrecision)
    (l : FVec Ideal ⟨2, ![n, K]⟩ φ₁) (w : FVec Ideal ⟨2, ![K, c]⟩ φ₂) (r : Fin n) (v : Fin c) :
    Host.dotGeneral (F := Ideal) d prec l w (ix2 r v) = ∑ q : Fin K, l (ix2 r q) * w (ix2 q v) :=
  (Ideal.dotGeneral_apply d prec .single l w (ix2 r v)).trans (h.sum_eq l w r v)

end Cert.Bridge.StageC

end
-- ==== Proof.StageCSpec.lean ====
import proofs.«428246_j33844342293317_2_alg».proof.Proof.StageCDot

noncomputable section

open scoped BigOperators

namespace Cert.Bridge.StageC

open Idealize.ShloMosaic Idealize.ShloMosaic.ValueIdx

def sage2At (A : FVec Ideal ⟨2, ![100000, 16]⟩ .f32) (D : FVec Ideal ⟨2, ![100000, 1]⟩ .f32)
    (H : FVec Ideal ⟨2, ![100000, 16]⟩ .f32) (WL WR : FVec Ideal ⟨2, ![16, 16]⟩ .f32) (B : FVec Ideal ⟨2, ![1, 16]⟩ .f32)
    (n : Fin 100000) (f : Fin 16) : Ideal .f32 :=
  max ((∑ q : Fin 16, Ideal.div (A (ix2 n q)) (D (ix2 n 0)) * WL (ix2 q f))
        + (∑ q : Fin 16, H (ix2 n q) * WR (ix2 q f)) + B (ix2 0 f)) (Ideal.ofBits .f32 0x00000000#32)

def sage2 (A : FVec Ideal ⟨2, ![100000, 16]⟩ .f32) (D : FVec Ideal ⟨2, ![100000, 1]⟩ .f32)
    (H : FVec Ideal ⟨2, ![100000, 16]⟩ .f32) (WL WR : FVec Ideal ⟨2, ![16, 16]⟩ .f32) (B : FVec Ideal ⟨2, ![1, 16]⟩ .f32) :
    FVec Ideal ⟨2, ![100000, 16]⟩ .f32 :=
  fun i => sage2At A D H WL WR B (i 0) (i 1)

theorem sage2_apply (A : FVec Ideal ⟨2, ![100000, 16]⟩ .f32) (D : FVec Ideal ⟨2, ![100000, 1]⟩ .f32)
    (H : FVec Ideal ⟨2, ![100000, 16]⟩ .f32) (WL WR : FVec Ideal ⟨2, ![16, 16]⟩ .f32) (B : FVec Ideal ⟨2, ![1, 16]⟩ .f32)
    (n : Fin 100000) (f : Fin 16) : sage2 A D H WL WR B (ix2 n f) = sage2At A D H WL WR B n f := rfl

end Cert.Bridge.StageC

end
-- ==== Proof.StageCKernel.lean ====
import proofs.«428246_j33844342293317_2_alg».proof.Proof.Gen.KernelIdeal.Frame
import proofs.«428246_j33844342293317_2_alg».proof.Proof.StageCSpec
import Idealize.ShloMosaic.Lib.Pipeline.Value
import Idealize.ShloMosaic.Lib.ValueIdx
import Idealize.ShloMosaic.PureOps.Ideal.Laws

noncomputable section

namespace Cert.Bridge.StageC

open Cert.KernelIdeal Cert.KernelIdeal.Gen
open Idealize.ShloMosaic Idealize.ShloMosaic.TcCoe Idealize.SL.Sem Idealize.ShloMosaic.ValueIdx
open scoped BigOperators

theorem dims_blk : RowsCols (n := 10000) (K := 16) (c := 16) dot_S10000x16_S16x16_S10000x16_1_0_0_1_n_n :=
  ⟨rfl, rfl, rfl, rfl, rfl, rfl⟩

theorem bcol_apply (x1 : FVec Ideal S10000x1 .f32) (r : Fin 10000) (f : Fin 16) :
    broadcastTo S10000x16 x1 broadcasts_S10000x1_S10000x16 (ix2 r f) = x1 (ix2 r 0) := by
  refine broadcastTo_apply x1 _ (ix2 r f) (ix2 r 0) ?_
  intro a
  match a with
  | ⟨0, _⟩ => rfl
  | ⟨1, _⟩ => rfl

theorem brow_apply (x5 : FVec Ideal S1x16 .f32) (r : Fin 10000) (f : Fin 16) :
    broadcastTo S10000x16 x5 broadcasts_S1x16_S10000x16 (ix2 r f) = x5 (ix2 0 f) := by
  refine broadcastTo_apply x5 _ (ix2 r f) (ix2 0 f) ?_
  intro a
  match a with
  | ⟨0, _⟩ => rfl
  | ⟨1, _⟩ => rfl

theorem pay_apply (x0 : Vec Ideal S10000x16 .f32) (x1 : Vec Ideal S10000x1 .f32) (x2 : Vec Ideal S10000x16 .f32)
    (x3 x4 : Vec Ideal S16x16 .f32) (x5 : Vec Ideal S1x16 .f32) (r : Fin 10000) (f : Fin 16) :
    k2_pay1 (F := Ideal) x0 x1 x2 x3 x4 x5 (ix2 r f)
      = max ((∑ q : Fin 16, Ideal.div (x0 (ix2 r q)) (x1 (ix2 r 0)) * x3 (ix2 q f))
              + (∑ q : Fin 16, x2 (ix2 r q) * x4 (ix2 q f)) + x5 (ix2 0 f)) (Ideal.ofBits .f32 0x00000000#32) := by
  unfold k2_pay1
  simp only [shapeCast_self]
  have e1 : matmul (F := Ideal) dot_S10000x16_S16x16_S10000x16_1_0_0_1_n_n none
        (truncf .bf16 (divf x0 (broadcastTo S10000x16 x1 broadcasts_S10000x1_S10000x16)) bitsLt_bf16_f32)
        (truncf .bf16 x3 bitsLt_bf16_f32) (constant S10000x16 .f32 0x00000000#32) (ix2 r f)
      = ∑ q : Fin 16, Ideal.div (x0 (ix2 r q)) (x1 (ix2 r 0)) * x3 (ix2 q f) := by
    refine (RowsCols.matmul_zero_apply dims_blk none _ _ r f).trans (Finset.sum_congr rfl fun q _ => ?_)
    show Ideal.div (x0 (ix2 r q)) (broadcastTo S10000x16 x1 broadcasts_S10000x1_S10000x16 (ix2 r q)) * x3 (ix2 q f) = _
    rw [bcol_apply]
  have e2 : matmul (F := Ideal) dot_S10000x16_S16x16_S10000x16_1_0_0_1_n_n none
        (truncf .bf16 x2 bitsLt_bf16_f32) (truncf .bf16 x4 bitsLt_bf16_f32) (constant S10000x16 .f32 0x00000000#32) (ix2 r f)
      = ∑ q : Fin 16, x2 (ix2 r q) * x4 (ix2 q f) :=
    RowsCols.matmul_zero_apply dims_blk none _ _ r f
  have e3 := brow_apply x5 r f
  exact congrArg₂ max (congrArg₂ HAdd.hAdd (congrArg₂ HAdd.hAdd e1 e2) e3) rfl

theorem hz : (![0, 0] : Fin 2 → Nat) = fun _ => 0 := funext fun a => by fin_cases a <;> rfl

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem blk_apply (A : FVec Ideal S100000x16 .f32) (D : FVec Ideal S100000x1 .f32) (H : FVec Ideal S100000x16 .f32)
    (WL WR : FVec Ideal S16x16 .f32) (B : FVec Ideal S1x16 .f32)
    (x0 : Vec Ideal S10000x16 .f32) (x1 : Vec Ideal S10000x1 .f32) (x2 : Vec Ideal S10000x16 .f32)
    (x3 x4 : Vec Ideal S16x16 .f32) (x5 : Vec Ideal S1x16 .f32) (r : Fin 10000) (f : Fin 16) (n : Fin 100000)
    (h0 : ∀ q : Fin 16, x0 (ix2 r q) = A (ix2 n q)) (h1 : x1 (ix2 r 0) = D (ix2 n 0))
    (h2 : ∀ q : Fin 16, x2 (ix2 r q) = H (ix2 n q)) (h3 : ∀ q : Fin 16, x3 (ix2 q f) = WL (ix2 q f))
    (h4 : ∀ q : Fin 16, x4 (ix2 q f) = WR (ix2 q f)) (h5 : x5 (ix2 0 f) = B (ix2 0 f)) :
    k2_pay1 (F := Ideal) x0 x1 x2 x3 x4 x5 (ix2 r f) = sage2At A D H WL WR B n f := by
  rw [pay_apply]
  unfold sage2At
  rw [h1, h5]
  simp only [h0, h2, h3, h4]

variable (V : (c : Dev nD) → (b : Ref sig .tc) → Buf (Elt Ideal) ((c : Thread nD τ).loc b))

theorem flushed_eq (c : Dev nD) (t : Fin cfg2.N) :
    (dat2 V c).flushed 6 t = ((cfg2.win 6).blk t).view.read (Elt Ideal)
      (sage2 (V c main_v49) (V c main_v10) (V c main_v39) (V c main_v50) (V c main_v51) (V c main_v52)) := by
  show (cfg2.win 6).cut (grid2.coords t) ((dat2 V c).after 6 t) = _
  rw [after2_6]
  unfold out2_6
  rw [View.canon_unit_zero hz]
  simp only [View.ld_unit_zero (S := S10000x16) hz, View.ld_unit_zero (S := S10000x1) hz, View.ld_unit_zero (S := S16x16) hz, View.ld_unit_zero (S := S1x16) hz]
  funext j
  obtain ⟨r, f, rfl⟩ : ∃ (r : Fin 10000) (f : Fin 16), j = ix2 r f := ⟨j 0, j 1, eq_ix2 j⟩
  obtain ⟨a00, a01, a10, a11, a20, a21, a30, a31, a40, a41, a50, a51, a60, a61⟩ := idx_facts t
  have ht : t.val < 10 := lt_of_lt_of_eq t.isLt N_2
  show k2_pay1 (F := Ideal) (iblk2 V c 0 t) (iblk2 V c 1 t) (iblk2 V c 2 t) (iblk2 V c 3 t) (iblk2 V c 4 t) (iblk2 V c 5 t) (ix2 r f)
    = sage2 (V c main_v49) (V c main_v10) (V c main_v39) (V c main_v50) (V c main_v51) (V c main_v52) (((cfg2.win 6).blk t).view.emb (ix2 r f))
  have hn : t.val * 10000 + r.val < 100000 := by have := r.isLt; omega
  have he : ((cfg2.win 6).blk t).view.emb (ix2 r f) = ix2 (⟨t.val * 10000 + r.val, hn⟩ : Fin 100000) f := by
    funext a; apply Fin.ext
    match a with
    | ⟨0, _⟩ => show win2_6.index t (0 : Fin 2) * 10000 + 1 * r.val = t.val * 10000 + r.val; rw [a60]; omega
    | ⟨1, _⟩ => show win2_6.index t (1 : Fin 2) * 16 + 1 * f.val = f.val; rw [a61]; omega
  rw [he, sage2_apply]
  refine blk_apply (V c main_v49) (V c main_v10) (V c main_v39) (V c main_v50) (V c main_v51) (V c main_v52)
    (iblk2 V c 0 t) (iblk2 V c 1 t) (iblk2 V c 2 t) (iblk2 V c 3 t) (iblk2 V c 4 t) (iblk2 V c 5 t) r f
    ⟨t.val * 10000 + r.val, hn⟩ ?_ ?_ ?_ ?_ ?_ ?_
  · intro q
    show V c main_v49 (((cfg2.win 0).blk t).view.emb (ix2 r q)) = V c main_v49 (ix2 (⟨t.val * 10000 + r.val, hn⟩ : Fin 100000) q)
    refine congrArg (V c main_v49) ?_
    funext a; apply Fin.ext
    match a with
    | ⟨0, _⟩ => show win2_0.index t (0 : Fin 2) * 10000 + 1 * r.val = t.val * 10000 + r.val; rw [a00]; omega
    | ⟨1, _⟩ => show win2_0.index t (1 : Fin 2) * 16 + 1 * q.val = q.val; rw [a01]; omega
  · show V c main_v10 (((cfg2.win 1).blk t).view.emb (ix2 r 0)) = V c main_v10 (ix2 (⟨t.val * 10000 + r.val, hn⟩ : Fin 100000) 0)
    refine congrArg (V c main_v10) ?_
    funext a; apply Fin.ext
    match a with
    | ⟨0, _⟩ => show win2_1.index t (0 : Fin 2) * 10000 + 1 * r.val = t.val * 10000 + r.val; rw [a10]; omega
    | ⟨1, _⟩ => show win2_1.index t (1 : Fin 2) * 1 + 1 * 0 = 0; rw [a11]
  · intro q
    show V c main_v39 (((cfg2.win 2).blk t).view.emb (ix2 r q)) = V c main_v39 (ix2 (⟨t.val * 10000 + r.val, hn⟩ : Fin 100000) q)
    refine congrArg (V c main_v39) ?_
    funext a; apply Fin.ext
    match a with
    | ⟨0, _⟩ => show win2_2.index t (0 : Fin 2) * 10000 + 1 * r.val = t.val * 10000 + r.val; rw [a20]; omega
    | ⟨1, _⟩ => show win2_2.index t (1 : Fin 2) * 16 + 1 * q.val = q.val; rw [a21]; omega
  · intro q
    show V c main_v50 (((cfg2.win 3).blk t).view.emb (ix2 q f)) = V c main_v50 (ix2 q f)
    refine congrArg (V c main_v50) ?_
    funext a; apply Fin.ext
    match a with
    | ⟨0, _⟩ => show win2_3.index t (0 : Fin 2) * 16 + 1 * q.val = q.val; rw [a30]; omega
    | ⟨1, _⟩ => show win2_3.index t (1 : Fin 2) * 16 + 1 * f.val = f.val; rw [a31]; omega
  · intro q
    show V c main_v51 (((cfg2.win 4).blk t).view.emb (ix2 q f)) = V c main_v51 (ix2 q f)
    refine congrArg (V c main_v51) ?_
    funext a; apply Fin.ext
    match a with
    | ⟨0, _⟩ => show win2_4.index t (0 : Fin 2) * 16 + 1 * q.val = q.val; rw [a40]; omega
    | ⟨1, _⟩ => show win2_4.index t (1 : Fin 2) * 16 + 1 * f.val = f.val; rw [a41]; omega
  · show V c main_v52 (((cfg2.win 5).blk t).view.emb (ix2 0 f)) = V c main_v52 (ix2 0 f)
    refine congrArg (V c main_v52) ?_
    funext a; apply Fin.ext
    match a with
    | ⟨0, _⟩ => show win2_5.index t (0 : Fin 2) * 1 + 1 * 0 = 0; rw [a50]
    | ⟨1, _⟩ => show win2_5.index t (1 : Fin 2) * 16 + 1 * f.val = f.val; rw [a51]; omega

theorem mem_blk (t : Fin cfg2.N) (i : S100000x16.Idx) :
    i ∈ ((cfg2.win 6).blk t).view.set ↔ ∀ a : Fin 2, win2_6.index t a * S10000x16.size a ≤ (i a).val
      ∧ (i a).val < win2_6.index t a * S10000x16.size a + S10000x16.size a := by
  show i ∈ ((View.whole main_v53).slice (win2_6.rect t)).set ↔ _
  rw [View.set_slice_whole, Rect.mem_set_unit]
  exact Iff.rfl

theorem cover (i : S100000x16.Idx) :
    ∃ t : Fin cfg2.N, (cfg2.win 6).flush t = true ∧ i ∈ ((cfg2.win 6).blk t).view.set := by
  have hi0 : (i 0).val < 100000 := (i 0).isLt
  have hi1 : (i 1).val < 16 := (i 1).isLt
  have hN : cfg2.N = 10 := N_2
  have hq : (i 0).val / 10000 < cfg2.N := by rw [hN]; omega
  obtain ⟨-, -, -, -, -, -, -, -, -, -, -, -, a60, a61⟩ := idx_facts ⟨(i 0).val / 10000, hq⟩
  refine ⟨⟨(i 0).val / 10000, hq⟩, flush2_6 _, ?_⟩
  rw [mem_blk]
  intro a
  match a with
  | ⟨0, _⟩ =>
    show win2_6.index ⟨(i 0).val / 10000, hq⟩ (0 : Fin 2) * 10000 ≤ (i 0).val
      ∧ (i 0).val < win2_6.index ⟨(i 0).val / 10000, hq⟩ (0 : Fin 2) * 10000 + 10000
    rw [a60]; show (i 0).val / 10000 * 10000 ≤ (i 0).val ∧ (i 0).val < (i 0).val / 10000 * 10000 + 10000; omega
  | ⟨1, _⟩ =>
    show win2_6.index ⟨(i 0).val / 10000, hq⟩ (1 : Fin 2) * 16 ≤ (i 1).val
      ∧ (i 1).val < win2_6.index ⟨(i 0).val / 10000, hq⟩ (1 : Fin 2) * 16 + 16
    rw [a61]; omega

theorem final (c : Dev nD) : (dat2 V c).arrAt 6 cfg2.N
    = sage2 (V c main_v49) (V c main_v10) (V c main_v39) (V c main_v50) (V c main_v51) (V c main_v52) :=
  (dat2 V c).arrAt_eq_of_cover 6 _ (fun t _ => flushed_eq V c t) cover

variable (m : (ℓ : Loc nD τ sig) → Buf (Elt Ideal) ℓ) (ρ : Dev nD → PrngReg)

theorem kernel_out (c : Dev nD) : W6 m ρ c (Proc.devRef .tc main_v53)
    = sage2 (V5 m ρ c main_v49) (V5 m ρ c main_v10) (V5 m ρ c main_v39) (V5 m ρ c main_v50) (V5 m ρ c main_v51)
        (V5 m ρ c main_v52) :=
  (W6_arr m ρ c 6).trans (final (V5 m ρ) c)

end Cert.Bridge.StageC

end
-- ==== Proof.StageCKernelIn.lean ====
import proofs.«428246_j33844342293317_2_alg».proof.Proof.Gen.KernelIdeal.Frame
import Idealize.ShloMosaic.Lib.ValueIdx

noncomputable section

namespace Cert.Bridge.StageC.K

open Cert.KernelIdeal Cert.KernelIdeal.Gen
open Idealize.ShloMosaic Idealize.ShloMosaic.TcCoe Idealize.SL.Sem Idealize.ShloMosaic.ValueIdx

def srcOf (e : IVec S2x1600000 32) : IVec S1600000 32 :=
  shapeCast S1600000 (extractStridedSlice S1x1600000 ![0, 0] e slices_S2x1600000_S1x1600000_0_0) shapeCasts_S1x1600000_S1600000

def dstOf (e : IVec S2x1600000 32) : IVec S1600000 32 :=
  shapeCast S1600000 (extractStridedSlice S1x1600000 ![1, 0] e slices_S2x1600000_S1x1600000_1_0) shapeCasts_S1x1600000_S1600000

def degOf (dst : IVec S1600000 32) : FVec Ideal S100000x1 .f32 :=
  broadcastInDim S100000x1 ![0] bcast_S100000_S100000x1_0
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

def aggOf (h : FVec Ideal S100000x16 .f32) (src dst : IVec S1600000 32) : FVec Ideal S100000x16 .f32 :=
  Host.scatterAdd (F := Ideal) scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 dst)
    (Host.gather gather_S100000x16_S1600000x1_S1600000x16_1_0_n_n_0_1_116 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

macro "keep_through " s:ident : tactic => `(tactic|
  exact StableHlo.after_of_forall_not_mem _ _ (List.forall_iff_forall_mem.mp (by
    simp only [$s:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

theorem host0_v1 (c : Dev nD) (V : Valuation τ sig (Elt Ideal)) (R : Buf (Elt Ideal) ((c.tc : Thread nD τ).loc main_v1))
    (hR : R = srcOf (V (Proc.devRef .tc main_arg1))) : StableHlo.after hostOps0 V (Proc.devRef .tc main_v1) = R := by
  unfold hostOps0
  after_results_simp
  subst hR
  rfl

theorem host0_v3 (c : Dev nD) (V : Valuation τ sig (Elt Ideal)) (R : Buf (Elt Ideal) ((c.tc : Thread nD τ).loc main_v3))
    (hR : R = dstOf (V (Proc.devRef .tc main_arg1))) : StableHlo.after hostOps0 V (Proc.devRef .tc main_v3) = R := by
  unfold hostOps0
  after_results_simp
  subst hR
  rfl

theorem host0_v10 (c : Dev nD) (V : Valuation τ sig (Elt Ideal)) (R : Buf (Elt Ideal) ((c.tc : Thread nD τ).loc main_v10))
    (hR : R = degOf (dstOf (V (Proc.devRef .tc main_arg1)))) : StableHlo.after hostOps0 V (Proc.devRef .tc main_v10) = R := by
  unfold hostOps0
  after_results_simp
  subst hR
  unfold degOf dstOf
  rfl

theorem host2_v49 (c : Dev nD) (V : Valuation τ sig (Elt Ideal)) (R : Buf (Elt Ideal) ((c.tc : Thread nD τ).loc main_v49))
    (hR : R = aggOf (V (Proc.devRef .tc main_v39)) (V (Proc.devRef .tc main_v1)) (V (Proc.devRef .tc main_v3))) :
    StableHlo.after hostOps2 V (Proc.devRef .tc main_v49) = R := by
  unfold hostOps2
  after_results_simp
  subst hR
  unfold aggOf
  rfl

theorem host2_v50 (c : Dev nD) (V : Valuation τ sig (Elt Ideal)) (R : Buf (Elt Ideal) ((c.tc : Thread nD τ).loc main_v50))
    (hR : R = transpose S16x16 [1, 0] (V (Proc.devRef .tc main_arg8)) transposes_S16x16_S16x16_1_0) :
    StableHlo.after hostOps2 V (Proc.devRef .tc main_v50) = R := by
  unfold hostOps2
  after_results_simp
  subst hR
  rfl

theorem host2_v51 (c : Dev nD) (V : Valuation τ sig (Elt Ideal)) (R : Buf (Elt Ideal) ((c.tc : Thread nD τ).loc main_v51))
    (hR : R = transpose S16x16 [1, 0] (V (Proc.devRef .tc main_arg9)) transposes_S16x16_S16x16_1_0) :
    StableHlo.after hostOps2 V (Proc.devRef .tc main_v51) = R := by
  unfold hostOps2
  after_results_simp
  subst hR
  rfl

theorem host2_v52 (c : Dev nD) (V : Valuation τ sig (Elt Ideal)) (R : Buf (Elt Ideal) ((c.tc : Thread nD τ).loc main_v52))
    (hR : R = shapeCast S1x16 (V (Proc.devRef .tc main_arg10)) shapeCasts_S16_S1x16) :
    StableHlo.after hostOps2 V (Proc.devRef .tc main_v52) = R := by
  unfold hostOps2
  after_results_simp
  subst hR
  rfl

variable (m : (ℓ : Loc nD τ sig) → Buf (Elt Ideal) ℓ) (ρ : Dev nD → PrngReg) (c : Dev nD)

theorem W4_of_W1 (b : Ref sig .tc) (h0 : ∀ w, Pipeline.arrRef spec0 w ≠ b) (h1 : ∀ w, Pipeline.arrRef spec1 w ≠ b)
    (hk : StableHlo.after hostOps1 (W2 m ρ c) (Proc.devRef .tc b) = W2 m ρ c (Proc.devRef .tc b)) :
    W4 m ρ c (Proc.devRef .tc b) = W1 m ρ c (Proc.devRef .tc b) :=
  (W4_of_ne m ρ c b h1).trans (hk.trans (W2_of_ne m ρ c b h0))

theorem W4_v1 : W4 m ρ c (Proc.devRef .tc main_v1) = srcOf (m ((c.tc : Thread nD τ).loc main_arg1)) :=
  (W4_of_W1 m ρ c main_v1 (by decide) (by decide) (by keep_through hostOps1)).trans (host0_v1 c (W0 m ρ c) _ rfl)

theorem W4_v3 : W4 m ρ c (Proc.devRef .tc main_v3) = dstOf (m ((c.tc : Thread nD τ).loc main_arg1)) :=
  (W4_of_W1 m ρ c main_v3 (by decide) (by decide) (by keep_through hostOps1)).trans (host0_v3 c (W0 m ρ c) _ rfl)

theorem W4_arg8 : W4 m ρ c (Proc.devRef .tc main_arg8) = m ((c.tc : Thread nD τ).loc main_arg8) :=
  (W4_of_W1 m ρ c main_arg8 (by decide) (by decide) (by keep_through hostOps1)).trans
    (show StableHlo.after hostOps0 (W0 m ρ c) (Proc.devRef .tc main_arg8) = W0 m ρ c (Proc.devRef .tc main_arg8) by keep_through hostOps0)
theorem W4_arg9 : W4 m ρ c (Proc.devRef .tc main_arg9) = m ((c.tc : Thread nD τ).loc main_arg9) :=
  (W4_of_W1 m ρ c main_arg9 (by decide) (by decide) (by keep_through hostOps1)).trans
    (show StableHlo.after hostOps0 (W0 m ρ c) (Proc.devRef .tc main_arg9) = W0 m ρ c (Proc.devRef .tc main_arg9) by keep_through hostOps0)
theorem W4_arg10 : W4 m ρ c (Proc.devRef .tc main_arg10) = m ((c.tc : Thread nD τ).loc main_arg10) :=
  (W4_of_W1 m ρ c main_arg10 (by decide) (by decide) (by keep_through hostOps1)).trans
    (show StableHlo.after hostOps0 (W0 m ρ c) (Proc.devRef .tc main_arg10) = W0 m ρ c (Proc.devRef .tc main_arg10) by keep_through hostOps0)

theorem in_h : V5 m ρ c main_v39 = W4 m ρ c (Proc.devRef .tc main_v39) := by
  show StableHlo.after hostOps2 (W4 m ρ c) (Proc.devRef .tc main_v39) = _
  keep_through hostOps2

theorem in_deg : V5 m ρ c main_v10 = degOf (dstOf (m ((c.tc : Thread nD τ).loc main_arg1))) :=
  calc V5 m ρ c main_v10
    _ = W4 m ρ c (Proc.devRef .tc main_v10) := by
        show StableHlo.after hostOps2 (W4 m ρ c) (Proc.devRef .tc main_v10) = _
        keep_through hostOps2
    _ = W3 m ρ c (Proc.devRef .tc main_v10) := W4_of_ne m ρ c main_v10 (by decide)
    _ = W2 m ρ c (Proc.devRef .tc main_v10) := by
        show StableHlo.after hostOps1 (W2 m ρ c) (Proc.devRef .tc main_v10) = _
        keep_through hostOps1
    _ = W1 m ρ c (Proc.devRef .tc main_v10) :=
        (W2_arr m ρ c 1).trans (((dat0 (V1 m ρ) c).arrAt_in 1 rfl _).trans (A_eq0 (V1 m ρ) c 1))
    _ = degOf (dstOf (m ((c.tc : Thread nD τ).loc main_arg1))) := host0_v10 c (W0 m ρ c) _ rfl

theorem in_agg : V5 m ρ c main_v49 = aggOf (W4 m ρ c (Proc.devRef .tc main_v39))
    (srcOf (m ((c.tc : Thread nD τ).loc main_arg1))) (dstOf (m ((c.tc : Thread nD τ).loc main_arg1))) :=
  (host2_v49 c (W4 m ρ c) _ rfl).trans (by rw [W4_v1, W4_v3])

theorem in_wl : V5 m ρ c main_v50
    = transpose S16x16 [1, 0] (m ((c.tc : Thread nD τ).loc main_arg8)) transposes_S16x16_S16x16_1_0 :=
  (host2_v50 c (W4 m ρ c) _ rfl).trans (by rw [W4_arg8])
theorem in_wr : V5 m ρ c main_v51
    = transpose S16x16 [1, 0] (m ((c.tc : Thread nD τ).loc main_arg9)) transposes_S16x16_S16x16_1_0 :=
  (host2_v51 c (W4 m ρ c) _ rfl).trans (by rw [W4_arg9])
theorem in_b : V5 m ρ c main_v52 = shapeCast S1x16 (m ((c.tc : Thread nD τ).loc main_arg10)) shapeCasts_S16_S1x16 :=
  (host2_v52 c (W4 m ρ c) _ rfl).trans (by rw [W4_arg10])

end Cert.Bridge.StageC.K

end
-- ==== Proof.StageCRef.lean ====
import proofs.«428246_j33844342293317_2_alg».proof.Proof.RefRun
import proofs.«428246_j33844342293317_2_alg».proof.Proof.StageCSpec
import Idealize.ShloMosaic.Lib.Pipeline.Value
import Idealize.ShloMosaic.Lib.ValueIdx
import Idealize.ShloMosaic.PureOps.Ideal.Laws

noncomputable section

open scoped BigOperators

namespace Cert.Bridge.StageC.R

open Cert.Bridge.StageC
open Cert.ReferenceIdeal Cert.ReferenceIdeal.RefRun Cert.ReferenceIdeal.RefOps
open Idealize.ShloMosaic Idealize.ShloMosaic.TcCoe Idealize.SL.Sem Idealize.ShloMosaic.ValueIdx

def aggOf (h : FVec Ideal S100000x16 .f32) (src dst : IVec S1600000 32) : FVec Ideal S100000x16 .f32 :=
  Host.scatterAdd (F := Ideal) scatter_S100000x16_S1600000x1_S1600000x16_1_0_0_1
    (broadcastInDim S100000x16 ![] Gen.bcast_S_S100000x16 (constant (F := Ideal) S_ .f32 0x00000000#32))
    (broadcastInDim S1600000x1 ![0] Gen.bcast_S1600000_S1600000x1_0 dst)
    (Host.gather gather_S100000x16_S1600000x1_S1600000x16_1_0_n_n_0_1_116 h
      (broadcastInDim S1600000x1 ![0] Gen.bcast_S1600000_S1600000x1_0
        (select (cmpi .slt src (broadcastInDim S1600000 ![] Gen.bcast_S_S1600000 (constantI S_ 32 0#32)))
          (addi src (broadcastInDim S1600000 ![] Gen.bcast_S_S1600000 (constantI S_ 32 100000#32))) src)))

def refLayer (A : FVec Ideal S100000x16 .f32) (D : FVec Ideal S100000x1 .f32) (H : FVec Ideal S100000x16 .f32)
    (WL WR : FVec Ideal S16x16 .f32) (b : FVec Ideal S16 .f32) : FVec Ideal S100000x16 .f32 :=
  maximumf
    (addf
      (addf
        (Host.dotGeneral (F := Ideal) dot_S100000x16_S16x16_S100000x16_1_0_0_1_n_n none
          (Host.divf (F := Ideal) A (broadcastInDim S100000x16 ![0, 1] Gen.bcast_S100000x1_S100000x16_0_1 D)) WL)
        (Host.dotGeneral (F := Ideal) dot_S100000x16_S16x16_S100000x16_1_0_0_1_n_n none H WR))
      (broadcastInDim S100000x16 ![0, 1] Gen.bcast_S1x16_S100000x16_0_1 (broadcastInDim S1x16 ![1] Gen.bcast_S16_S1x16_1 b)))
    (broadcastInDim S100000x16 ![] Gen.bcast_S_S100000x16 (constant (F := Ideal) S_ .f32 0x00000000#32))

theorem ref_term_of (c : Dev nD) (V : Valuation τ sig (Elt Ideal)) (R : Buf (Elt Ideal) ((c.tc : Thread nD τ).loc main_v71))
    (hR : R = refLayer (aggOf (V (Proc.devRef .tc main_v50)) (V (Proc.devRef .tc main_v1)) (V (Proc.devRef .tc main_v3)))
        (V (Proc.devRef .tc main_v10)) (V (Proc.devRef .tc main_v50))
        (transpose S16x16 [1, 0] (V (Proc.devRef .tc main_arg8)) Gen.transposes_S16x16_S16x16_1_0)
        (transpose S16x16 [1, 0] (V (Proc.devRef .tc main_arg9)) Gen.transposes_S16x16_S16x16_1_0)
        (V (Proc.devRef .tc main_arg10))) :
    StableHlo.after main_part1_ops2 (StableHlo.after main_part1_ops1 V) (Proc.devRef .tc main_v71) = R := by
  unfold main_part1_ops1 main_part1_ops2
  after_results_simp
  simp only [cast_eq]
  subst hR
  unfold refLayer aggOf
  rfl

variable (m' : (ℓ : Loc nD τ sig) → Buf (Elt Ideal) ℓ) (c : Dev nD)

theorem stage_split : U3 m' c (Proc.devRef .tc main_v71)
    = StableHlo.after main_part1_ops2 (StableHlo.after main_part1_ops1 (U2 m' c)) (Proc.devRef .tc main_v71) := by
  show StableHlo.after (stageC (F := Ideal)).flatten (U2 m' c) (Proc.devRef .tc main_v71) = _
  generalize U2 m' c = V
  simp only [stageC, List.flatten_cons, List.flatten_nil, List.append_nil, StableHlo.after_append]

theorem ref_term : U3 m' c (Proc.devRef .tc main_v71)
    = refLayer (aggOf (U2 m' c (Proc.devRef .tc main_v50)) (U2 m' c (Proc.devRef .tc main_v1)) (U2 m' c (Proc.devRef .tc main_v3)))
        (U2 m' c (Proc.devRef .tc main_v10)) (U2 m' c (Proc.devRef .tc main_v50))
        (transpose S16x16 [1, 0] (U2 m' c (Proc.devRef .tc main_arg8)) Gen.transposes_S16x16_S16x16_1_0)
        (transpose S16x16 [1, 0] (U2 m' c (Proc.devRef .tc main_arg9)) Gen.transposes_S16x16_S16x16_1_0)
        (U2 m' c (Proc.devRef .tc main_arg10)) :=
  (stage_split m' c).trans (ref_term_of c (U2 m' c) _ rfl)

theorem dims_whole : RowsCols (n := 100000) (K := 16) (c := 16) dot_S100000x16_S16x16_S100000x16_1_0_0_1_n_n :=
  ⟨rfl, rfl, rfl, rfl, rfl, rfl⟩

theorem bcolR_apply (D : FVec Ideal S100000x1 .f32) (n : Fin 100000) (q : Fin 16) :
    broadcastInDim S100000x16 ![0, 1] Gen.bcast_S100000x1_S100000x16_0_1 D (ix2 n q) = D (ix2 n 0) := by
  refine broadcastInDim_apply ![0, 1] _ D (ix2 n q) (ix2 n 0) ?_
  intro a
  match a with
  | ⟨0, _⟩ => rfl
  | ⟨1, _⟩ => rfl

theorem browR_apply (y : FVec Ideal S1x16 .f32) (n : Fin 100000) (f : Fin 16) :
    broadcastInDim S100000x16 ![0, 1] Gen.bcast_S1x16_S100000x16_0_1 y (ix2 n f) = y (ix2 0 f) := by
  refine broadcastInDim_apply ![0, 1] _ y (ix2 n f) (ix2 0 f) ?_
  intro a
  match a with
  | ⟨0, _⟩ => rfl
  | ⟨1, _⟩ => rfl

theorem bzeroR_apply (n : Fin 100000) (f : Fin 16) :
    broadcastInDim S100000x16 ![] Gen.bcast_S_S100000x16 (constant (F := Ideal) S_ .f32 0x00000000#32) (ix2 n f)
      = Ideal.ofBits .f32 0x00000000#32 := by
  refine (broadcastInDim_apply ![] _ (constant (F := Ideal) S_ .f32 0x00000000#32) (ix2 n f) ix0 ?_).trans rfl
  intro a
  exact a.elim0

theorem refLayer_apply (A : FVec Ideal S100000x16 .f32) (D : FVec Ideal S100000x1 .f32) (H : FVec Ideal S100000x16 .f32)
    (WL WR : FVec Ideal S16x16 .f32) (b : FVec Ideal S16 .f32) (n : Fin 100000) (f : Fin 16) :
    refLayer A D H WL WR b (ix2 n f)
      = sage2At A D H WL WR (broadcastInDim S1x16 ![1] Gen.bcast_S16_S1x16_1 b) n f := by
  unfold refLayer sage2At
  have e1 : Host.dotGeneral (F := Ideal) dot_S100000x16_S16x16_S100000x16_1_0_0_1_n_n none
        (Host.divf (F := Ideal) A (broadcastInDim S100000x16 ![0, 1] Gen.bcast_S100000x1_S100000x16_0_1 D)) WL (ix2 n f)
      = ∑ q : Fin 16, Ideal.div (A (ix2 n q)) (D (ix2 n 0)) * WL (ix2 q f) := by
    refine (RowsCols.dotGeneral_apply dims_whole none _ _ n f).trans (Finset.sum_congr rfl fun q _ => ?_)
    show Ideal.div (A (ix2 n q)) (broadcastInDim S100000x16 ![0, 1] Gen.bcast_S100000x1_S100000x16_0_1 D (ix2 n q)) * WL (ix2 q f) = _
    rw [bcolR_apply]
  have e2 : Host.dotGeneral (F := Ideal) dot_S100000x16_S16x16_S100000x16_1_0_0_1_n_n none H WR (ix2 n f)
      = ∑ q : Fin 16, H (ix2 n q) * WR (ix2 q f) := RowsCols.dotGeneral_apply dims_whole none H WR n f
  have e3 := browR_apply (broadcastInDim S1x16 ![1] Gen.bcast_S16_S1x16_1 b) n f
  have e4 := bzeroR_apply n f
  exact congrArg₂ max (congrArg₂ HAdd.hAdd (congrArg₂ HAdd.hAdd e1 e2) e3) e4

theorem ref_apply (n : Fin 100000) (f : Fin 16) : U3 m' c (Proc.devRef .tc main_v71) (ix2 n f)
    = sage2At (aggOf (U2 m' c (Proc.devRef .tc main_v50)) (U2 m' c (Proc.devRef .tc main_v1)) (U2 m' c (Proc.devRef .tc main_v3)))
        (U2 m' c (Proc.devRef .tc main_v10)) (U2 m' c (Proc.devRef .tc main_v50))
        (transpose S16x16 [1, 0] (U2 m' c (Proc.devRef .tc main_arg8)) Gen.transposes_S16x16_S16x16_1_0)
        (transpose S16x16 [1, 0] (U2 m' c (Proc.devRef .tc main_arg9)) Gen.transposes_S16x16_S16x16_1_0)
        (broadcastInDim S1x16 ![1] Gen.bcast_S16_S1x16_1 (U2 m' c (Proc.devRef .tc main_arg10))) n f :=
  (congrFun (ref_term m' c) (ix2 n f)).trans (refLayer_apply _ _ _ _ _ _ n f)

end Cert.Bridge.StageC.R

end
-- ==== Proof.LibKeeps.lean ====
import Idealize.ShloMosaic.Lib.StableHlo.Run

namespace Idealize.ShloMosaic.StableHlo

open Idealize.SL.Sem

variable {τ : Topo} {sig : RefSig} {Val : EltTy → Type}

/-- `f` leaves every buffer outside `W` as it found it. -/
abbrev Keeps (f : Valuation τ sig Val → Valuation τ sig Val) (W : List (Ref sig .tc)) : Prop :=
  ∀ (V : Valuation τ sig Val) (r : Ref sig .tc), r ∉ W → f V (Proc.devRef .tc r) = V (Proc.devRef .tc r)

/-- A line of host operations keeps what none of them writes. -/
theorem Keeps.of_writes {ops : List (HloOp τ sig Val)} {W : List (Ref sig .tc)}
    (h : ops.Forall fun op => op.writes ⊆ (W.map (Proc.devRef (τ := τ) .tc)).toFinset) : Keeps (after ops) W :=
  fun V _ hr => after_of_writes_sub ops V h hr

/-- What neither of two steps writes, the two in a row keep. -/
theorem Keeps.comp {f g : Valuation τ sig Val → Valuation τ sig Val} {W₁ W₂ : List (Ref sig .tc)}
    (hf : Keeps f W₁) (hg : Keeps g W₂) : Keeps (fun V => g (f V)) (W₁ ++ W₂) :=
  fun V r h => (hg _ r fun h' => h (List.mem_append_right _ h')).trans (hf V r fun h' => h (List.mem_append_left _ h'))

end Idealize.ShloMosaic.StableHlo
-- ==== Proof.RefOpsKeep.lean ====
import proofs.«428246_j33844342293317_2_alg».proof.Proof.RefOpsTable
import proofs.«428246_j33844342293317_2_alg».proof.Proof.LibKeeps

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

-- Per stretch: the buffers its operations write, in order; any other buffer keeps its contents through the stretch.
abbrev main_part0_ops0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_cst_3, main_v18, main_v19, main_v20, main_v21, main_v22, main_v23, main_v24, main_v25, main_v26, main_v27, main_v28, main_v29, main_v30]
theorem main_part0_ops0_keep : Keeps (after (main_part0_ops0 (F := F))) main_part0_ops0_W := .of_writes (by
  simp only [List.Forall, nullary_writes, unary_writes, binary_writes, ternary_writes, reshape_writes, Finset.singleton_subset_iff, List.mem_toFinset]
  repeat' apply And.intro
  all_goals exact List.mem_map_of_mem (by decide))
abbrev main_part0_ops1_W : List (Ref sig .tc) := [(main_call0.cst).ref, (main_call0.v0).ref, (main_call0.v1).ref]
theorem main_part0_ops1_keep : Keeps (after (main_part0_ops1 (F := F))) main_part0_ops1_W := .of_writes (by
  simp only [List.Forall, nullary_writes, unary_writes, binary_writes, ternary_writes, reshape_writes, Finset.singleton_subset_iff, List.mem_toFinset]
  repeat' apply And.intro
  all_goals exact List.mem_map_of_mem (by decide))
abbrev main_part0_ops2_W : List (Ref sig .tc) := [main_cst_4, main_v32, main_cst_5, main_v33, main_v34, main_c_6]
theorem main_part0_ops2_keep : Keeps (after (main_part0_ops2 (F := F))) main_part0_ops2_W := .of_writes (by
  simp only [List.Forall, nullary_writes, unary_writes, binary_writes, ternary_writes, reshape_writes, Finset.singleton_subset_iff, List.mem_toFinset]
  repeat' apply And.intro
  all_goals exact List.mem_map_of_mem (by decide))
abbrev main_part0_ops3_W : List (Ref sig .tc) := [(main_call1.cst).ref, (main_call1.v0).ref, (main_call1.v1).ref, (main_call1.cst_0).ref, (main_call1.v2).ref, (main_call1.v3).ref, (main_call1.v4).ref, (main_call1.v5).ref, (main_call1.v6).ref, (main_call1.v7).ref, (main_call1.cst_1).ref, (main_call1.v8).ref, (main_call1.cst_2).ref, (main_call1.v9).ref, (main_call1.v10).ref, (main_call1.v11).ref, (main_call1.cst_3).ref, (main_call1.v12).ref, (main_call1.cst_4).ref, (main_call1.call0.v0).ref, (main_call1.call0.v1).ref, (main_call1.call0.v2).ref]
theorem main_part0_ops3_keep : Keeps (after (main_part0_ops3 (F := F))) main_part0_ops3_W := .of_writes (by
  simp only [List.Forall, nullary_writes, unary_writes, binary_writes, ternary_writes, reshape_writes, Finset.singleton_subset_iff, List.mem_toFinset]
  repeat' apply And.intro
  all_goals exact List.mem_map_of_mem (by decide))
abbrev main_part0_ops4_W : List (Ref sig .tc) := [main_v36, main_v37, main_v38, main_cst_7, main_v39, main_v40, main_v41, main_v42, main_v43, main_v44, main_v45, main_v46, main_v47, main_v48, main_v49]
theorem main_part0_ops4_keep : Keeps (after (main_part0_ops4 (F := F))) main_part0_ops4_W := .of_writes (by
  simp only [List.Forall, nullary_writes, unary_writes, binary_writes, ternary_writes, reshape_writes, Finset.singleton_subset_iff, List.mem_toFinset]
  repeat' apply And.intro
  all_goals exact List.mem_map_of_mem (by decide))
abbrev main_part1_ops0_W : List (Ref sig .tc) := [main_v50]
theorem main_part1_ops0_keep : Keeps (after (main_part1_ops0 (F := F))) main_part1_ops0_W := .of_writes (by
  simp only [List.Forall, nullary_writes, unary_writes, binary_writes, ternary_writes, reshape_writes, Finset.singleton_subset_iff, List.mem_toFinset]
  repeat' apply And.intro
  all_goals exact List.mem_map_of_mem (by decide))
abbrev main_part1_ops1_W : List (Ref sig .tc) := [main_c_8, main_v51, main_v52, main_c_9, main_v53, main_v54, main_v55, main_v56, main_v57, main_cst_10, main_v58, main_v59, main_v60, main_v61, main_v62, main_v63, main_v64, main_v65, main_v66, main_v67, main_v68, main_v69, main_v70]
theorem main_part1_ops1_keep : Keeps (after (main_part1_ops1 (F := F))) main_part1_ops1_W := .of_writes (by
  simp only [List.Forall, nullary_writes, unary_writes, binary_writes, ternary_writes, reshape_writes, Finset.singleton_subset_iff, List.mem_toFinset]
  repeat' apply And.intro
  all_goals exact List.mem_map_of_mem (by decide))
abbrev main_part1_ops2_W : List (Ref sig .tc) := [(main_call2.cst).ref, (main_call2.v0).ref, (main_call2.v1).ref]
theorem main_part1_ops2_keep : Keeps (after (main_part1_ops2 (F := F))) main_part1_ops2_W := .of_writes (by
  simp only [List.Forall, nullary_writes, unary_writes, binary_writes, ternary_writes, reshape_writes, Finset.singleton_subset_iff, List.mem_toFinset]
  repeat' apply And.intro
  all_goals exact List.mem_map_of_mem (by decide))
abbrev main_part1_ops3_W : List (Ref sig .tc) := [main_cst_11, main_v72, main_cst_12, main_v73, main_v74, main_v75, main_cst_13, main_v76, main_v77, main_v78, main_cst_14, main_v79, main_v80, main_v81, main_v82, main_v83]
theorem main_part1_ops3_keep : Keeps (after (main_part1_ops3 (F := F))) main_part1_ops3_W := .of_writes (by
  simp only [List.Forall, nullary_writes, unary_writes, binary_writes, ternary_writes, reshape_writes, Finset.singleton_subset_iff, List.mem_toFinset]
  repeat' apply And.intro
  all_goals exact List.mem_map_of_mem (by decide))
abbrev main_part1_ops4_W : List (Ref sig .tc) := [main_cst_15, main_v84, main_cst_16, main_v85, main_v86, main_c_17]
theorem main_part1_ops4_keep : Keeps (after (main_part1_ops4 (F := F))) main_part1_ops4_W := .of_writes (by
  simp only [List.Forall, nullary_writes, unary_writes, binary_writes, ternary_writes, reshape_writes, Finset.singleton_subset_iff, List.mem_toFinset]
  repeat' apply And.intro
  all_goals exact List.mem_map_of_mem (by decide))
abbrev main_part1_ops5_W : List (Ref sig .tc) := [(main_call3.cst).ref, (main_call3.v0).ref, (main_call3.v1).ref, (main_call3.cst_0).ref, (main_call3.v2).ref, (main_call3.v3).ref, (main_call3.v4).ref, (main_call3.v5).ref, (main_call3.v6).ref, (main_call3.v7).ref, (main_call3.cst_1).ref, (main_call3.v8).ref, (main_call3.cst_2).ref, (main_call3.v9).ref, (main_call3.v10).ref, (main_call3.v11).ref, (main_call3.cst_3).ref, (main_call3.v12).ref, (main_call3.cst_4).ref, (main_call3.call0.v0).ref, (main_call3.call0.v1).ref, (main_call3.call0.v2).ref]
theorem main_part1_ops5_keep : Keeps (after (main_part1_ops5 (F := F))) main_part1_ops5_W := .of_writes (by
  simp only [List.Forall, nullary_writes, unary_writes, binary_writes, ternary_writes, reshape_writes, Finset.singleton_subset_iff, List.mem_toFinset]
  repeat' apply And.intro
  all_goals exact List.mem_map_of_mem (by decide))
abbrev main_part1_ops6_W : List (Ref sig .tc) := [main_v88, main_v89, main_v90, main_cst_18, main_v91, main_v92, main_v93, main_v94, main_v95, main_v96, main_v97, main_v98]
theorem main_part1_ops6_keep : Keeps (after (main_part1_ops6 (F := F))) main_part1_ops6_W := .of_writes (by
  simp only [List.Forall, nullary_writes, unary_writes, binary_writes, ternary_writes, reshape_writes, Finset.singleton_subset_iff, List.mem_toFinset]
  repeat' apply And.intro
  all_goals exact List.mem_map_of_mem (by decide))
abbrev main_part2_ops0_W : List (Ref sig .tc) := [main_v99, main_v100, main_v101, main_v102, main_v103, main_v104, main_v105, main_v106, main_v107]
theorem main_part2_ops0_keep : Keeps (after (main_part2_ops0 (F := F))) main_part2_ops0_W := .of_writes (by
  simp only [List.Forall, nullary_writes, unary_writes, binary_writes, ternary_writes, reshape_writes, Finset.singleton_subset_iff, List.mem_toFinset]
  repeat' apply And.intro
  all_goals exact List.mem_map_of_mem (by decide))
abbrev main_part2_ops1_W : List (Ref sig .tc) := [(main_call4.cst).ref, (main_call4.v0).ref, (main_call4.v1).ref]
theorem main_part2_ops1_keep : Keeps (after (main_part2_ops1 (F := F))) main_part2_ops1_W := .of_writes (by
  simp only [List.Forall, nullary_writes, unary_writes, binary_writes, ternary_writes, reshape_writes, Finset.singleton_subset_iff, List.mem_toFinset]
  repeat' apply And.intro
  all_goals exact List.mem_map_of_mem (by decide))
abbrev main_part2_ops2_W : List (Ref sig .tc) := [main_v109, main_cst_19, main_v110, main_cst_20, main_v111, main_v112, main_c_21]
theorem main_part2_ops2_keep : Keeps (after (main_part2_ops2 (F := F))) main_part2_ops2_W := .of_writes (by
  simp only [List.Forall, nullary_writes, unary_writes, binary_writes, ternary_writes, reshape_writes, Finset.singleton_subset_iff, List.mem_toFinset]
  repeat' apply And.intro
  all_goals exact List.mem_map_of_mem (by decide))
abbrev main_part2_ops3_W : List (Ref sig .tc) := [(main_call5.cst).ref, (main_call5.v0).ref, (main_call5.v1).ref, (main_call5.cst_0).ref, (main_call5.v2).ref, (main_call5.v3).ref, (main_call5.v4).ref, (main_call5.v5).ref, (main_call5.v6).ref, (main_call5.v7).ref, (main_call5.cst_1).ref, (main_call5.v8).ref, (main_call5.cst_2).ref, (main_call5.v9).ref, (main_call5.v10).ref, (main_call5.v11).ref, (main_call5.cst_3).ref, (main_call5.v12).ref, (main_call5.cst_4).ref, (main_call5.call0.v0).ref, (main_call5.call0.v1).ref, (main_call5.call0.v2).ref]
theorem main_part2_ops3_keep : Keeps (after (main_part2_ops3 (F := F))) main_part2_ops3_W := .of_writes (by
  simp only [List.Forall, nullary_writes, unary_writes, binary_writes, ternary_writes, reshape_writes, Finset.singleton_subset_iff, List.mem_toFinset]
  repeat' apply And.intro
  all_goals exact List.mem_map_of_mem (by decide))
abbrev main_part2_ops4_W : List (Ref sig .tc) := [main_v114, main_v115, main_v116, main_cst_22, main_v117, main_v118, main_v119, main_v120, main_v121, main_v122, main_v123, main_v124, main_v125, main_v126, main_v127, main_v128, main_v129, main_v130, main_v131, main_v132, main_v133]
theorem main_part2_ops4_keep : Keeps (after (main_part2_ops4 (F := F))) main_part2_ops4_W := .of_writes (by
  simp only [List.Forall, nullary_writes, unary_writes, binary_writes, ternary_writes, reshape_writes, Finset.singleton_subset_iff, List.mem_toFinset]
  repeat' apply And.intro
  all_goals exact List.mem_map_of_mem (by decide))
abbrev main_part2_ops5_W : List (Ref sig .tc) := [(main_call6.cst).ref, (main_call6.v0).ref, (main_call6.v1).ref]
theorem main_part2_ops5_keep : Keeps (after (main_part2_ops5 (F := F))) main_part2_ops5_W := .of_writes (by
  simp only [List.Forall, nullary_writes, unary_writes, binary_writes, ternary_writes, reshape_writes, Finset.singleton_subset_iff, List.mem_toFinset]
  repeat' apply And.intro
  all_goals exact List.mem_map_of_mem (by decide))
abbrev main_part2_ops6_W : List (Ref sig .tc) := [main_v135, main_cst_23, main_v136, main_cst_24, main_v137, main_v138, main_c_25]
theorem main_part2_ops6_keep : Keeps (after (main_part2_ops6 (F := F))) main_part2_ops6_W := .of_writes (by
  simp only [List.Forall, nullary_writes, unary_writes, binary_writes, ternary_writes, reshape_writes, Finset.singleton_subset_iff, List.mem_toFinset]
  repeat' apply And.intro
  all_goals exact List.mem_map_of_mem (by decide))
abbrev main_part2_ops7_W : List (Ref sig .tc) := [(main_call7.cst).ref, (main_call7.v0).ref, (main_call7.v1).ref, (main_call7.cst_0).ref, (main_call7.v2).ref, (main_call7.v3).ref, (main_call7.v4).ref, (main_call7.v5).ref, (main_call7.v6).ref, (main_call7.v7).ref, (main_call7.cst_1).ref, (main_call7.v8).ref, (main_call7.cst_2).ref, (main_call7.v9).ref, (main_call7.v10).ref, (main_call7.v11).ref, (main_call7.cst_3).ref, (main_call7.v12).ref, (main_call7.cst_4).ref, (main_call7.call0.v0).ref, (main_call7.call0.v1).ref, (main_call7.call0.v2).ref]
theorem main_part2_ops7_keep : Keeps (after (main_part2_ops7 (F := F))) main_part2_ops7_W := .of_writes (by
  simp only [List.Forall, nullary_writes, unary_writes, binary_writes, ternary_writes, reshape_writes, Finset.singleton_subset_iff, List.mem_toFinset]
  repeat' apply And.intro
  all_goals exact List.mem_map_of_mem (by decide))
abbrev main_part2_ops8_W : List (Ref sig .tc) := [main_v140, main_v141, main_v142, main_cst_26, main_v143, main_v144, main_v145, main_v146, main_v147, main_v148, main_v149, main_v150]
theorem main_part2_ops8_keep : Keeps (after (main_part2_ops8 (F := F))) main_part2_ops8_W := .of_writes (by
  simp only [List.Forall, nullary_writes, unary_writes, binary_writes, ternary_writes, reshape_writes, Finset.singleton_subset_iff, List.mem_toFinset]
  repeat' apply And.intro
  all_goals exact List.mem_map_of_mem (by decide))
abbrev main_part3_ops0_W : List (Ref sig .tc) := [main_v151, main_v152, main_v153, main_v154, main_v155, main_v156, main_v157, main_v158, main_v159]
theorem main_part3_ops0_keep : Keeps (after (main_part3_ops0 (F := F))) main_part3_ops0_W := .of_writes (by
  simp only [List.Forall, nullary_writes, unary_writes, binary_writes, ternary_writes, reshape_writes, Finset.singleton_subset_iff, List.mem_toFinset]
  repeat' apply And.intro
  all_goals exact List.mem_map_of_mem (by decide))
abbrev main_part3_ops1_W : List (Ref sig .tc) := [(main_call8.cst).ref, (main_call8.v0).ref, (main_call8.v1).ref]
theorem main_part3_ops1_keep : Keeps (after (main_part3_ops1 (F := F))) main_part3_ops1_W := .of_writes (by
  simp only [List.Forall, nullary_writes, unary_writes, binary_writes, ternary_writes, reshape_writes, Finset.singleton_subset_iff, List.mem_toFinset]
  repeat' apply And.intro
  all_goals exact List.mem_map_of_mem (by decide))
abbrev main_part3_ops2_W : List (Ref sig .tc) := [main_v161, main_v162, main_v163, main_v164, main_v165]
theorem main_part3_ops2_keep : Keeps (after (main_part3_ops2 (F := F))) main_part3_ops2_W := .of_writes (by
  simp only [List.Forall, nullary_writes, unary_writes, binary_writes, ternary_writes, reshape_writes, Finset.singleton_subset_iff, List.mem_toFinset]
  repeat' apply And.intro
  all_goals exact List.mem_map_of_mem (by decide))

end Cert.ReferenceIdeal.RefOps

end
-- ==== Proof.StageCRefIn.lean ====
import proofs.«428246_j33844342293317_2_alg».proof.Proof.RefRun
import proofs.«428246_j33844342293317_2_alg».proof.Proof.RefOpsKeep
import Idealize.ShloMosaic.Lib.ValueIdx

noncomputable section

namespace Cert.Bridge.StageC.R

open Cert.ReferenceIdeal Cert.ReferenceIdeal.Gen Cert.ReferenceIdeal.RefRun Cert.ReferenceIdeal.RefOps
open Idealize.ShloMosaic Idealize.ShloMosaic.TcCoe Idealize.SL.Sem Idealize.ShloMosaic.ValueIdx

def srcOf (e : IVec S2x1600000 32) : IVec S1600000 32 :=
  shapeCast S1600000 (extractStridedSlice S1x1600000 ![0, 0] e slices_S2x1600000_S1x1600000_0_0) shapeCasts_S1x1600000_S1600000

def dstOf (e : IVec S2x1600000 32) : IVec S1600000 32 :=
  shapeCast S1600000 (extractStridedSlice S1x1600000 ![1, 0] e slices_S2x1600000_S1x1600000_1_0) shapeCasts_S1x1600000_S1600000

def degOf (dst : IVec S1600000 32) : FVec Ideal S100000x1 .f32 :=
  broadcastInDim S100000x1 ![0] bcast_S100000_S100000x1_0
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

theorem ref0_v1 (c : Dev nD) (V : Valuation τ sig (Elt Ideal)) (R : Buf (Elt Ideal) ((c.tc : Thread nD τ).loc main_v1))
    (hR : R = srcOf (V (Proc.devRef .tc main_arg1))) : StableHlo.after main_part0_ops0 V (Proc.devRef .tc main_v1) = R := by
  unfold main_part0_ops0
  after_results_simp
  subst hR
  rfl

theorem ref0_v3 (c : Dev nD) (V : Valuation τ sig (Elt Ideal)) (R : Buf (Elt Ideal) ((c.tc : Thread nD τ).loc main_v3))
    (hR : R = dstOf (V (Proc.devRef .tc main_arg1))) : StableHlo.after main_part0_ops0 V (Proc.devRef .tc main_v3) = R := by
  unfold main_part0_ops0
  after_results_simp
  subst hR
  rfl

theorem ref0_v10 (c : Dev nD) (V : Valuation τ sig (Elt Ideal)) (R : Buf (Elt Ideal) ((c.tc : Thread nD τ).loc main_v10))
    (hR : R = degOf (dstOf (V (Proc.devRef .tc main_arg1)))) : StableHlo.after main_part0_ops0 V (Proc.devRef .tc main_v10) = R := by
  unfold main_part0_ops0
  after_results_simp
  subst hR
  unfold degOf dstOf
  rfl

variable (m' : (ℓ : Loc nD τ sig) → Buf (Elt Ideal) ℓ) (c : Dev nD)

theorem U2_of_first (b : Ref sig .tc) (h1 : b ∉ (main_part0_ops1_W : List (Ref sig .tc)))
    (h2 : b ∉ (main_part0_ops2_W : List (Ref sig .tc))) (h3 : b ∉ (main_part0_ops3_W : List (Ref sig .tc)))
    (h4 : b ∉ (main_part0_ops4_W : List (Ref sig .tc))) (h5 : b ∉ (main_part1_ops0_W : List (Ref sig .tc))) :
    U2 m' c (Proc.devRef .tc b) = StableHlo.after main_part0_ops0 (U0 m' c) (Proc.devRef .tc b) := by
  show StableHlo.after (stageB (F := Ideal)).flatten (StableHlo.after (stageA (F := Ideal)).flatten (U0 m' c)) (Proc.devRef .tc b) = _
  generalize U0 m' c = V
  simp only [stageA, stageB, List.flatten_cons, List.flatten_nil, List.append_nil, StableHlo.after_append]
  rw [main_part1_ops0_keep _ b h5, main_part0_ops4_keep _ b h4, main_part0_ops3_keep _ b h3, main_part0_ops2_keep _ b h2,
    main_part0_ops1_keep _ b h1]

theorem in_src : U2 m' c (Proc.devRef .tc main_v1) = srcOf (m' ((c.tc : Thread nD τ).loc main_arg1)) :=
  (U2_of_first m' c main_v1 (by decide) (by decide) (by decide) (by decide) (by decide)).trans (ref0_v1 c (U0 m' c) _ rfl)
theorem in_dst : U2 m' c (Proc.devRef .tc main_v3) = dstOf (m' ((c.tc : Thread nD τ).loc main_arg1)) :=
  (U2_of_first m' c main_v3 (by decide) (by decide) (by decide) (by decide) (by decide)).trans (ref0_v3 c (U0 m' c) _ rfl)
theorem in_deg : U2 m' c (Proc.devRef .tc main_v10) = degOf (dstOf (m' ((c.tc : Thread nD τ).loc main_arg1))) :=
  (U2_of_first m' c main_v10 (by decide) (by decide) (by decide) (by decide) (by decide)).trans (ref0_v10 c (U0 m' c) _ rfl)

theorem in_arg8 : U2 m' c (Proc.devRef .tc main_arg8) = m' ((c.tc : Thread nD τ).loc main_arg8) :=
  (U2_of_first m' c main_arg8 (by decide) (by decide) (by decide) (by decide) (by decide)).trans
    (main_part0_ops0_keep (U0 m' c) main_arg8 (by decide))
theorem in_arg9 : U2 m' c (Proc.devRef .tc main_arg9) = m' ((c.tc : Thread nD τ).loc main_arg9) :=
  (U2_of_first m' c main_arg9 (by decide) (by decide) (by decide) (by decide) (by decide)).trans
    (main_part0_ops0_keep (U0 m' c) main_arg9 (by decide))
theorem in_arg10 : U2 m' c (Proc.devRef .tc main_arg10) = m' ((c.tc : Thread nD τ).loc main_arg10) :=
  (U2_of_first m' c main_arg10 (by decide) (by decide) (by decide) (by decide) (by decide)).trans
    (main_part0_ops0_keep (U0 m' c) main_arg10 (by decide))

end Cert.Bridge.StageC.R

end
-- ==== Proof.StageCJoin.lean ====
import proofs.«428246_j33844342293317_2_alg».proof.Proof.StageCKernelIn
import proofs.«428246_j33844342293317_2_alg».proof.Proof.StageCRef
import proofs.«428246_j33844342293317_2_alg».proof.Proof.StageCRefIn
import Idealize.ShloMosaic.Lib.Pipeline.Value

noncomputable section

namespace Cert.Bridge.StageC

open Idealize.ShloMosaic Idealize.ShloMosaic.ValueIdx

theorem srcOf_eq (e : IVec ⟨2, ![2, 1600000]⟩ 32) : K.srcOf e = R.srcOf e := rfl
theorem dstOf_eq (e : IVec ⟨2, ![2, 1600000]⟩ 32) : K.dstOf e = R.dstOf e := rfl
theorem degOf_eq (d : IVec ⟨1, ![1600000]⟩ 32) : K.degOf d = R.degOf d := rfl
theorem aggOf_eq (h : FVec Ideal ⟨2, ![100000, 16]⟩ .f32) (s d : IVec ⟨1, ![1600000]⟩ 32) : K.aggOf h s d = R.aggOf h s d := rfl

theorem transpose_eq (w : FVec Ideal ⟨2, ![16, 16]⟩ .f32) :
    transpose Cert.KernelIdeal.S16x16 [1, 0] w Cert.KernelIdeal.Gen.transposes_S16x16_S16x16_1_0
      = transpose Cert.ReferenceIdeal.S16x16 [1, 0] w Cert.ReferenceIdeal.Gen.transposes_S16x16_S16x16_1_0 := rfl

theorem bias_eq (b : FVec Ideal ⟨1, ![16]⟩ .f32) :
    shapeCast Cert.KernelIdeal.S1x16 b Cert.KernelIdeal.Gen.shapeCasts_S16_S1x16
      = broadcastInDim Cert.ReferenceIdeal.S1x16 ![1] Cert.ReferenceIdeal.Gen.bcast_S16_S1x16_1 b := by
  funext j
  refine (shapeCast_addUnit_apply ![16] b _ j).trans
    (broadcastInDim_apply ![1] Cert.ReferenceIdeal.Gen.bcast_S16_S1x16_1 b j (fun a => j a.succ) ?_).symm
  intro a
  match a with
  | ⟨0, _⟩ => rfl

theorem join (Xk Xr : FVec Ideal ⟨2, ![100000, 16]⟩ .f32) (hX : Xk = Xr) (ek er : IVec ⟨2, ![2, 1600000]⟩ 32) (he : ek = er)
    (w8k w8r : FVec Ideal ⟨2, ![16, 16]⟩ .f32) (h8 : w8k = w8r) (w9k w9r : FVec Ideal ⟨2, ![16, 16]⟩ .f32) (h9 : w9k = w9r)
    (bk br : FVec Ideal ⟨1, ![16]⟩ .f32) (hb : bk = br) (n : Fin 100000) (f : Fin 16) :
    sage2At (K.aggOf Xk (K.srcOf ek) (K.dstOf ek)) (K.degOf (K.dstOf ek)) Xk
        (transpose Cert.KernelIdeal.S16x16 [1, 0] w8k Cert.KernelIdeal.Gen.transposes_S16x16_S16x16_1_0)
        (transpose Cert.KernelIdeal.S16x16 [1, 0] w9k Cert.KernelIdeal.Gen.transposes_S16x16_S16x16_1_0)
        (shapeCast Cert.KernelIdeal.S1x16 bk Cert.KernelIdeal.Gen.shapeCasts_S16_S1x16) n f
      = sage2At (R.aggOf Xr (R.srcOf er) (R.dstOf er)) (R.degOf (R.dstOf er)) Xr
        (transpose Cert.ReferenceIdeal.S16x16 [1, 0] w8r Cert.ReferenceIdeal.Gen.transposes_S16x16_S16x16_1_0)
        (transpose Cert.ReferenceIdeal.S16x16 [1, 0] w9r Cert.ReferenceIdeal.Gen.transposes_S16x16_S16x16_1_0)
        (broadcastInDim Cert.ReferenceIdeal.S1x16 ![1] Cert.ReferenceIdeal.Gen.bcast_S16_S1x16_1 br) n f := by
  subst hX he h8 h9 hb
  rw [aggOf_eq, srcOf_eq, dstOf_eq, degOf_eq, transpose_eq, transpose_eq, bias_eq]

end Cert.Bridge.StageC

end
-- ==== Proof.StageC.lean ====
import proofs.«428246_j33844342293317_2_alg».proof.Proof.Iface
import proofs.«428246_j33844342293317_2_alg».proof.Proof.StageCKernel
import proofs.«428246_j33844342293317_2_alg».proof.Proof.StageCJoin

noncomputable section

namespace Cert.Bridge

open Idealize.ShloMosaic Idealize.ShloMosaic.TcCoe Idealize.SL.Sem Idealize.ShloMosaic.ValueIdx
open Cert.Bridge.StageC
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem stageC_kernel (n : Fin 100000) (f : Fin 16) : kH2 m ρ c (ix2 n f)
    = sage2At
        (K.aggOf (kHbn m ρ c)
          (K.srcOf (m ((c.tc : Thread Cert.KernelIdeal.nD Cert.KernelIdeal.τ).loc Cert.KernelIdeal.main_arg1)))
          (K.dstOf (m ((c.tc : Thread Cert.KernelIdeal.nD Cert.KernelIdeal.τ).loc Cert.KernelIdeal.main_arg1))))
        (K.degOf (K.dstOf (m ((c.tc : Thread Cert.KernelIdeal.nD Cert.KernelIdeal.τ).loc Cert.KernelIdeal.main_arg1))))
        (kHbn m ρ c)
        (transpose Cert.KernelIdeal.S16x16 [1, 0]
          (m ((c.tc : Thread Cert.KernelIdeal.nD Cert.KernelIdeal.τ).loc Cert.KernelIdeal.main_arg8))
          Cert.KernelIdeal.Gen.transposes_S16x16_S16x16_1_0)
        (transpose Cert.KernelIdeal.S16x16 [1, 0]
          (m ((c.tc : Thread Cert.KernelIdeal.nD Cert.KernelIdeal.τ).loc Cert.KernelIdeal.main_arg9))
          Cert.KernelIdeal.Gen.transposes_S16x16_S16x16_1_0)
        (shapeCast Cert.KernelIdeal.S1x16
          (m ((c.tc : Thread Cert.KernelIdeal.nD Cert.KernelIdeal.τ).loc Cert.KernelIdeal.main_arg10))
          Cert.KernelIdeal.Gen.shapeCasts_S16_S1x16) n f := by
  show Cert.KernelIdeal.Gen.W6 m ρ c (Proc.devRef .tc Cert.KernelIdeal.main_v53) (ix2 n f) = _
  rw [kernel_out, sage2_apply, K.in_agg, K.in_deg, K.in_h, K.in_wl, K.in_wr, K.in_b]

theorem stageC_ref (c' : Dev Cert.ReferenceIdeal.nD) (n : Fin 100000) (f : Fin 16) :
    Cert.ReferenceIdeal.RefRun.U3 m' c' (Proc.devRef .tc Cert.ReferenceIdeal.main_v71) (ix2 n f)
    = sage2At
        (R.aggOf (Cert.ReferenceIdeal.RefRun.U2 m' c' (Proc.devRef .tc Cert.ReferenceIdeal.main_v50))
          (R.srcOf (m' ((c'.tc : Thread Cert.ReferenceIdeal.nD Cert.ReferenceIdeal.τ).loc Cert.ReferenceIdeal.main_arg1)))
          (R.dstOf (m' ((c'.tc : Thread Cert.ReferenceIdeal.nD Cert.ReferenceIdeal.τ).loc Cert.ReferenceIdeal.main_arg1))))
        (R.degOf (R.dstOf (m' ((c'.tc : Thread Cert.ReferenceIdeal.nD Cert.ReferenceIdeal.τ).loc Cert.ReferenceIdeal.main_arg1))))
        (Cert.ReferenceIdeal.RefRun.U2 m' c' (Proc.devRef .tc Cert.ReferenceIdeal.main_v50))
        (transpose Cert.ReferenceIdeal.S16x16 [1, 0]
          (m' ((c'.tc : Thread Cert.ReferenceIdeal.nD Cert.ReferenceIdeal.τ).loc Cert.ReferenceIdeal.main_arg8))
          Cert.ReferenceIdeal.Gen.transposes_S16x16_S16x16_1_0)
        (transpose Cert.ReferenceIdeal.S16x16 [1, 0]
          (m' ((c'.tc : Thread Cert.ReferenceIdeal.nD Cert.ReferenceIdeal.τ).loc Cert.ReferenceIdeal.main_arg9))
          Cert.ReferenceIdeal.Gen.transposes_S16x16_S16x16_1_0)
        (broadcastInDim Cert.ReferenceIdeal.S1x16 ![1] Cert.ReferenceIdeal.Gen.bcast_S16_S1x16_1
          (m' ((c'.tc : Thread Cert.ReferenceIdeal.nD Cert.ReferenceIdeal.τ).loc Cert.ReferenceIdeal.main_arg10))) n f := by
  rw [R.ref_apply, R.in_src, R.in_dst, R.in_deg, R.in_arg8, R.in_arg9, R.in_arg10]

-- the second layer, row by row as the first, over the normalised activations
theorem stageC (ha : Agree m m' c) (hB : kHbn m ρ c = rHbn m' c) : kH2 m ρ c = rH2 m' c := by
  funext i
  obtain ⟨n, f, rfl⟩ : ∃ (n : Fin 100000) (f : Fin 16), i = ix2 n f := ⟨i 0, i 1, eq_ix2 i⟩
  exact ((stageC_kernel m ρ c n f).trans
    (join _ _ hB _ _ ha.a1.symm _ _ ha.a8.symm _ _ ha.a9.symm _ _ ha.a10.symm n f)).trans (stageC_ref m' c n f).symm

end Cert.Bridge

end
-- ==== Proof.LibGraphRead.lean ====
import Idealize.ShloMosaic.PureOps.Ideal
import Idealize.ShloMosaic.Lib.ValueIdx
import Idealize.ShloMosaic.Lib.StableHlo.Predicate

noncomputable section

namespace Cert.GcnLib

open Idealize.ShloMosaic Idealize.ShloMosaic.ValueIdx

def landing {N n : ℕ} (idx : IVec ⟨2, ![n, 1]⟩ 32) (v : Fin N) : Finset (Fin n) :=
  Finset.univ.filter fun e : Fin n => (idx (ix2 e 0)).toInt = (v.val : Int)

theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro heq a
      have h1 := congrFun (Option.some.inj heq) a
      have h2 := congrArg Fin.val h1
      simp only at h2
      have := (h a).1
      omega
    · intro hall
      congr 1
      funext a
      apply Fin.ext
      simp only
      rw [hall a]
      simp
  · next h =>
    constructor
    · intro heq; cases heq
    · intro hall
      exfalso
      apply h
      intro a
      rw [hall a]
      exact ⟨Int.natCast_nonneg _, by exact_mod_cast (i a).isLt⟩

theorem scatterAdd_vec_apply {N n : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ 32) (u : (⟨1, ![n]⟩ : Shape).Idx → EReal) (v : Fin N) :
    Ideal.hostScatterAdd d x idx u (ix1 v) = x (ix1 v) + ∑ e ∈ landing idx v, u (ix1 e) := by
  have hm : (0 : Fin 1) ∈ d.scatterDimsToOperandDims := by rw [hsd]; exact List.mem_singleton.mpr rfl
  have hk : (0 : Fin 1) ∉ d.sKept := by
    simp [ScatterDims.sKept, Shape.kept, hiw]
  have hstart : ∀ j : (⟨1, ![n]⟩ : Shape).Idx, d.start j idx 0 = (idx (ix2 (j 0) 0)).toInt := by
    intro j
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  have hwin : ∀ j : (⟨1, ![n]⟩ : Shape).Idx, d.window j 0 = 0 := by
    intro j; unfold ScatterDims.window; rw [dif_neg hk]
  have hiff : ∀ j : (⟨1, ![n]⟩ : Shape).Idx, d.resultIdx? j idx = some (ix1 v) ↔ (idx (ix2 (j 0) 0)).toInt = (v.val : Int) := by
    intro j
    rw [resultIdx?_eq_some_iff]
    constructor
    · intro h
      have h0 : d.start j idx 0 + (d.window j 0 : Int) = (v.val : Int) := h 0
      rw [hstart, hwin] at h0
      simpa using h0
    · intro h a
      have ha0 : a = 0 := Subsingleton.elim _ _
      subst ha0
      show d.start j idx 0 + (d.window j 0 : Int) = (v.val : Int)
      rw [hstart, hwin, h]
      simp
  show x (ix1 v) + ∑ j ∈ Finset.univ.filter (fun j => d.resultIdx? j idx = some (ix1 v)), u j = _
  congr 1
  refine Finset.sum_bij' (fun j _ => j 0) (fun e _ => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg u (eq_ix1 j)

theorem scatterAdd_rows_apply {N n C : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ 32) (u : (⟨2, ![n, C]⟩ : Shape).Idx → EReal)
    (v : Fin N) (j : Fin C) :
    Ideal.hostScatterAdd d x idx u (ix2 v j) = x (ix2 v j) + ∑ e ∈ landing idx v, u (ix2 e j) := by
  have hm : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by simp [ScatterDims.sKept, Shape.kept, hiw]
  have hk1 : (1 : Fin 2) ∈ d.sKept := by simp [ScatterDims.sKept, Shape.kept, hiw]
  have hstart0 : ∀ t : (⟨2, ![n, C]⟩ : Shape).Idx, d.start t idx 0 = (idx (ix2 (t 0) 0)).toInt := by
    intro t
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have hX : ∀ X : Fin 2, X ∈ d.uScatter → (t X).val = (t 0).val := by
        intro X hX
        have h1 : X ∉ d.updateWindowDims := by simpa [ScatterDims.uScatter, Shape.kept] using hX
        rw [huw] at h1
        match X, h1 with
        | ⟨0, _⟩, _ => rfl
        | ⟨1, _⟩, h => exact absurd (List.mem_singleton.mpr rfl) h
      exact hX _ (List.getElem_mem _)
    | ⟨1, _⟩ =>
      unfold ScatterDims.siIdx
      rw [dif_pos (by rw [hiv])]
      apply Fin.ext
      show List.idxOf (0 : Fin 2) d.scatterDimsToOperandDims = 0
      rw [hsd]; simp
  have hstart1 : ∀ t : (⟨2, ![n, C]⟩ : Shape).Idx, d.start t idx 1 = 0 := by
    intro t; unfold ScatterDims.start; rw [dif_neg hm1]
  have hwin0 : ∀ t : (⟨2, ![n, C]⟩ : Shape).Idx, d.window t 0 = 0 := by
    intro t; unfold ScatterDims.window; rw [dif_neg hk0]
  have hl : ∀ (l : List (Fin 2)) (_ : l = [1]) (k : ℕ) (hk : k < l.length), l[k] = 1 := by
    intro l hl k hk; subst hl
    simp only [List.length_singleton, Nat.lt_one_iff] at hk
    subst hk; rfl
  have hwin1 : ∀ t : (⟨2, ![n, C]⟩ : Shape).Idx, d.window t 1 = (t 1).val := by
    intro t; unfold ScatterDims.window; rw [dif_pos hk1]
    rw [hl d.updateWindowDims huw]
  have hiff : ∀ t : (⟨2, ![n, C]⟩ : Shape).Idx,
      d.resultIdx? t idx = some (ix2 v j) ↔ (idx (ix2 (t 0) 0)).toInt = (v.val : Int) ∧ t 1 = j := by
    intro t
    rw [resultIdx?_eq_some_iff]
    constructor
    · intro h
      have h0 : d.start t idx 0 + (d.window t 0 : Int) = (v.val : Int) := h 0
      have h1 : d.start t idx 1 + (d.window t 1 : Int) = (j.val : Int) := h 1
      rw [hstart0, hwin0] at h0
      rw [hstart1, hwin1] at h1
      refine ⟨by simpa using h0, Fin.ext ?_⟩
      have h2 : ((t 1).val : Int) = (j.val : Int) := by simpa using h1
      exact_mod_cast h2
    · rintro ⟨h0, h1⟩ a
      match a with
      | ⟨0, _⟩ =>
        show d.start t idx 0 + (d.window t 0 : Int) = (v.val : Int)
        rw [hstart0, hwin0, h0]; simp
      | ⟨1, _⟩ =>
        show d.start t idx 1 + (d.window t 1 : Int) = (j.val : Int)
        rw [hstart1, hwin1, h1]; simp
  show x (ix2 v j) + ∑ t ∈ Finset.univ.filter (fun t => d.resultIdx? t idx = some (ix2 v j)), u t = _
  congr 1
  refine Finset.sum_bij' (fun t _ => t 0) (fun e _ => ix2 e j) ?_ ?_ ?_ ?_ ?_
  · intro t ht
    exact Finset.mem_filter.2 ⟨Finset.mem_univ _, ((hiff t).1 (Finset.mem_filter.1 ht).2).1⟩
  · intro e he
    exact Finset.mem_filter.2 ⟨Finset.mem_univ _, (hiff (ix2 e j)).2 ⟨(Finset.mem_filter.1 he).2, rfl⟩⟩
  · intro t ht
    have h1 := ((hiff t).1 (Finset.mem_filter.1 ht).2).2
    show ix2 (t 0) j = t
    rw [← h1]; exact (eq_ix2 t).symm
  · intro e _
    rfl
  · intro t ht
    have h1 := ((hiff t).1 (Finset.mem_filter.1 ht).2).2
    show u t = u (ix2 (t 0) j)
    rw [← h1]; exact congrArg u (eq_ix2 t)

def clampRow (N : ℕ) (hN : 0 < N) (w : BitVec 32) : Fin N := ⟨min w.toInt.toNat (N - 1), by omega⟩

theorem gather_vec_apply {α : Type} {N n : ℕ} (hN : 0 < N) (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ 32) (e : Fin n) :
    Host.gather d x idx (ix1 e) = x (ix1 (clampRow N hN (idx (ix2 e 0)))) := by
  have h1 : (ix1 e : (⟨1, ![n]⟩ : Shape).Idx) = Shape.Idx.ofFin e := by
    funext a; match a with | ⟨0, _⟩ => rfl
  have h2 : (ix2 e 0 : (⟨2, ![n, 1]⟩ : Shape).Idx) = StableHlo.Predicate.ixP e := by
    funext a; match a with | ⟨0, _⟩ => rfl | ⟨1, _⟩ => rfl
  rw [h1, h2, StableHlo.Predicate.gather_take d hcoll hob hsim hivd x idx e hN]
  congr 1
  funext a; match a with | ⟨0, _⟩ => rfl

theorem gather_rows_apply {α : Type} {N n C : ℕ} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ 32) (e : Fin n) (j : Fin C) :
    Host.gather d x idx (ix2 e j) = x (ix2 (clampRow N hN (idx (ix2 e 0))) j) := by
  unfold Host.gather
  congr 1
  funext a
  apply Fin.ext
  have hb : ∀ a, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ix2 e 0)).toInt.toNat (N - 1)
    rw [GatherDims.batchCoord_eq_zero _ _ _ (hb _), GatherDims.offCoord_eq_zero _ _ _ hk]
    simp only [Nat.add_zero]
    unfold GatherDims.start
    rw [dif_pos hm]
    have hsi : d.siIdx (ix2 e j) ⟨List.idxOf (0 : Fin 2) d.startIndexMap, List.idxOf_lt_length_iff.2 hm⟩ = ix2 e 0 := by
      funext b
      match b with
      | ⟨0, _⟩ =>
        unfold GatherDims.siIdx
        rw [dif_neg (by rw [hivd]; simp)]
        unfold GatherDims.siCoord
        apply Fin.ext
        simp only [Fin.val_cast]
        have hX : ∀ X : Fin 2, X ∈ d.batchDims → ((ix2 e j : (⟨2, ![n, C]⟩ : Shape).Idx) X).val = e.val := by
          intro X hX
          have h1 : X ∉ d.offsetDims := by simpa [GatherDims.batchDims, Shape.kept] using hX
          rw [hoff] at h1
          match X, h1 with
          | ⟨0, _⟩, _ => rfl
          | ⟨1, _⟩, h => exact absurd (List.mem_singleton.mpr rfl) h
        exact hX _ (List.getElem_mem _)
      | ⟨1, _⟩ =>
        unfold GatherDims.siIdx
        rw [dif_pos (by rw [hivd])]
        apply Fin.ext
        show List.idxOf (0 : Fin 2) d.startIndexMap = 0
        rw [hsim]; simp
    rw [hsi]
    show min (idx (ix2 e 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb _)]
    unfold GatherDims.start
    rw [dif_neg hm]
    unfold GatherDims.offCoord
    rw [dif_pos hk]
    simp only [Nat.zero_add, Nat.add_zero]
    have hl : ∀ (l : List (Fin 2)) (_ : l = [1]) (k : ℕ) (hk : k < l.length), l[k] = 1 := by
      intro l hl k hk; subst hl
      simp only [List.length_singleton, Nat.lt_one_iff] at hk
      subst hk; rfl
    rw [hl d.offsetDims hoff]

def wrapWord (N : BitVec 32) (w : BitVec 32) : BitVec 32 :=
  Scalar.select (Scalar.cmpi .slt w 0#32) (IntOp.addi w N) w

theorem clampRow_wrapWord_of_lands {N : ℕ} (hN : 0 < N) (hN31 : N < 2 ^ 31) (w : BitVec 32) (v : Fin N)
    (h : w.toInt = (v.val : Int)) : clampRow N hN (wrapWord (BitVec.ofNat 32 N) w) = v := by
  have hslt : w.slt 0#32 = false := by
    simp [BitVec.slt, h]
  have hw : wrapWord (BitVec.ofNat 32 N) w = w := by
    unfold wrapWord Scalar.cmpi IntOp.cmpi
    simp only [hslt]
    exact select_zero _ _
  rw [hw]
  apply Fin.ext
  show min w.toInt.toNat (N - 1) = v.val
  rw [h]
  have := v.isLt
  simp only [Int.toNat_natCast]
  omega

end Cert.GcnLib

end
-- ==== Proof.StageDPool.lean ====
import Idealize.ShloMosaic.PureOps.Ideal.Laws
import Idealize.ShloMosaic.Lib.ValueIdx
import proofs.«428246_j33844342293317_2_alg».proof.Proof.LibGraphRead

noncomputable section

open scoped BigOperators

namespace Cert.Bridge.Pool

open Idealize.ShloMosaic Idealize.ShloMosaic.ValueIdx

section Dot

variable {K n c : Nat}

structure ColsCols (d : DotDims ⟨2, ![K, n]⟩ ⟨2, ![K, c]⟩ ⟨2, ![n, c]⟩) : Prop where
  lc : d.lhsContracting = [0]
  rc : d.rhsContracting = [0]
  ln : d.lhsNonContracting = [1]
  rn : d.rhsNonContracting = [1]
  lb : d.lhsBatch = []
  rb : d.rhsBatch = []

variable {d : DotDims ⟨2, ![K, n]⟩ ⟨2, ![K, c]⟩ ⟨2, ![n, c]⟩}

private theorem val_at {s : Shape} (j : s.Idx) (p q : Nat) (hp : p < s.rank) (hq : q < s.rank) (h : p = q) :
    (j ⟨p, hp⟩).val = (j ⟨q, hq⟩).val := by subst h; rfl

theorem ColsCols.rank_contr (h : ColsCols d) : d.contr.rank = 1 := by rw [d.rank_contr, h.lc]; rfl

theorem ColsCols.size_contr (h : ColsCols d) : d.contr.size ⟨0, by rw [h.rank_contr]; exact Nat.one_pos⟩ = K := by
  have := d.size_contr 0 (by rw [h.lc]; exact Nat.one_pos)
  rw [this]; simp only [h.lc]; rfl

theorem ColsCols.lhs_row (h : ColsCols d) (j : (⟨2, ![n, c]⟩ : Shape).Idx) (k : d.contr.Idx) :
    (d.lhsIdx j k 0).val = (k ⟨0, by rw [h.rank_contr]; exact Nat.one_pos⟩).val :=
  d.lhsIdx_val_of_single h.lc j k

theorem ColsCols.lhs_col (h : ColsCols d) (j : (⟨2, ![n, c]⟩ : Shape).Idx) (k : d.contr.Idx) :
    (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact val_at j _ _ _ _ (by simp [h.lb, h.ln])

theorem ColsCols.rhs_row (h : ColsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

theorem ColsCols.rhs_col (h : ColsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_at j _ _ _ _ (by simp [h.lb, h.ln, h.rn])

theorem ColsCols.sum_eq (h : ColsCols d) (l : (⟨2, ![K, n]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 q (j 0)) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 q (j 0) := by
    funext a
    match a with
    | ⟨0, _⟩ => exact Fin.ext ((h.lhs_row j _).trans hk)
    | ⟨1, _⟩ => exact Fin.ext (h.lhs_col j _)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

theorem ColsCols.matmul_zero_apply {φ₁ φ₂ : FTy} (h : ColsCols d) (prec : Option ContractPrecision)
    (l : FVec Ideal ⟨2, ![K, n]⟩ φ₁) (w : FVec Ideal ⟨2, ![K, c]⟩ φ₂) (g : Fin n) (f : Fin c) :
    matmul (F := Ideal) d prec l w (constant ⟨2, ![n, c]⟩ .f32 0x00000000#32) (ix2 g f)
      = ∑ q : Fin K, l (ix2 q g) * w (ix2 q f) :=
  (Ideal.matmul_constant_zero_apply d prec l w (ix2 g f)).trans (h.sum_eq l w (ix2 g f))

end Dot

theorem hot_eq (a b : BitVec 32) :
    ((((IntOp.cmpi .eq a b).setWidth 32).toInt : ℝ) : EReal) = if a = b then 1 else 0 := by
  unfold IntOp.cmpi
  by_cases h : a = b
  · subst h; simp
  · have hb : (a == b) = false := beq_eq_false_iff_ne.mpr h
    simp [hb, h]

theorem toInt_ofNat_small (g : ℕ) (hg : g < 2 ^ 31) : (BitVec.ofNat 32 g).toInt = (g : Int) := by
  rw [BitVec.toInt_eq_toNat_cond, BitVec.toNat_ofNat]
  have h1 : g % 2 ^ 32 = g := Nat.mod_eq_of_lt (by omega)
  rw [h1]
  split <;> omega

theorem toInt_eq_iff (w : BitVec 32) (g : ℕ) (hg : g < 2 ^ 31) : w.toInt = (g : Int) ↔ w = BitVec.ofNat 32 g :=
  ⟨fun h => BitVec.eq_of_toInt_eq (h.trans (toInt_ofNat_small g hg).symm), fun h => h ▸ toInt_ofNat_small g hg⟩

theorem sum_hot_mul {B : ℕ} (bw : Fin B → BitVec 32) (x : Fin B → EReal) (g : BitVec 32) :
    ∑ r : Fin B, (if bw r = g then (1 : EReal) else 0) * x r = ∑ r ∈ Finset.univ.filter (fun r => bw r = g), x r := by
  rw [Finset.sum_filter]
  refine Finset.sum_congr rfl fun r _ => ?_
  by_cases h : bw r = g
  · rw [if_pos h, if_pos h, one_mul]
  · rw [if_neg h, if_neg h, zero_mul]

theorem sum_hot {B : ℕ} (bw : Fin B → BitVec 32) (g : BitVec 32) :
    ∑ r : Fin B, (if bw r = g then (1 : EReal) else 0) = ∑ r ∈ Finset.univ.filter (fun r => bw r = g), (1 : EReal) := by
  rw [Finset.sum_filter]

theorem blk_lt {T B N : ℕ} (hN : T * B = N) (t : Fin T) (r : Fin B) : t.val * B + r.val < N := by
  have h1 : (t.val + 1) * B ≤ T * B := Nat.mul_le_mul_right B t.isLt
  have h2 : (t.val + 1) * B = t.val * B + B := Nat.succ_mul _ _
  have := r.isLt
  omega

theorem sum_blocks {M : Type*} [AddCommMonoid M] {T B N : ℕ} (hN : T * B = N) (G : Fin N → M) :
    ∑ t : Fin T, ∑ r : Fin B, G ⟨t.val * B + r.val, blk_lt hN t r⟩ = ∑ e : Fin N, G e := by
  subst hN
  rw [← Fintype.sum_prod_type']
  refine Fintype.sum_equiv finProdFinEquiv _ _ fun x => congrArg G (Fin.ext ?_)
  simp only [finProdFinEquiv_apply_val]
  rw [Nat.mul_comm]; exact Nat.add_comm _ _

def col {N : ℕ} (b : IVec ⟨1, ![N]⟩ 32) : IVec ⟨2, ![N, 1]⟩ 32 := fun i => b (ix1 (i 0))

theorem landing_eq {N G : ℕ} (hG : G ≤ 2 ^ 31) (idx : IVec ⟨2, ![N, 1]⟩ 32) (g : Fin G) :
    Cert.GcnLib.landing idx g = Finset.univ.filter fun e : Fin N => idx (ix2 e 0) = BitVec.ofNat 32 g.val := by
  unfold Cert.GcnLib.landing
  refine Finset.filter_congr fun e _ => ?_
  exact toInt_eq_iff _ _ (lt_of_lt_of_le g.isLt hG)

theorem blocks_total {T B N G : ℕ} (hN : T * B = N) (hG : G ≤ 2 ^ 31) (idx : IVec ⟨2, ![N, 1]⟩ 32)
    (x : Fin N → EReal) (g : Fin G) :
    ∑ t : Fin T, ∑ r : Fin B,
        (if idx (ix2 ⟨t.val * B + r.val, blk_lt hN t r⟩ 0) = BitVec.ofNat 32 g.val then (1 : EReal) else 0)
          * x ⟨t.val * B + r.val, blk_lt hN t r⟩
      = ∑ e ∈ Cert.GcnLib.landing idx g, x e := by
  rw [sum_blocks hN (fun e => (if idx (ix2 e 0) = BitVec.ofNat 32 g.val then (1 : EReal) else 0) * x e),
    sum_hot_mul (fun e => idx (ix2 e 0)) x, landing_eq hG]

theorem blocks_count {T B N G : ℕ} (hN : T * B = N) (hG : G ≤ 2 ^ 31) (idx : IVec ⟨2, ![N, 1]⟩ 32) (g : Fin G) :
    ∑ t : Fin T, ∑ r : Fin B,
        (if idx (ix2 ⟨t.val * B + r.val, blk_lt hN t r⟩ 0) = BitVec.ofNat 32 g.val then (1 : EReal) else 0)
      = ∑ e ∈ Cert.GcnLib.landing idx g, (1 : EReal) := by
  rw [sum_blocks hN (fun e => (if idx (ix2 e 0) = BitVec.ofNat 32 g.val then (1 : EReal) else 0)),
    sum_hot (fun e => idx (ix2 e 0)), landing_eq hG]

theorem acc_range (S : ℕ → EReal) (a : ℕ → EReal) (h0 : a 0 = 0 + S 0) (hs : ∀ n, a (n + 1) = a n + S (n + 1)) (n : ℕ) :
    a n = ∑ k ∈ Finset.range (n + 1), S k := by
  induction n with
  | zero => rw [h0, zero_add, Finset.sum_range_one]
  | succ n ih => rw [hs, ih, Finset.sum_range_succ _ (n + 1)]

end Cert.Bridge.Pool

end
-- ==== Proof.StageDKer.lean ====
import proofs.«428246_j33844342293317_2_alg».proof.Proof.Gen.KernelIdeal.Frame
import proofs.«428246_j33844342293317_2_alg».proof.Proof.StageDPool
import Idealize.ShloMosaic.Lib.Pipeline.Value
import Idealize.ShloMosaic.Lib.ValueLayout
import Idealize.ShloMosaic.Lib.Tactic
import Idealize.ShloMosaic.Lib.IdealHost

set_option maxRecDepth 16384

noncomputable section

open scoped BigOperators

namespace Cert.Bridge.PoolKer

open Cert.KernelIdeal Cert.KernelIdeal.Gen
open Idealize.ShloMosaic Idealize.ShloMosaic.TcCoe Idealize.SL.Sem Idealize.ShloMosaic.ValueIdx
open Idealize.ShloMosaic.Pipeline (Dat)
open Cert.Bridge.Pool

abbrev hot (w : BitVec 32) (g : Fin 256) : EReal := if w = BitVec.ofNat 32 g.val then 1 else 0

theorem colsCols : ColsCols dot_S10000x256_S10000x16_S256x16_0_0_1_1_n_n := ⟨rfl, rfl, rfl, rfl, rfl, rfl⟩

theorem pay3_apply (v3 : Vec Ideal S10000x1 .i32) (r : Fin 10000) (g : Fin 256) :
    k3_pay3 (F := Ideal) v3 (ix2 r g) = hot (v3 (ix2 r 0)) g := by
  have hA : broadcastTo S10000x256 (shapeCast S10000x1 v3 shapeCasts_S10000x1_S10000x1) broadcasts_S10000x1_S10000x256 (ix2 r g)
      = v3 (ix2 r 0) := by
    rw [shapeCast_self]
    exact broadcastTo_apply _ _ _ (ix2 r 0) (fun a => by
      match a with
      | ⟨0, _⟩ => rfl
      | ⟨1, _⟩ => rfl)
  have hB : broadcastTo S10000x256 (iota .tc S1x256 32 [1] iota_S1x256_d1_w32) broadcasts_S1x256_S10000x256 (ix2 r g)
      = BitVec.ofNat 32 g.val :=
    (broadcastTo_1b_ab_apply _ _ r g).trans (iota_single_apply ..)
  unfold k3_pay3
  show ((((IntOp.cmpi .eq
      (broadcastTo S10000x256 (shapeCast S10000x1 v3 shapeCasts_S10000x1_S10000x1) broadcasts_S10000x1_S10000x256 (ix2 r g))
      (broadcastTo S10000x256 (iota .tc S1x256 32 [1] iota_S1x256_d1_w32) broadcasts_S1x256_S10000x256 (ix2 r g))).setWidth 32).toInt : ℝ) : EReal) = _
  rw [hA, hB]
  exact hot_eq _ _

theorem pay4_apply (v3 : Vec Ideal S10000x1 .i32) (v12 : Vec Ideal S10000x16 .f32) (v16 : Vec Ideal S256x16 .f32)
    (g : Fin 256) (f : Fin 16) :
    k3_pay4 (F := Ideal) v3 v12 v16 (ix2 g f)
      = v16 (ix2 g f) + ∑ q : Fin 10000, hot (v3 (ix2 q 0)) g * v12 (ix2 q f) := by
  unfold k3_pay4
  show shapeCast S256x16 v16 shapeCasts_S256x16_S256x16 (ix2 g f)
      + matmul (F := Ideal) dot_S10000x256_S10000x16_S256x16_0_0_1_1_n_n none
          (truncf .bf16 (k3_pay3 v3) bitsLt_bf16_f32)
          (truncf .bf16 (shapeCast S10000x16 v12 shapeCasts_S10000x16_S10000x16) bitsLt_bf16_f32)
          (constant S256x16 .f32 0x00000000#32) (ix2 g f) = _
  rw [shapeCast_self, shapeCast_self, colsCols.matmul_zero_apply]
  refine congrArg (v16 (ix2 g f) + ·) (Finset.sum_congr rfl fun q _ => ?_)
  show k3_pay3 v3 (ix2 q g) * v12 (ix2 q f) = _
  rw [pay3_apply]

theorem pay5_apply (v3 : Vec Ideal S10000x1 .i32) (v20 : Vec Ideal S1x256 .f32) (g : Fin 256) :
    k3_pay5 (F := Ideal) v3 v20 (ix2 (0 : Fin 1) g) = v20 (ix2 (0 : Fin 1) g) + ∑ q : Fin 10000, hot (v3 (ix2 q 0)) g := by
  unfold k3_pay5
  show shapeCast S1x256 v20 shapeCasts_S1x256_S1x256 (ix2 (0 : Fin 1) g)
      + shapeCast S1x256 (multiReduction (F := Ideal) .add [0] S256 (k3_pay3 v3) 0x00000000#32 reduces_S10000x256_S256 (.inl rfl) rfl)
          shapeCasts_S256_S1x256 (ix2 (0 : Fin 1) g) = _
  rw [shapeCast_self, shapeCast_a_1a_apply]
  refine congrArg (v20 (ix2 (0 : Fin 1) g) + ·) ?_
  refine (Ideal.multiReduction_add_single (k3_pay3 (F := Ideal) v3) 0x00000000#32 reduces_S10000x256_S256 (.inl rfl) rfl (ix1 g)).trans ?_
  refine Finset.sum_congr rfl fun q _ => ?_
  have e : reduces_S10000x256_S256.lift (ix1 g) q = ix2 (⟨q.val, q.isLt⟩ : Fin 10000) g := by
    funext a
    match a with
    | ⟨0, _⟩ => rfl
    | ⟨1, _⟩ => rfl
  rw [e]
  exact pay3_apply v3 _ g

section Pieces

variable {F : FTy → Type} [FloatOps F]

theorem hz : (![0, 0] : Fin 2 → Nat) = fun _ => 0 := funext fun a => by fin_cases a <;> rfl

theorem out_B_2 (c : Dev nD) (i : grid3.Coords) (a1 : Memref sig .tc .vmem S10000x16 .f32) (h1 : a1.IsWhole)
    (a2 : Memref sig .tc .vmem S10000x1 .i32) (h2 : a2.IsWhole) (a3 : Memref sig .tc .vmem S256x16 .f32) (h3 : a3.IsWhole)
    (a4 : Memref sig .tc .vmem S1x256 .f32) (h4 : a4.IsWhole) (hc : ¬cond3_0 i)
    (x0 : Vec F S10000x16 .f32) (x1 : Vec F S10000x1 .i32) (xo2 : Vec F S256x16 .f32) (xo3 : Vec F S1x256 .f32) :
    out3_B_2 c i a1 h1 a2 h2 a3 h3 a4 h4 hc x0 x1 xo2 xo3 = k3_pay4 x1 x0 xo2 := by
  unfold out3_B_2
  rw [View.read_writes_eq_canon _ _ _ (cover3_B_2 c i a1 h1 a2 h2 a3 h3 a4 h4 hc x0 x1 xo2 xo3)]
  unfold kernelRun3_B
  dsimp only
  sl_unfold_words
  rw [View.canon_unit_zero hz]
  simp only [View.readAt_eq_ld, h1.read_unread, h2.read_unread, h3.read_unread, View.ld_unit_zero (S := S10000x1) hz,
    View.ld_unit_zero (S := S10000x16) hz, View.ld_unit_zero (S := S256x16) hz]

theorem out_B_3 (c : Dev nD) (i : grid3.Coords) (a1 : Memref sig .tc .vmem S10000x16 .f32) (h1 : a1.IsWhole)
    (a2 : Memref sig .tc .vmem S10000x1 .i32) (h2 : a2.IsWhole) (a3 : Memref sig .tc .vmem S256x16 .f32) (h3 : a3.IsWhole)
    (a4 : Memref sig .tc .vmem S1x256 .f32) (h4 : a4.IsWhole) (hc : ¬cond3_0 i)
    (x0 : Vec F S10000x16 .f32) (x1 : Vec F S10000x1 .i32) (xo2 : Vec F S256x16 .f32) (xo3 : Vec F S1x256 .f32) :
    out3_B_3 c i a1 h1 a2 h2 a3 h3 a4 h4 hc x0 x1 xo2 xo3 = k3_pay5 x1 xo3 := by
  unfold out3_B_3
  rw [View.read_writes_eq_canon _ _ _ (cover3_B_3 c i a1 h1 a2 h2 a3 h3 a4 h4 hc x0 x1 xo2 xo3)]
  unfold kernelRun3_B
  dsimp only
  sl_unfold_words
  rw [View.canon_unit_zero hz]
  simp only [View.readAt_eq_ld, h2.read_unread, h4.read_unread, View.ld_unit_zero (S := S10000x1) hz,
    View.ld_unit_zero (S := S1x256) hz]

theorem out_A_2 (c : Dev nD) (i : grid3.Coords) (a1 : Memref sig .tc .vmem S10000x16 .f32) (h1 : a1.IsWhole)
    (a2 : Memref sig .tc .vmem S10000x1 .i32) (h2 : a2.IsWhole) (a3 : Memref sig .tc .vmem S256x16 .f32) (h3 : a3.IsWhole)
    (a4 : Memref sig .tc .vmem S1x256 .f32) (h4 : a4.IsWhole) (hc : cond3_0 i)
    (x0 : Vec F S10000x16 .f32) (x1 : Vec F S10000x1 .i32) :
    out3_A_2 c i a1 h1 a2 h2 a3 h3 a4 h4 hc x0 x1 = k3_pay4 x1 x0 (k3_pay1 (F := F)) := by
  unfold out3_A_2
  rw [View.read_writes_eq_canon _ _ _ (cover3_A_2 c i a1 h1 a2 h2 a3 h3 a4 h4 hc x0 x1)]
  unfold kernelRun3_A
  dsimp only
  sl_unfold_words
  rw [View.canon_cons_unit_zero (S := S256x16) hz]
  simp only [View.readAt_eq_ld, h1.read_unread, h2.read_unread, View.ld_unit_zero (S := S10000x1) hz,
    View.ld_unit_zero (S := S10000x16) hz, View.readCov_unit_zero (S := S256x16) _ hz]

theorem out_A_3 (c : Dev nD) (i : grid3.Coords) (a1 : Memref sig .tc .vmem S10000x16 .f32) (h1 : a1.IsWhole)
    (a2 : Memref sig .tc .vmem S10000x1 .i32) (h2 : a2.IsWhole) (a3 : Memref sig .tc .vmem S256x16 .f32) (h3 : a3.IsWhole)
    (a4 : Memref sig .tc .vmem S1x256 .f32) (h4 : a4.IsWhole) (hc : cond3_0 i)
    (x0 : Vec F S10000x16 .f32) (x1 : Vec F S10000x1 .i32) :
    out3_A_3 c i a1 h1 a2 h2 a3 h3 a4 h4 hc x0 x1 = k3_pay5 x1 (k3_pay2 (F := F)) := by
  unfold out3_A_3
  rw [View.read_writes_eq_canon _ _ _ (cover3_A_3 c i a1 h1 a2 h2 a3 h3 a4 h4 hc x0 x1)]
  unfold kernelRun3_A
  dsimp only
  sl_unfold_words
  rw [View.canon_cons_unit_zero (S := S1x256) hz]
  simp only [View.readAt_eq_ld, h2.read_unread, View.ld_unit_zero (S := S10000x1) hz,
    View.readCov_unit_zero (S := S1x256) _ hz]

end Pieces

section Run

variable (V : (c : Dev nD) → (b : Ref sig .tc) → Buf (Elt Ideal) ((c : Thread nD τ).loc b)) (c : Dev nD)

abbrev harr : Vec Ideal S100000x16 .f32 := V c main_v53
abbrev barr : Vec Ideal S100000x1 .i32 := V c main_v54
abbrev hblk (t : Fin cfg3.N) : Vec Ideal S10000x16 .f32 := iblk3 V c 0 t
abbrev bblk (t : Fin cfg3.N) : Vec Ideal S10000x1 .i32 := iblk3 V c 1 t

theorem row_lt (k : ℕ) (hk : k < 10) (r : Fin 10000) : k * 10000 + r.val < 100000 := by
  have := r.isLt; omega

theorem lt10 (t : Fin cfg3.N) : t.val < 10 := lt_of_lt_of_eq t.isLt (show cfg3.N = 10 from N_3)

theorem hblk_apply (t : Fin cfg3.N) (r : Fin 10000) (f : Fin 16) :
    hblk V c t (ix2 r f) = harr V c (ix2 ⟨t.val * 10000 + r.val, row_lt t.val (lt10 t) r⟩ f) := by
  have hi : win3_0.index t 0 = t.val ∧ win3_0.index t 1 = 0 := by
    rcases fin_N3 t with rfl | rfl | rfl | rfl | rfl | rfl | rfl | rfl | rfl | rfl <;> decide
  unfold hblk iblk3
  rw [View.read_apply]
  show V c main_v53 _ = V c main_v53 _
  congr 1
  funext a
  apply Fin.ext
  match a with
  | ⟨0, _⟩ => show win3_0.index t 0 * 10000 + 1 * r.val = t.val * 10000 + r.val; rw [hi.1]; omega
  | ⟨1, _⟩ => show win3_0.index t 1 * 16 + 1 * f.val = f.val; rw [hi.2]; omega

theorem bblk_apply (t : Fin cfg3.N) (r : Fin 10000) :
    bblk V c t (ix2 r 0) = barr V c (ix2 ⟨t.val * 10000 + r.val, row_lt t.val (lt10 t) r⟩ 0) := by
  have hi : win3_1.index t 0 = t.val ∧ win3_1.index t 1 = 0 := by
    rcases fin_N3 t with rfl | rfl | rfl | rfl | rfl | rfl | rfl | rfl | rfl | rfl <;> decide
  unfold bblk iblk3
  rw [View.read_apply]
  show V c main_v54 _ = V c main_v54 _
  congr 1
  funext a
  apply Fin.ext
  match a with
  | ⟨0, _⟩ => show win3_1.index t 0 * 10000 + 1 * r.val = t.val * 10000 + r.val; rw [hi.1]; omega
  | ⟨1, _⟩ => show win3_1.index t 1 * 1 + 1 * 0 = 0; rw [hi.2]

def S2 (g : Fin 256) (f : Fin 16) (k : ℕ) : EReal :=
  if hk : k < 10 then
    ∑ q : Fin 10000, hot (barr V c (ix2 ⟨k * 10000 + q.val, row_lt k hk q⟩ 0)) g * harr V c (ix2 ⟨k * 10000 + q.val, row_lt k hk q⟩ f)
  else 0

def S3 (g : Fin 256) (k : ℕ) : EReal :=
  if hk : k < 10 then ∑ q : Fin 10000, hot (barr V c (ix2 ⟨k * 10000 + q.val, row_lt k hk q⟩ 0)) g else 0

theorem S2_eq (g : Fin 256) (f : Fin 16) (t : Fin cfg3.N) :
    ∑ q : Fin 10000, hot (bblk V c t (ix2 q 0)) g * hblk V c t (ix2 q f) = S2 V c g f t.val := by
  unfold S2
  rw [dif_pos (lt10 t)]
  refine Finset.sum_congr rfl fun q _ => ?_
  rw [hblk_apply, bblk_apply]

theorem S3_eq (g : Fin 256) (t : Fin cfg3.N) :
    ∑ q : Fin 10000, hot (bblk V c t (ix2 q 0)) g = S3 V c g t.val := by
  unfold S3
  rw [dif_pos (lt10 t)]
  refine Finset.sum_congr rfl fun q _ => ?_
  rw [bblk_apply]

theorem sums_after (g : Fin 256) (f : Fin 16) :
    ∀ (n : ℕ) (h : n < cfg3.N), (outsAt3 V c n h).1 (ix2 g f) = ∑ k ∈ Finset.range (n + 1), S2 V c g f k
  | 0, h => by
    rw [outsAt3_A V c ⟨0, h⟩ rfl]
    dsimp only
    refine (congrFun (out_A_2 (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) (ms3_3 ⟨0, h⟩) (hs3_3 ⟨0, h⟩) ((hcond3_0 ⟨0, h⟩).mpr rfl) (hblk V c ⟨0, h⟩) (bblk V c ⟨0, h⟩))
      (ix2 g f)).trans ?_
    refine (pay4_apply (bblk V c ⟨0, h⟩) (hblk V c ⟨0, h⟩) (k3_pay1 (F := Ideal)) g f).trans ?_
    rw [Finset.sum_range_one, ← S2_eq V c g f ⟨0, h⟩]
    show Ideal.ofBits .f32 0x00000000#32 + _ = _
    rw [Ideal.ofBits_zero_f32, zero_add]
  | n + 1, h => by
    have hN : cfg3.N = 10 := N_3
    have hB : ¬(⟨n + 1, h⟩ : Fin cfg3.N).val % 10 = 0 := by dsimp only; omega
    rw [outsAt3_B V c ⟨n + 1, h⟩ hB]
    dsimp only
    refine (congrFun (out_B_2 (F := Ideal) c (grid3.coords ⟨n + 1, h⟩) (ms3_0 ⟨n + 1, h⟩) (hs3_0 ⟨n + 1, h⟩) (ms3_1 ⟨n + 1, h⟩)
      (hs3_1 ⟨n + 1, h⟩) (ms3_2 ⟨n + 1, h⟩) (hs3_2 ⟨n + 1, h⟩) (ms3_3 ⟨n + 1, h⟩) (hs3_3 ⟨n + 1, h⟩)
      (fun hh => hB ((hcond3_0 ⟨n + 1, h⟩).mp hh)) (hblk V c ⟨n + 1, h⟩) (bblk V c ⟨n + 1, h⟩)
      (outsAt3 V c n (Nat.lt_of_succ_lt h)).1 (outsAt3 V c n (Nat.lt_of_succ_lt h)).2) (ix2 g f)).trans ?_
    refine (pay4_apply (bblk V c ⟨n + 1, h⟩) (hblk V c ⟨n + 1, h⟩) (outsAt3 V c n (Nat.lt_of_succ_lt h)).1 g f).trans ?_
    rw [Finset.sum_range_succ _ (n + 1), sums_after g f n (Nat.lt_of_succ_lt h), S2_eq V c g f ⟨n + 1, h⟩]

theorem counts_after (g : Fin 256) :
    ∀ (n : ℕ) (h : n < cfg3.N), (outsAt3 V c n h).2 (ix2 (0 : Fin 1) g) = ∑ k ∈ Finset.range (n + 1), S3 V c g k
  | 0, h => by
    rw [outsAt3_A V c ⟨0, h⟩ rfl]
    dsimp only
    refine (congrFun (out_A_3 (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) (ms3_3 ⟨0, h⟩) (hs3_3 ⟨0, h⟩) ((hcond3_0 ⟨0, h⟩).mpr rfl) (hblk V c ⟨0, h⟩) (bblk V c ⟨0, h⟩))
      (ix2 (0 : Fin 1) g)).trans ?_
    refine (pay5_apply (bblk V c ⟨0, h⟩) (k3_pay2 (F := Ideal)) g).trans ?_
    rw [Finset.sum_range_one, ← S3_eq V c g ⟨0, h⟩]
    show Ideal.ofBits .f32 0x00000000#32 + _ = _
    rw [Ideal.ofBits_zero_f32, zero_add]
  | n + 1, h => by
    have hN : cfg3.N = 10 := N_3
    have hB : ¬(⟨n + 1, h⟩ : Fin cfg3.N).val % 10 = 0 := by dsimp only; omega
    rw [outsAt3_B V c ⟨n + 1, h⟩ hB]
    dsimp only
    refine (congrFun (out_B_3 (F := Ideal) c (grid3.coords ⟨n + 1, h⟩) (ms3_0 ⟨n + 1, h⟩) (hs3_0 ⟨n + 1, h⟩) (ms3_1 ⟨n + 1, h⟩)
      (hs3_1 ⟨n + 1, h⟩) (ms3_2 ⟨n + 1, h⟩) (hs3_2 ⟨n + 1, h⟩) (ms3_3 ⟨n + 1, h⟩) (hs3_3 ⟨n + 1, h⟩)
      (fun hh => hB ((hcond3_0 ⟨n + 1, h⟩).mp hh)) (hblk V c ⟨n + 1, h⟩) (bblk V c ⟨n + 1, h⟩)
      (outsAt3 V c n (Nat.lt_of_succ_lt h)).1 (outsAt3 V c n (Nat.lt_of_succ_lt h)).2) (ix2 (0 : Fin 1) g)).trans ?_
    refine (pay5_apply (bblk V c ⟨n + 1, h⟩) (outsAt3 V c n (Nat.lt_of_succ_lt h)).2 g).trans ?_
    rw [Finset.sum_range_succ _ (n + 1), counts_after g n (Nat.lt_of_succ_lt h), S3_eq V c g ⟨n + 1, h⟩]

theorem nine_lt : 9 < cfg3.N := by rw [show cfg3.N = 10 from N_3]; decide

theorem sums_last (g : Fin 256) (f : Fin 16) :
    (outsAt3 V c 9 nine_lt).1 (ix2 g f) = ∑ e ∈ Cert.GcnLib.landing (barr V c) g, harr V c (ix2 e f) := by
  rw [sums_after V c g f 9 nine_lt, Finset.sum_range (fun k => S2 V c g f k),
    ← blocks_total (T := 10) (B := 10000) (N := 100000) rfl (by norm_num) (barr V c) (fun e => harr V c (ix2 e f)) g]
  refine Finset.sum_congr rfl fun t _ => ?_
  unfold S2
  rw [dif_pos t.isLt]

theorem counts_last (g : Fin 256) :
    (outsAt3 V c 9 nine_lt).2 (ix2 (0 : Fin 1) g) = ∑ e ∈ Cert.GcnLib.landing (barr V c) g, (1 : EReal) := by
  rw [counts_after V c g 9 nine_lt, Finset.sum_range (fun k => S3 V c g k),
    ← blocks_count (T := 10) (B := 10000) (N := 100000) rfl (by norm_num) (barr V c) g]
  refine Finset.sum_congr rfl fun t _ => ?_
  unfold S3
  rw [dif_pos t.isLt]

end Run

section Final

variable (V : (c : Dev nD) → (b : Ref sig .tc) → Buf (Elt Ideal) ((c : Thread nD τ).loc b)) (c : Dev nD)

abbrev res2 : Buf (Elt Ideal) ((c : Thread nD τ).loc main_v55_0) := (outsAt3 V c 9 nine_lt).1
abbrev res3 : Buf (Elt Ideal) ((c : Thread nD τ).loc main_v55_1) := (outsAt3 V c 9 nine_lt).2

theorem flushed2 (t : Fin cfg3.N) (hf : (cfg3.win 2).flush t = true) :
    (dat3 V c).flushed 2 t = ((cfg3.win 2).blk t).view.read (Elt Ideal) (res2 V c) := by
  have hN : cfg3.N = 10 := N_3
  have h9 : t.val = 9 := by have := (flush3_2 t).mp hf; have := t.isLt; omega
  obtain rfl : t = t3_9 := Fin.ext h9
  show (cfg3.win 2).cut (grid3.coords t3_9) ((dat3 V c).after 2 t3_9) = _
  rw [after3_2]
  have hz' : (fun a => win3_2.index t3_9 a * main_v55_0.ty.shape.size a) = fun _ => 0 := funext fun a => by fin_cases a <;> decide
  exact (Memref.read_access_unit_zero (Elt Ideal) main_v55_0 hz' (fun a => by rw [congrFun hz' a]; simp) (res2 V c)).symm

theorem flushed3 (t : Fin cfg3.N) (hf : (cfg3.win 3).flush t = true) :
    (dat3 V c).flushed 3 t = ((cfg3.win 3).blk t).view.read (Elt Ideal) (res3 V c) := by
  have hN : cfg3.N = 10 := N_3
  have h9 : t.val = 9 := by have := (flush3_3 t).mp hf; have := t.isLt; omega
  obtain rfl : t = t3_9 := Fin.ext h9
  show (cfg3.win 3).cut (grid3.coords t3_9) ((dat3 V c).after 3 t3_9) = _
  rw [after3_3]
  have hz' : (fun a => win3_3.index t3_9 a * main_v55_1.ty.shape.size a) = fun _ => 0 := funext fun a => by fin_cases a <;> decide
  exact (Memref.read_access_unit_zero (Elt Ideal) main_v55_1 hz' (fun a => by rw [congrFun hz' a]; simp) (res3 V c)).symm

theorem final2 : (dat3 V c).arrAt 2 cfg3.N = res2 V c :=
  (dat3 V c).arrAt_eq_of_cover 2 (res2 V c) (flushed2 V c) fun i =>
    ⟨t3_9, (flush3_2 t3_9).mpr rfl, by
      show i ∈ ((View.whole main_v55_0).slice (win3_2.rect t3_9)).set
      rw [View.set_slice_whole, Rect.mem_set_unit]
      intro a
      have h0 : (i 0 : Nat) < 256 := (i 0).isLt
      have h1 : (i 1 : Nat) < 16 := (i 1).isLt
      match a with
      | ⟨0, _⟩ => show win3_2.index t3_9 0 * win3_2.size 0 ≤ (i 0 : Nat) ∧ (i 0 : Nat) < win3_2.index t3_9 0 * win3_2.size 0 + win3_2.xsize (grid3.coords t3_9) 0
                  rw [show win3_2.index t3_9 0 * win3_2.size 0 = 0 from by decide +kernel, show win3_2.xsize (grid3.coords t3_9) 0 = 256 from by decide +kernel]; omega
      | ⟨1, _⟩ => show win3_2.index t3_9 1 * win3_2.size 1 ≤ (i 1 : Nat) ∧ (i 1 : Nat) < win3_2.index t3_9 1 * win3_2.size 1 + win3_2.xsize (grid3.coords t3_9) 1
                  rw [show win3_2.index t3_9 1 * win3_2.size 1 = 0 from by decide +kernel, show win3_2.xsize (grid3.coords t3_9) 1 = 16 from by decide +kernel]; omega⟩

theorem final3 : (dat3 V c).arrAt 3 cfg3.N = res3 V c :=
  (dat3 V c).arrAt_eq_of_cover 3 (res3 V c) (flushed3 V c) fun i =>
    ⟨t3_9, (flush3_3 t3_9).mpr rfl, by
      show i ∈ ((View.whole main_v55_1).slice (win3_3.rect t3_9)).set
      rw [View.set_slice_whole, Rect.mem_set_unit]
      intro a
      have h0 : (i 0 : Nat) < 1 := (i 0).isLt
      have h1 : (i 1 : Nat) < 256 := (i 1).isLt
      match a with
      | ⟨0, _⟩ => show win3_3.index t3_9 0 * win3_3.size 0 ≤ (i 0 : Nat) ∧ (i 0 : Nat) < win3_3.index t3_9 0 * win3_3.size 0 + win3_3.xsize (grid3.coords t3_9) 0
                  rw [show win3_3.index t3_9 0 * win3_3.size 0 = 0 from by decide +kernel, show win3_3.xsize (grid3.coords t3_9) 0 = 1 from by decide +kernel]; omega
      | ⟨1, _⟩ => show win3_3.index t3_9 1 * win3_3.size 1 ≤ (i 1 : Nat) ∧ (i 1 : Nat) < win3_3.index t3_9 1 * win3_3.size 1 + win3_3.xsize (grid3.coords t3_9) 1
                  rw [show win3_3.index t3_9 1 * win3_3.size 1 = 0 from by decide +kernel, show win3_3.xsize (grid3.coords t3_9) 1 = 256 from by decide +kernel]; omega⟩

end Final

section InRun

variable (m : (ℓ : Loc nD τ sig) → Buf (Elt Ideal) ℓ) (ρ : Dev nD → PrngReg) (c : Dev nD)

theorem W6_arg2 : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

abbrev kh2 : FVec Ideal S100000x16 .f32 := W6 m ρ c (Proc.devRef .tc main_v53)

theorem entry_h2 : harr (V7 m ρ) c = kh2 m ρ c := by
  show StableHlo.after hostOps3 (W6 m ρ c) (Proc.devRef .tc main_v53) = _
  after_results

theorem entry_batch : barr (V7 m ρ) c = col (m ((c : Thread nD τ).loc main_arg2)) := by
  have e : barr (V7 m ρ) c = shapeCast S100000x1 (W6 m ρ c (Proc.devRef .tc main_arg2)) shapeCasts_S100000_S100000x1 := by
    show StableHlo.after hostOps3 (W6 m ρ c) (Proc.devRef .tc main_v54) = _
    after_results
    rfl
  rw [e, W6_arg2]
  funext i
  obtain ⟨n, u, rfl⟩ : ∃ (n : Fin 100000) (u : Fin 1), i = ix2 n u := ⟨i 0, i 1, eq_ix2 i⟩
  refine shapeCast_apply _ _ (ix2 n u) (ix1 n) ?_
  rw [Shape.rowMajor_val_two, Shape.rowMajor_val_one]
  show n.val = n.val * 1 + u.val
  omega

theorem W8_sums (g : Fin 256) (f : Fin 16) :
    W8 m ρ c (Proc.devRef .tc main_v55_0) (ix2 g f)
      = ∑ e ∈ Cert.GcnLib.landing (col (m ((c : Thread nD τ).loc main_arg2))) g, kh2 m ρ c (ix2 e f) := by
  have e1 : W8 m ρ c (Proc.devRef .tc main_v55_0) = res2 (V7 m ρ) c := (W8_arr m ρ c 2).trans (final2 (V7 m ρ) c)
  rw [e1]
  refine (sums_last (V7 m ρ) c g f).trans ?_
  rw [entry_batch, entry_h2]

theorem W8_counts (g : Fin 256) :
    W8 m ρ c (Proc.devRef .tc main_v55_1) (ix2 (0 : Fin 1) g)
      = ∑ e ∈ Cert.GcnLib.landing (col (m ((c : Thread nD τ).loc main_arg2))) g, (1 : EReal) := by
  have e1 : W8 m ρ c (Proc.devRef .tc main_v55_1) = res3 (V7 m ρ) c := (W8_arr m ρ c 3).trans (final3 (V7 m ρ) c)
  rw [e1]
  refine (counts_last (V7 m ρ) c g).trans ?_
  rw [entry_batch]

end InRun

section Tail

variable (m : (ℓ : Loc nD τ sig) → Buf (Elt Ideal) ℓ) (ρ : Dev nD → PrngReg) (c : Dev nD)

theorem kX_term : W9 m ρ c (Proc.devRef .tc main_v61)
    = Host.divf (W8 m ρ c (Proc.devRef .tc main_v55_0))
        (broadcastInDim S256x16 ![0, 1] bcast_S256x1_S256x16_0_1 (broadcastInDim S256x1 ![0] bcast_S256_S256x1_0
          (maximumf (shapeCast S256 (W8 m ρ c (Proc.devRef .tc main_v55_1)) shapeCasts_S1x256_S256)
            (broadcastInDim S256 ![] bcast_S_S256 (constant (F := Ideal) S_ .f32 0x3F800000#32))))) := by
  show StableHlo.after hostOps4 (W8 m ρ c) (Proc.devRef .tc main_v61) = _
  generalize W8 m ρ c = V
  after_results
  rfl

theorem quot_apply (A : FVec Ideal S256x16 .f32) (B : FVec Ideal S1x256 .f32) (g : Fin 256) (f : Fin 16) :
    Host.divf A
        (broadcastInDim S256x16 ![0, 1] bcast_S256x1_S256x16_0_1 (broadcastInDim S256x1 ![0] bcast_S256_S256x1_0
          (maximumf (shapeCast S256 B shapeCasts_S1x256_S256)
            (broadcastInDim S256 ![] bcast_S_S256 (constant (F := Ideal) S_ .f32 0x3F800000#32))))) (ix2 g f)
      = Ideal.div (A (ix2 g f)) (max (B (ix2 (0 : Fin 1) g)) 1) := by
  rw [hostDivf_apply]
  refine congrArg (Ideal.div (A (ix2 g f))) ?_
  rw [broadcastInDim_apply _ bcast_S256x1_S256x16_0_1 _ (ix2 g f) (ix2 g 0) (fun a => by
      match a with
      | ⟨0, _⟩ => rfl
      | ⟨1, _⟩ => rfl),
    broadcastInDim_apply _ bcast_S256_S256x1_0 _ (ix2 g (0 : Fin 1)) (ix1 g) (fun a => by
      match a with
      | ⟨0, _⟩ => rfl)]
  show max (shapeCast S256 B shapeCasts_S1x256_S256 (ix1 g))
    (broadcastInDim S256 ![] bcast_S_S256 (constant (F := Ideal) S_ .f32 0x3F800000#32) (ix1 g)) = _
  rw [shapeCast_1a_a_apply, broadcastInDim_scalar_apply]
  exact congrArg (max (B (ix2 (0 : Fin 1) g))) Ideal.ofBits_one_f32

theorem kX_apply (g : Fin 256) (f : Fin 16) :
    (W9 m ρ c (Proc.devRef .tc main_v61) : FVec Ideal S256x16 .f32) (ix2 g f)
      = Ideal.div ((W8 m ρ c (Proc.devRef .tc main_v55_0) : FVec Ideal S256x16 .f32) (ix2 g f))
          (max ((W8 m ρ c (Proc.devRef .tc main_v55_1) : FVec Ideal S1x256 .f32) (ix2 (0 : Fin 1) g)) 1) := by
  rw [kX_term]
  exact quot_apply _ _ g f

end Tail

end Cert.Bridge.PoolKer

end
-- ==== Proof.StageDRef.lean ====
import proofs.«428246_j33844342293317_2_alg».proof.Proof.RefRun
import proofs.«428246_j33844342293317_2_alg».proof.Proof.RefOpsKeep
import proofs.«428246_j33844342293317_2_alg».proof.Proof.LibGraphRead
import Idealize.ShloMosaic.Lib.Pipeline.Value
import Idealize.ShloMosaic.Lib.IdealHost

noncomputable section

open scoped BigOperators

namespace Cert.Bridge.PoolRef

open Cert.ReferenceIdeal Cert.ReferenceIdeal.Gen Cert.ReferenceIdeal.RefOps Cert.ReferenceIdeal.RefRun
open Idealize.ShloMosaic Idealize.ShloMosaic.TcCoe Idealize.SL.Sem Idealize.ShloMosaic.StableHlo Idealize.ShloMosaic.ValueIdx

variable (m' : (ℓ : Loc nD τ sig) → Buf (Elt Ideal) ℓ) (c : Dev nD)

abbrev h2 : FVec Ideal S100000x16 .f32 := U3 m' c (Proc.devRef .tc main_v71)

abbrev batch : IVec S100000 32 := m' ((c.tc : Thread nD τ).loc main_arg2)

abbrev bcol : IVec S100000x1 32 := fun i => batch m' c (ix1 (i 0))

theorem U3_arg2 : U3 m' c (Proc.devRef .tc main_arg2) = batch m' c := by
  show StableHlo.after (stageC (F := Ideal)).flatten (StableHlo.after (stageB (F := Ideal)).flatten
    (StableHlo.after (stageA (F := Ideal)).flatten (U0 m' c))) (Proc.devRef .tc main_arg2) = _
  simp only [stageA, stageB, stageC, List.flatten_cons, List.flatten_nil, List.append_nil, StableHlo.after_append]
  rw [main_part1_ops2_keep _ _ (by decide), main_part1_ops1_keep _ _ (by decide), main_part1_ops0_keep _ _ (by decide),
    main_part0_ops4_keep _ _ (by decide), main_part0_ops3_keep _ _ (by decide), main_part0_ops2_keep _ _ (by decide),
    main_part0_ops1_keep _ _ (by decide), main_part0_ops0_keep _ _ (by decide)]

theorem bcast_col (b : IVec S100000 32) :
    broadcastInDim S100000x1 ![0] bcast_S100000_S100000x1_0 b = fun i => b (ix1 (i 0)) := by
  funext i
  refine broadcastInDim_apply _ _ b i (ix1 (i 0)) fun a => ?_
  match a with
  | ⟨0, _⟩ => rfl

theorem rX_term : U4 m' c (Proc.devRef .tc main_v83)
    = Host.divf
        (Host.scatterAdd scatter_S256x16_S100000x1_S100000x16_1_0_0_1
          (broadcastInDim S256x16 ![] bcast_S_S256x16 (constant (F := Ideal) S_ .f32 0x00000000#32)) (bcol m' c) (h2 m' c))
        (broadcastInDim S256x16 ![0, 1] bcast_S256x1_S256x16_0_1 (broadcastInDim S256x1 ![0] bcast_S256_S256x1_0
          (maximumf
            (Host.scatterAdd scatter_S256_S100000x1_S100000_n_0_0_1
              (broadcastInDim S256 ![] bcast_S_S256 (constant (F := Ideal) S_ .f32 0x00000000#32)) (bcol m' c)
              (broadcastInDim S100000 ![] bcast_S_S100000 (constant (F := Ideal) S_ .f32 0x3F800000#32)))
            (broadcastInDim S256 ![] bcast_S_S256 (constant (F := Ideal) S_ .f32 0x3F800000#32))))) := by
  show StableHlo.after (stageD (F := Ideal)).flatten (U3 m' c) (Proc.devRef .tc main_v83) = _
  simp only [stageD, List.flatten_cons, List.flatten_nil, List.append_nil]
  have e := U3_arg2 m' c
  unfold h2
  generalize U3 m' c = V at e ⊢
  show StableHlo.after main_part1_ops3 V (Proc.devRef .tc main_v83) = _
  after_results
  rw [e, bcast_col]

theorem rX_apply (g : Fin 256) (f : Fin 16) :
    U4 m' c (Proc.devRef .tc main_v83) (ix2 g f)
      = Ideal.div (∑ e ∈ Cert.GcnLib.landing (bcol m' c) g, h2 m' c (ix2 e f))
          (max (∑ e ∈ Cert.GcnLib.landing (bcol m' c) g, (1 : EReal)) 1) := by
  rw [rX_term]
  generalize h2 m' c = H
  generalize bcol m' c = idx
  have hnum : Host.scatterAdd scatter_S256x16_S100000x1_S100000x16_1_0_0_1
        (broadcastInDim S256x16 ![] bcast_S_S256x16 (constant (F := Ideal) S_ .f32 0x00000000#32)) idx H (ix2 g f)
      = ∑ e ∈ Cert.GcnLib.landing idx g, H (ix2 e f) := by
    show Ideal.hostScatterAdd scatter_S256x16_S100000x1_S100000x16_1_0_0_1 _ idx H (ix2 g f) = _
    rw [Cert.GcnLib.scatterAdd_rows_apply _ rfl rfl rfl rfl, broadcastInDim_scalar_apply]
    show Ideal.ofBits .f32 0x00000000#32 + _ = _
    rw [Ideal.ofBits_zero_f32, zero_add]
  have hcnt : Host.scatterAdd scatter_S256_S100000x1_S100000_n_0_0_1
        (broadcastInDim S256 ![] bcast_S_S256 (constant (F := Ideal) S_ .f32 0x00000000#32)) idx
        (broadcastInDim S100000 ![] bcast_S_S100000 (constant (F := Ideal) S_ .f32 0x3F800000#32)) (ix1 g)
      = ∑ e ∈ Cert.GcnLib.landing idx g, (1 : EReal) := by
    show Ideal.hostScatterAdd scatter_S256_S100000x1_S100000_n_0_0_1 _ idx _ (ix1 g) = _
    rw [Cert.GcnLib.scatterAdd_vec_apply _ rfl rfl rfl rfl, broadcastInDim_scalar_apply]
    show Ideal.ofBits .f32 0x00000000#32 + _ = _
    rw [Ideal.ofBits_zero_f32, zero_add]
    refine Finset.sum_congr rfl fun e _ => ?_
    rw [broadcastInDim_scalar_apply]
    exact Ideal.ofBits_one_f32
  have hone : broadcastInDim S256 ![] bcast_S_S256 (constant (F := Ideal) S_ .f32 0x3F800000#32) (ix1 g) = (1 : EReal) := by
    rw [broadcastInDim_scalar_apply]; exact Ideal.ofBits_one_f32
  rw [hostDivf_apply, hnum]
  refine congrArg (Ideal.div (∑ e ∈ Cert.GcnLib.landing idx g, H (ix2 e f))) ?_
  rw [broadcastInDim_apply _ bcast_S256x1_S256x16_0_1 _ (ix2 g f) (ix2 g 0) (fun a => by
      match a with
      | ⟨0, _⟩ => rfl
      | ⟨1, _⟩ => rfl),
    broadcastInDim_apply _ bcast_S256_S256x1_0 _ (ix2 g (0 : Fin 1)) (ix1 g) (fun a => by
      match a with
      | ⟨0, _⟩ => rfl)]
  show max _ _ = _
  rw [hcnt, hone]

end Cert.Bridge.PoolRef

end
-- ==== Proof.StageD.lean ====
import proofs.«428246_j33844342293317_2_alg».proof.Proof.Iface
import proofs.«428246_j33844342293317_2_alg».proof.Proof.StageDKer
import proofs.«428246_j33844342293317_2_alg».proof.Proof.StageDRef

noncomputable section

namespace Cert.Bridge

open Idealize.ShloMosaic Idealize.ShloMosaic.TcCoe Idealize.SL.Sem Idealize.ShloMosaic.ValueIdx
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

-- a one-hot product summed over row blocks is the per-graph sum; both sides divide by the count clamped below by one
theorem stageD (ha : Agree m m' c) (hC : kH2 m ρ c = rH2 m' c) : kX m ρ c = rX m' c := by
  funext i
  obtain ⟨g, f, rfl⟩ : ∃ (g : Fin 256) (f : Fin 16), i = ix2 g f := ⟨i 0, i 1, eq_ix2 i⟩

  have hb : PoolRef.bcol m' c = Pool.col (m ((c.tc : Thread Cert.KernelIdeal.nD Cert.KernelIdeal.τ).loc Cert.KernelIdeal.main_arg2)) := by
    funext j
    exact congrFun ha.a2 (ix1 (j 0))

  have hh : PoolKer.kh2 m ρ c = PoolRef.h2 m' c := hC
  refine (PoolKer.kX_apply m ρ c g f).trans ((PoolRef.rX_apply m' c g f).trans ?_).symm
  rw [hb]
  refine congrArg₂ Ideal.div ?_ (congrArg (max · 1) (PoolKer.W8_counts m ρ c g).symm)
  rw [PoolKer.W8_sums m ρ c g f, hh]

end Cert.Bridge

end
-- ==== Proof.StageENames.lean ====
import proofs.«428246_j33844342293317_2_alg».proof.Proof.Gen.KernelIdeal.Frame
import proofs.«428246_j33844342293317_2_alg».proof.Proof.RefRun
import Idealize.ShloMosaic.PureOps.Ideal

noncomputable section

namespace Cert.Bridge.Head

open Idealize.ShloMosaic Idealize.ShloMosaic.TcCoe Idealize.SL.Sem
open Idealize.ShloMosaic.StableHlo

abbrev KV := Valuation Cert.KernelIdeal.τ Cert.KernelIdeal.sig (Elt Ideal)

abbrev RV := Valuation Cert.ReferenceIdeal.τ Cert.ReferenceIdeal.sig (Elt Ideal)

abbrev kBlockA (V : KV) : KV := (after (Cert.KernelIdeal.Gen.hostOps4_3 (F := Ideal)) (after (Cert.KernelIdeal.Gen.hostOps4_2 (F := Ideal)) (after (Cert.KernelIdeal.Gen.hostOps4_1 (F := Ideal)) V)))

abbrev kBlockB (V : KV) : KV := (after (Cert.KernelIdeal.Gen.hostOps4_7 (F := Ideal)) (after (Cert.KernelIdeal.Gen.hostOps4_6 (F := Ideal)) (after (Cert.KernelIdeal.Gen.hostOps4_5 (F := Ideal)) (after (Cert.KernelIdeal.Gen.hostOps4_4 (F := Ideal)) V))))

abbrev kBlockC (V : KV) : KV := (after (Cert.KernelIdeal.Gen.hostOps4_11 (F := Ideal)) (after (Cert.KernelIdeal.Gen.hostOps4_10 (F := Ideal)) (after (Cert.KernelIdeal.Gen.hostOps4_9 (F := Ideal)) (after (Cert.KernelIdeal.Gen.hostOps4_8 (F := Ideal)) V))))

abbrev kBlockD (V : KV) : KV := (after (Cert.KernelIdeal.Gen.hostOps4_12 (F := Ideal)) V)

abbrev rBlock0 (V : RV) : RV := (after (Cert.ReferenceIdeal.RefOps.main_part1_ops4 (F := Ideal)) V)

abbrev rBlockA (V : RV) : RV := (after (Cert.ReferenceIdeal.RefOps.main_part2_ops1 (F := Ideal)) (after (Cert.ReferenceIdeal.RefOps.main_part2_ops0 (F := Ideal)) (after (Cert.ReferenceIdeal.RefOps.main_part1_ops6 (F := Ideal)) (after (Cert.ReferenceIdeal.RefOps.main_part1_ops5 (F := Ideal)) V))))

abbrev rBlockB (V : RV) : RV := (after (Cert.ReferenceIdeal.RefOps.main_part2_ops5 (F := Ideal)) (after (Cert.ReferenceIdeal.RefOps.main_part2_ops4 (F := Ideal)) (after (Cert.ReferenceIdeal.RefOps.main_part2_ops3 (F := Ideal)) (after (Cert.ReferenceIdeal.RefOps.main_part2_ops2 (F := Ideal)) V))))

abbrev rBlockC (V : RV) : RV := (after (Cert.ReferenceIdeal.RefOps.main_part3_ops1 (F := Ideal)) (after (Cert.ReferenceIdeal.RefOps.main_part3_ops0 (F := Ideal)) (after (Cert.ReferenceIdeal.RefOps.main_part2_ops8 (F := Ideal)) (after (Cert.ReferenceIdeal.RefOps.main_part2_ops7 (F := Ideal)) (after (Cert.ReferenceIdeal.RefOps.main_part2_ops6 (F := Ideal)) V)))))

abbrev rBlockD (V : RV) : RV := (after (Cert.ReferenceIdeal.RefOps.main_part3_ops2 (F := Ideal)) V)

macro "head_results" loc:(Lean.Parser.Tactic.location)? : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] $[$loc]?)

end Cert.Bridge.Head

end
-- ==== Proof.StageEBlockA.lean ====
import proofs.«428246_j33844342293317_2_alg».proof.Proof.StageENames

noncomputable section

namespace Cert.Bridge.Head

open Idealize.ShloMosaic Idealize.ShloMosaic.TcCoe Idealize.SL.Sem
open Idealize.ShloMosaic.StableHlo

theorem block0 (V : KV) (V' : RV)
    (hx : after (Cert.KernelIdeal.Gen.hostOps4 (F := Ideal)) V (Proc.devRef .tc Cert.KernelIdeal.main_v61) = V' (Proc.devRef .tc Cert.ReferenceIdeal.main_v83)) :
    after (Cert.KernelIdeal.Gen.hostOps4 (F := Ideal)) V (Proc.devRef .tc Cert.KernelIdeal.main_v64) = rBlock0 V' (Proc.devRef .tc Cert.ReferenceIdeal.main_v86)
    ∧ after (Cert.KernelIdeal.Gen.hostOps4 (F := Ideal)) V (Proc.devRef .tc Cert.KernelIdeal.main_c_13) = rBlock0 V' (Proc.devRef .tc Cert.ReferenceIdeal.main_c_17)
    ∧ after (Cert.KernelIdeal.Gen.hostOps4 (F := Ideal)) V (Proc.devRef .tc Cert.KernelIdeal.main_v61) = rBlock0 V' (Proc.devRef .tc Cert.ReferenceIdeal.main_v83) := by
  dsimp only [rBlock0]
  head_results at hx ⊢
  refine ⟨?_, ?_, hx⟩
  · rw [hx]
  · trivial

theorem blockA (V : KV) (V' : RV) (hx : V (Proc.devRef .tc Cert.KernelIdeal.main_v61) = V' (Proc.devRef .tc Cert.ReferenceIdeal.main_v83)) (hm : V (Proc.devRef .tc Cert.KernelIdeal.main_v64) = V' (Proc.devRef .tc Cert.ReferenceIdeal.main_v86)) (hc : V (Proc.devRef .tc Cert.KernelIdeal.main_c_13) = V' (Proc.devRef .tc Cert.ReferenceIdeal.main_c_17))
    (h11 : V (Proc.devRef .tc Cert.KernelIdeal.main_arg11) = V' (Proc.devRef .tc Cert.ReferenceIdeal.main_arg11)) (h12 : V (Proc.devRef .tc Cert.KernelIdeal.main_arg12) = V' (Proc.devRef .tc Cert.ReferenceIdeal.main_arg12)) (h13 : V (Proc.devRef .tc Cert.KernelIdeal.main_arg13) = V' (Proc.devRef .tc Cert.ReferenceIdeal.main_arg13)) (h14 : V (Proc.devRef .tc Cert.KernelIdeal.main_arg14) = V' (Proc.devRef .tc Cert.ReferenceIdeal.main_arg14)) :
    kBlockA V (Proc.devRef .tc Cert.KernelIdeal.main_v86) = rBlockA V' (Proc.devRef .tc Cert.ReferenceIdeal.main_v108) := by
  dsimp only [kBlockA, rBlockA]
  after_results_simp
  rw [hx, hm, hc, h11, h12, h13, h14]
  rfl

theorem blockA_x (V : KV) (V' : RV) (hx : V (Proc.devRef .tc Cert.KernelIdeal.main_v61) = V' (Proc.devRef .tc Cert.ReferenceIdeal.main_v83)) :
    kBlockA V (Proc.devRef .tc Cert.KernelIdeal.main_v61) = rBlockA V' (Proc.devRef .tc Cert.ReferenceIdeal.main_v83) := by
  dsimp only [kBlockA, rBlockA]
  after_results_simp
  exact hx

end Cert.Bridge.Head

end
-- ==== Proof.StageEBlockB.lean ====
import proofs.«428246_j33844342293317_2_alg».proof.Proof.StageENames

noncomputable section

namespace Cert.Bridge.Head

open Idealize.ShloMosaic Idealize.ShloMosaic.TcCoe Idealize.SL.Sem
open Idealize.ShloMosaic.StableHlo

theorem blockB (V : KV) (V' : RV) (h1 : V (Proc.devRef .tc Cert.KernelIdeal.main_v86) = V' (Proc.devRef .tc Cert.ReferenceIdeal.main_v108)) (hx : V (Proc.devRef .tc Cert.KernelIdeal.main_v61) = V' (Proc.devRef .tc Cert.ReferenceIdeal.main_v83))
    (h15 : V (Proc.devRef .tc Cert.KernelIdeal.main_arg15) = V' (Proc.devRef .tc Cert.ReferenceIdeal.main_arg15)) (h16 : V (Proc.devRef .tc Cert.KernelIdeal.main_arg16) = V' (Proc.devRef .tc Cert.ReferenceIdeal.main_arg16)) (h17 : V (Proc.devRef .tc Cert.KernelIdeal.main_arg17) = V' (Proc.devRef .tc Cert.ReferenceIdeal.main_arg17)) (h18 : V (Proc.devRef .tc Cert.KernelIdeal.main_arg18) = V' (Proc.devRef .tc Cert.ReferenceIdeal.main_arg18)) :
    kBlockB V (Proc.devRef .tc Cert.KernelIdeal.main_v112) = rBlockB V' (Proc.devRef .tc Cert.ReferenceIdeal.main_v134) := by
  dsimp only [kBlockB, rBlockB]
  after_results_simp
  rw [h1, hx, h15, h16, h17, h18]
  rfl

theorem blockB_x (V : KV) (V' : RV) (hx : V (Proc.devRef .tc Cert.KernelIdeal.main_v61) = V' (Proc.devRef .tc Cert.ReferenceIdeal.main_v83)) :
    kBlockB V (Proc.devRef .tc Cert.KernelIdeal.main_v61) = rBlockB V' (Proc.devRef .tc Cert.ReferenceIdeal.main_v83) := by
  dsimp only [kBlockB, rBlockB]
  after_results_simp
  exact hx

end Cert.Bridge.Head

end
-- ==== Proof.StageEBlockC.lean ====
import proofs.«428246_j33844342293317_2_alg».proof.Proof.StageENames

noncomputable section

namespace Cert.Bridge.Head

open Idealize.ShloMosaic Idealize.ShloMosaic.TcCoe Idealize.SL.Sem
open Idealize.ShloMosaic.StableHlo

theorem blockC (V : KV) (V' : RV) (h2 : V (Proc.devRef .tc Cert.KernelIdeal.main_v112) = V' (Proc.devRef .tc Cert.ReferenceIdeal.main_v134)) (hx : V (Proc.devRef .tc Cert.KernelIdeal.main_v61) = V' (Proc.devRef .tc Cert.ReferenceIdeal.main_v83))
    (h19 : V (Proc.devRef .tc Cert.KernelIdeal.main_arg19) = V' (Proc.devRef .tc Cert.ReferenceIdeal.main_arg19)) (h20 : V (Proc.devRef .tc Cert.KernelIdeal.main_arg20) = V' (Proc.devRef .tc Cert.ReferenceIdeal.main_arg20)) (h21 : V (Proc.devRef .tc Cert.KernelIdeal.main_arg21) = V' (Proc.devRef .tc Cert.ReferenceIdeal.main_arg21)) (h22 : V (Proc.devRef .tc Cert.KernelIdeal.main_arg22) = V' (Proc.devRef .tc Cert.ReferenceIdeal.main_arg22)) :
    kBlockC V (Proc.devRef .tc Cert.KernelIdeal.main_v138) = rBlockC V' (Proc.devRef .tc Cert.ReferenceIdeal.main_v160) := by
  dsimp only [kBlockC, rBlockC]
  after_results_simp
  rw [h2, hx, h19, h20, h21, h22]
  rfl

theorem blockD (V : KV) (V' : RV) (h3 : V (Proc.devRef .tc Cert.KernelIdeal.main_v138) = V' (Proc.devRef .tc Cert.ReferenceIdeal.main_v160)) (h23 : V (Proc.devRef .tc Cert.KernelIdeal.main_arg23) = V' (Proc.devRef .tc Cert.ReferenceIdeal.main_arg23)) (h24 : V (Proc.devRef .tc Cert.KernelIdeal.main_arg24) = V' (Proc.devRef .tc Cert.ReferenceIdeal.main_arg24)) :
    kBlockD V (Proc.devRef .tc Cert.KernelIdeal.main_v143) = rBlockD V' (Proc.devRef .tc Cert.ReferenceIdeal.main_v165) := by
  dsimp only [kBlockD, rBlockD]
  after_results_simp
  rw [h3, h23, h24]
  rfl

end Cert.Bridge.Head

end
-- ==== Proof.StageERun.lean ====
import proofs.«428246_j33844342293317_2_alg».proof.Proof.StageENames

noncomputable section

namespace Cert.Bridge.Head

open Idealize.ShloMosaic Idealize.ShloMosaic.TcCoe Idealize.SL.Sem
open Idealize.ShloMosaic.StableHlo

abbrev rPre (V : RV) : RV := (after (Cert.ReferenceIdeal.RefOps.main_part1_ops3 (F := Ideal)) (after (Cert.ReferenceIdeal.RefOps.main_part1_ops2 (F := Ideal)) (after (Cert.ReferenceIdeal.RefOps.main_part1_ops1 (F := Ideal)) (after (Cert.ReferenceIdeal.RefOps.main_part1_ops0 (F := Ideal)) (after (Cert.ReferenceIdeal.RefOps.main_part0_ops4 (F := Ideal)) (after (Cert.ReferenceIdeal.RefOps.main_part0_ops3 (F := Ideal)) (after (Cert.ReferenceIdeal.RefOps.main_part0_ops2 (F := Ideal)) (after (Cert.ReferenceIdeal.RefOps.main_part0_ops1 (F := Ideal)) (after (Cert.ReferenceIdeal.RefOps.main_part0_ops0 (F := Ideal)) V)))))))))

section
open Cert.ReferenceIdeal Cert.ReferenceIdeal.RefRun
variable (m' : (ℓ : Loc nD τ sig) → Buf (Elt Ideal) ℓ) (c : Dev nD)

theorem U4_eq : U4 m' c = rPre (launchContents m' c) := by
  show after (stageD (F := Ideal)).flatten (after (stageC (F := Ideal)).flatten (after (stageB (F := Ideal)).flatten
    (after (stageA (F := Ideal)).flatten (launchContents m' c)))) = _
  simp only [List.flatten_cons, List.flatten_nil, List.append_nil, after_append]

theorem U5_eq : U5 m' c = rBlockD (rBlockC (rBlockB (rBlockA (rBlock0 (U4 m' c))))) := by
  show after (stageE (F := Ideal)).flatten (U4 m' c) = _
  simp only [List.flatten_cons, List.flatten_nil, List.append_nil, after_append]
end

end Cert.Bridge.Head

end
-- ==== Proof.StageEArgs.lean ====
import proofs.«428246_j33844342293317_2_alg».proof.Proof.StageERun
import proofs.«428246_j33844342293317_2_alg».proof.Proof.RefOpsKeep

noncomputable section

namespace Cert.Bridge.Head

open Idealize.ShloMosaic Idealize.ShloMosaic.TcCoe Idealize.SL.Sem Idealize.ShloMosaic.StableHlo

section Reference
open Cert.ReferenceIdeal Cert.ReferenceIdeal.RefRun Cert.ReferenceIdeal.RefOps

abbrev rWPre : List (Ref sig .tc) := main_part0_ops0_W ++ main_part0_ops1_W ++ main_part0_ops2_W ++ main_part0_ops3_W
  ++ main_part0_ops4_W ++ main_part1_ops0_W ++ main_part1_ops1_W ++ main_part1_ops2_W ++ main_part1_ops3_W
abbrev rWA : List (Ref sig .tc) := main_part1_ops5_W ++ main_part1_ops6_W ++ main_part2_ops0_W ++ main_part2_ops1_W
abbrev rWB : List (Ref sig .tc) := main_part2_ops2_W ++ main_part2_ops3_W ++ main_part2_ops4_W ++ main_part2_ops5_W
abbrev rWC : List (Ref sig .tc) := main_part2_ops6_W ++ main_part2_ops7_W ++ main_part2_ops8_W ++ main_part3_ops0_W
  ++ main_part3_ops1_W

theorem rPre_keeps : Keeps rPre rWPre :=
  main_part0_ops0_keep.comp main_part0_ops1_keep |>.comp main_part0_ops2_keep |>.comp main_part0_ops3_keep
    |>.comp main_part0_ops4_keep |>.comp main_part1_ops0_keep |>.comp main_part1_ops1_keep |>.comp main_part1_ops2_keep
    |>.comp main_part1_ops3_keep
theorem rBlockA_keeps : Keeps rBlockA rWA :=
  main_part1_ops5_keep.comp main_part1_ops6_keep |>.comp main_part2_ops0_keep |>.comp main_part2_ops1_keep
theorem rBlockB_keeps : Keeps rBlockB rWB :=
  main_part2_ops2_keep.comp main_part2_ops3_keep |>.comp main_part2_ops4_keep |>.comp main_part2_ops5_keep
theorem rBlockC_keeps : Keeps rBlockC rWC :=
  main_part2_ops6_keep.comp main_part2_ops7_keep |>.comp main_part2_ops8_keep |>.comp main_part3_ops0_keep
    |>.comp main_part3_ops1_keep

variable (m' : (ℓ : Loc nD τ sig) → Buf (Elt Ideal) ℓ) (c : Dev nD) (r : Ref sig .tc)

-- a buffer nothing has written yet holds, where a block of the head begins, what the launch memory holds
theorem rStartA (h : r ∉ rWPre ++ main_part1_ops4_W) :
    rBlock0 (U4 m' c) (Proc.devRef .tc r) = m' ((c.tc : Thread nD τ).loc r) := by
  rw [U4_eq]; exact (rPre_keeps.comp main_part1_ops4_keep) _ r h
theorem rStartB (h : r ∉ rWPre ++ main_part1_ops4_W ++ rWA) :
    rBlockA (rBlock0 (U4 m' c)) (Proc.devRef .tc r) = m' ((c.tc : Thread nD τ).loc r) := by
  rw [U4_eq]; exact (rPre_keeps.comp main_part1_ops4_keep |>.comp rBlockA_keeps) _ r h
theorem rStartC (h : r ∉ rWPre ++ main_part1_ops4_W ++ rWA ++ rWB) :
    rBlockB (rBlockA (rBlock0 (U4 m' c))) (Proc.devRef .tc r) = m' ((c.tc : Thread nD τ).loc r) := by
  rw [U4_eq]; exact (rPre_keeps.comp main_part1_ops4_keep |>.comp rBlockA_keeps |>.comp rBlockB_keeps) _ r h
theorem rStartD (h : r ∉ rWPre ++ main_part1_ops4_W ++ rWA ++ rWB ++ rWC) :
    rBlockC (rBlockB (rBlockA (rBlock0 (U4 m' c)))) (Proc.devRef .tc r) = m' ((c.tc : Thread nD τ).loc r) := by
  rw [U4_eq]
  exact (rPre_keeps.comp main_part1_ops4_keep |>.comp rBlockA_keeps |>.comp rBlockB_keeps |>.comp rBlockC_keeps) _ r h
theorem rEnd (h : r ∉ rWPre ++ main_part1_ops4_W ++ rWA ++ rWB ++ rWC ++ main_part3_ops2_W) :
    U5 m' c (Proc.devRef .tc r) = m' ((c.tc : Thread nD τ).loc r) := by
  rw [U5_eq, U4_eq]
  exact (rPre_keeps.comp main_part1_ops4_keep |>.comp rBlockA_keeps |>.comp rBlockB_keeps |>.comp rBlockC_keeps
    |>.comp main_part3_ops2_keep) _ r h

end Reference

section Kernel
open Cert.KernelIdeal Cert.KernelIdeal.Gen

abbrev kWA : List (Ref sig .tc) :=
  [main_call0_cst, main_call0_v0, main_call0_v1, main_call0_cst_0, main_call0_v2, main_call0_v3, main_call0_v4,
   main_call0_v5, main_call0_v6, main_call0_v7, main_call0_cst_1, main_call0_v8, main_call0_cst_2, main_call0_v9,
   main_call0_v10, main_call0_v11, main_call0_cst_3, main_call0_v12, main_call0_cst_4, main_call0_call0_v0,
   main_call0_call0_v1, main_v65, main_v66, main_v67, main_v68, main_cst_14, main_v69, main_v70, main_v71, main_v72,
   main_v73, main_v74, main_v75, main_v76, main_v77, main_v78, main_v79, main_v80, main_v81, main_v82, main_v83,
   main_v84, main_v85, main_call1_cst, main_call1_v0, main_v86]
theorem kBlockA_keeps : Keeps kBlockA kWA := fun V r h =>
  (congrFun (by simp only [after_append] : kBlockA V = after (hostOps4_1 ++ hostOps4_2 ++ hostOps4_3) V) _).trans
    (Keeps.of_writes (by
    simp only [hostOps4_1, hostOps4_2, hostOps4_3, List.cons_append, List.nil_append, List.Forall, nullary_writes, unary_writes, binary_writes,
      ternary_writes, quaternary_writes, reshape_writes, Finset.singleton_subset_iff, List.mem_toFinset]
    repeat' apply And.intro
    all_goals exact List.mem_map_of_mem (by decide)) V r h)
abbrev kWB : List (Ref sig .tc) :=
  [main_v87, main_cst_15, main_v88, main_cst_16, main_v89, main_v90, main_c_17, main_call2_cst, main_call2_v0,
   main_call2_v1, main_call2_cst_0, main_call2_v2, main_call2_v3, main_call2_v4, main_call2_v5, main_call2_v6,
   main_call2_v7, main_call2_cst_1, main_call2_v8, main_call2_cst_2, main_call2_v9, main_call2_v10, main_call2_v11,
   main_call2_cst_3, main_call2_v12, main_call2_cst_4, main_call2_call0_v0, main_call2_call0_v1, main_v91, main_v92,
   main_v93, main_v94, main_cst_18, main_v95, main_v96, main_v97, main_v98, main_v99, main_v100, main_v101, main_v102,
   main_v103, main_v104, main_v105, main_v106, main_v107, main_v108, main_v109, main_v110, main_v111, main_call3_cst,
   main_call3_v0, main_v112]
theorem kBlockB_keeps : Keeps kBlockB kWB := fun V r h =>
  (congrFun (by simp only [after_append] : kBlockB V = after (hostOps4_4 ++ hostOps4_5 ++ hostOps4_6 ++ hostOps4_7) V) _).trans
    (Keeps.of_writes (by
    simp only [hostOps4_4, hostOps4_5, hostOps4_6, hostOps4_7, List.cons_append, List.nil_append, List.Forall, nullary_writes, unary_writes, binary_writes,
      ternary_writes, quaternary_writes, reshape_writes, Finset.singleton_subset_iff, List.mem_toFinset]
    repeat' apply And.intro
    all_goals exact List.mem_map_of_mem (by decide)) V r h)
abbrev kWC : List (Ref sig .tc) :=
  [main_v113, main_cst_19, main_v114, main_cst_20, main_v115, main_v116, main_c_21, main_call4_cst, main_call4_v0,
   main_call4_v1, main_call4_cst_0, main_call4_v2, main_call4_v3, main_call4_v4, main_call4_v5, main_call4_v6,
   main_call4_v7, main_call4_cst_1, main_call4_v8, main_call4_cst_2, main_call4_v9, main_call4_v10, main_call4_v11,
   main_call4_cst_3, main_call4_v12, main_call4_cst_4, main_call4_call0_v0, main_call4_call0_v1, main_v117, main_v118,
   main_v119, main_v120, main_cst_22, main_v121, main_v122, main_v123, main_v124, main_v125, main_v126, main_v127,
   main_v128, main_v129, main_v130, main_v131, main_v132, main_v133, main_v134, main_v135, main_v136, main_v137,
   main_call5_cst, main_call5_v0, main_v138]
theorem kBlockC_keeps : Keeps kBlockC kWC := fun V r h =>
  (congrFun (by simp only [after_append] : kBlockC V = after (hostOps4_8 ++ hostOps4_9 ++ hostOps4_10 ++ hostOps4_11) V) _).trans
    (Keeps.of_writes (by
    simp only [hostOps4_8, hostOps4_9, hostOps4_10, hostOps4_11, List.cons_append, List.nil_append, List.Forall, nullary_writes, unary_writes, binary_writes,
      ternary_writes, quaternary_writes, reshape_writes, Finset.singleton_subset_iff, List.mem_toFinset]
    repeat' apply And.intro
    all_goals exact List.mem_map_of_mem (by decide)) V r h)
abbrev kWD : List (Ref sig .tc) :=
  [main_v139, main_v140, main_v141, main_v142, main_v143]
theorem kBlockD_keeps : Keeps kBlockD kWD := fun V r h =>
  (Keeps.of_writes (by
    simp only [hostOps4_12, List.cons_append, List.nil_append, List.Forall, nullary_writes, unary_writes, binary_writes,
      ternary_writes, quaternary_writes, reshape_writes, Finset.singleton_subset_iff, List.mem_toFinset]
    repeat' apply And.intro
    all_goals exact List.mem_map_of_mem (by decide)) V r h)

variable (m : (ℓ : Loc nD τ sig) → Buf (Elt Ideal) ℓ) (ρ : Dev nD → PrngReg) (c : Dev nD) (r : Ref sig .tc)

-- a buffer the rest of the head does not write holds, where a block begins, what it holds at the end
theorem kW9 (h : r ∉ kWA ++ kWB ++ kWC ++ kWD) : W9 m ρ c (Proc.devRef .tc r) = W21 m ρ c (Proc.devRef .tc r) :=
  ((kBlockA_keeps.comp kBlockB_keeps |>.comp kBlockC_keeps |>.comp kBlockD_keeps) (W9 m ρ c) r h).symm
theorem kW12 (h : r ∉ kWB ++ kWC ++ kWD) : W12 m ρ c (Proc.devRef .tc r) = W21 m ρ c (Proc.devRef .tc r) :=
  ((kBlockB_keeps.comp kBlockC_keeps |>.comp kBlockD_keeps) (W12 m ρ c) r h).symm
theorem kW16 (h : r ∉ kWC ++ kWD) : W16 m ρ c (Proc.devRef .tc r) = W21 m ρ c (Proc.devRef .tc r) :=
  ((kBlockC_keeps.comp kBlockD_keeps) (W16 m ρ c) r h).symm
theorem kW20 (h : r ∉ kWD) : W20 m ρ c (Proc.devRef .tc r) = W21 m ρ c (Proc.devRef .tc r) :=
  (kBlockD_keeps (W20 m ρ c) r h).symm

end Kernel

end Cert.Bridge.Head

end
-- ==== Proof.StageE.lean ====
import proofs.«428246_j33844342293317_2_alg».proof.Proof.Iface
import proofs.«428246_j33844342293317_2_alg».proof.Proof.StageEBlockA
import proofs.«428246_j33844342293317_2_alg».proof.Proof.StageEBlockB
import proofs.«428246_j33844342293317_2_alg».proof.Proof.StageEBlockC
import proofs.«428246_j33844342293317_2_alg».proof.Proof.StageEArgs

noncomputable section

namespace Cert.Bridge

open Idealize.ShloMosaic Idealize.ShloMosaic.TcCoe Idealize.SL.Sem Idealize.ShloMosaic.ValueIdx
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The head applies the same operations, block by block, to the same encoding and the same parameters: each parameter is,
    where its block begins, the launch memory's on both sides. -/
theorem stageE (ha : Agree m m' c) (hD : kX m ρ c = rX m' c) : kOut m ρ c = rOut m' c := by
  show Cert.KernelIdeal.Gen.W21 m ρ c (Proc.devRef .tc Cert.KernelIdeal.main_v143)
    = Cert.ReferenceIdeal.RefRun.U5 m' c (Proc.devRef .tc Cert.ReferenceIdeal.main_v165)
  rw [Head.U5_eq m' c]
  obtain ⟨hm, hc, hx⟩ := Head.block0 (Cert.KernelIdeal.Gen.W8 m ρ c) (Cert.ReferenceIdeal.RefRun.U4 m' c) hD
  have hA := Head.blockA (Cert.KernelIdeal.Gen.W9 m ρ c) _ hx hm hc
    ((Head.kW9 m ρ c _ (by decide)).trans ((Cert.KernelIdeal.Gen.W21_main_arg11 m ρ c).trans (ha.a11.symm.trans (Head.rStartA m' c _ (by decide)).symm)))
    ((Head.kW9 m ρ c _ (by decide)).trans ((Cert.KernelIdeal.Gen.W21_main_arg12 m ρ c).trans (ha.a12.symm.trans (Head.rStartA m' c _ (by decide)).symm)))
    ((Head.kW9 m ρ c _ (by decide)).trans ((Cert.KernelIdeal.Gen.W21_main_arg13 m ρ c).trans (ha.a13.symm.trans (Head.rStartA m' c _ (by decide)).symm)))
    ((Head.kW9 m ρ c _ (by decide)).trans ((Cert.KernelIdeal.Gen.W21_main_arg14 m ρ c).trans (ha.a14.symm.trans (Head.rStartA m' c _ (by decide)).symm)))
  have hAx := Head.blockA_x (Cert.KernelIdeal.Gen.W9 m ρ c) _ hx
  have hB := Head.blockB (Cert.KernelIdeal.Gen.W12 m ρ c) _ hA hAx
    ((Head.kW12 m ρ c _ (by decide)).trans ((Cert.KernelIdeal.Gen.W21_main_arg15 m ρ c).trans (ha.a15.symm.trans (Head.rStartB m' c _ (by decide)).symm)))
    ((Head.kW12 m ρ c _ (by decide)).trans ((Cert.KernelIdeal.Gen.W21_main_arg16 m ρ c).trans (ha.a16.symm.trans (Head.rStartB m' c _ (by decide)).symm)))
    ((Head.kW12 m ρ c _ (by decide)).trans ((Cert.KernelIdeal.Gen.W21_main_arg17 m ρ c).trans (ha.a17.symm.trans (Head.rStartB m' c _ (by decide)).symm)))
    ((Head.kW12 m ρ c _ (by decide)).trans ((Cert.KernelIdeal.Gen.W21_main_arg18 m ρ c).trans (ha.a18.symm.trans (Head.rStartB m' c _ (by decide)).symm)))
  have hBx := Head.blockB_x (Cert.KernelIdeal.Gen.W12 m ρ c) _ hAx
  have hC := Head.blockC (Cert.KernelIdeal.Gen.W16 m ρ c) _ hB hBx
    ((Head.kW16 m ρ c _ (by decide)).trans ((Cert.KernelIdeal.Gen.W21_main_arg19 m ρ c).trans (ha.a19.symm.trans (Head.rStartC m' c _ (by decide)).symm)))
    ((Head.kW16 m ρ c _ (by decide)).trans ((Cert.KernelIdeal.Gen.W21_main_arg20 m ρ c).trans (ha.a20.symm.trans (Head.rStartC m' c _ (by decide)).symm)))
    ((Head.kW16 m ρ c _ (by decide)).trans ((Cert.KernelIdeal.Gen.W21_main_arg21 m ρ c).trans (ha.a21.symm.trans (Head.rStartC m' c _ (by decide)).symm)))
    ((Head.kW16 m ρ c _ (by decide)).trans ((Cert.KernelIdeal.Gen.W21_main_arg22 m ρ c).trans (ha.a22.symm.trans (Head.rStartC m' c _ (by decide)).symm)))
  exact Head.blockD (Cert.KernelIdeal.Gen.W20 m ρ c) _ hC
    ((Head.kW20 m ρ c _ (by decide)).trans ((Cert.KernelIdeal.Gen.W21_main_arg23 m ρ c).trans (ha.a23.symm.trans (Head.rStartD m' c _ (by decide)).symm)))
    ((Head.kW20 m ρ c _ (by decide)).trans ((Cert.KernelIdeal.Gen.W21_main_arg24 m ρ c).trans (ha.a24.symm.trans (Head.rStartD m' c _ (by decide)).symm)))

end Cert.Bridge

end
-- ==== Proof.lean ====
/-
  A two-layer mean-aggregating graph convolution with batch normalisation between the layers, a per-graph mean and a
  dense head: h0 = relu(agg(x)·W1lᵀ + x·W1rᵀ + b1), hbn = batchnorm(h0), h2 = relu(agg(hbn)·W2lᵀ + hbn·W2rᵀ + b2),
  xe = per-graph mean of h2, out = head(xe). Both programs compute these five stages; each stage's results are equal given
  the previous stage's (batchnorm needs every entry of h0 real, which finite inputs give), and the equalities are chained.
-/
import proofs.«428246_j33844342293317_2_alg».proof.Defs
import proofs.«428246_j33844342293317_2_alg».proof.Proof.Gen.Kernel.Frame
import proofs.«428246_j33844342293317_2_alg».proof.Proof.Gen.KernelIdeal.Frame
import proofs.«428246_j33844342293317_2_alg».proof.Proof.Gen.ReferenceIdeal
import proofs.«428246_j33844342293317_2_alg».proof.Proof.Gen.Pre_finite_inputs
import proofs.«428246_j33844342293317_2_alg».proof.Proof.KRun
import proofs.«428246_j33844342293317_2_alg».proof.Proof.RefRun
import proofs.«428246_j33844342293317_2_alg».proof.Proof.Iface
import proofs.«428246_j33844342293317_2_alg».proof.Proof.StageAVal
import proofs.«428246_j33844342293317_2_alg».proof.Proof.StageAAcc
import proofs.«428246_j33844342293317_2_alg».proof.Proof.StageAFin
import proofs.«428246_j33844342293317_2_alg».proof.Proof.StageB
import proofs.«428246_j33844342293317_2_alg».proof.Proof.StageC
import proofs.«428246_j33844342293317_2_alg».proof.Proof.StageD
import proofs.«428246_j33844342293317_2_alg».proof.Proof.StageE

set_option maxHeartbeats 1000000

noncomputable section

namespace Cert.Proof

open Idealize.ShloMosaic Idealize.ShloMosaic.TcCoe Idealize.SL.Sem Idealize.ShloMosaic.StableHlo
open Cert.ReferenceIdeal.RefOps Cert.ReferenceIdeal.RefRun

theorem frame_k : Cert.frame_Kernel := fun m ρ _ => Cert.Kernel.Gen.frame m ρ
theorem frame_ki : Cert.frame_KernelIdeal := fun m ρ _ => Cert.KernelIdeal.Gen.frame m ρ

-- no operation of the reference writes an argument, so each ends as launched
theorem frame_r : Cert.frame_ReferenceIdeal := fun m ρ _ => by
  refine (θ_run Cert.ReferenceIdeal.defs _ _).mono (fun _ h c => ?_) (run_all (F := Ideal) m ρ)
  repeat' apply And.intro
  all_goals exact (h c _).trans (Cert.Bridge.Head.rEnd m c _ (by decide))

-- the one ledger entry: narrowing to bf16 and widening back is the identity on exact values
theorem preserves : Cert.preserves_Kernel_KernelIdeal := IdealRules.truncf_extf.statement _ .f32 .bf16

theorem algebraic : Cert.algebraic_KernelIdeal_ReferenceIdeal := by
  intro m ρ m' ρ' hpre hagree
  refine ⟨fun c => Cert.Bridge.kOut m ρ c, ?_, ?_⟩
  · exact Cert.KernelIdeal.KRun.run_value (F := Ideal) m ρ
  · refine (θ_run Cert.ReferenceIdeal.defs _ _).mono (fun _ h c => ?_) (run_all (F := Ideal) m' ρ')
    obtain ⟨h0, h1, h2, h3, h4, h5, h6, h7, h8, h9, h10, h11, h12, h13, h14, h15, h16, h17, h18, h19, h20, h21, h22, h23, h24⟩ := hagree c
    have ha : Cert.Bridge.Agree m m' c := ⟨h0, h1, h2, h3, h4, h5, h6, h7, h8, h9, h10, h11, h12, h13, h14, h15, h16, h17, h18, h19, h20, h21, h22, h23, h24⟩
    have hf : Cert.Bridge.FinArgs m c := Cert.Bridge.finArgs_of_pre m c hpre
    have hA := Cert.Bridge.stageA_val m ρ m' c ha
    have hB := Cert.Bridge.stageB m ρ m' c ha hf hA (Cert.Bridge.stageA_sum m ρ m' c ha) (Cert.Bridge.stageA_sq m ρ m' c ha)
      (Cert.Bridge.stageA_fin m m' c ha hf)
    have hC := Cert.Bridge.stageC m ρ m' c ha hB
    have hD := Cert.Bridge.stageD m ρ m' c ha hC
    have hE := Cert.Bridge.stageE m ρ m' c ha hD
    refine ⟨(h c _).trans hE.symm, ?_⟩
    repeat' apply And.intro
    all_goals exact (h c _).trans (Cert.Bridge.Head.rEnd m' c _ (by decide))

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
